-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v184)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v184) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S2x800000 : Shape := ⟨2, ![2, 800000]⟩
abbrev S50000 : Shape := ⟨1, ![50000]⟩
abbrev S9x119x128 : Shape := ⟨3, ![9, 119, 128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S_ : Shape := ⟨0, ![]⟩

class Facts : Prop where
  bcast_S_S9x119x128 : S_.BroadcastsInDim S9x119x128 (![] : Fin 0 → Fin S9x119x128.rank)
  reducesTo_S9x119x128_S_d0_1_2 : S9x119x128.ReducesTo [0, 1, 2] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S50000x9 : S_.BroadcastsInDim S50000x9 (![] : Fin 0 → Fin S50000x9.rank)
  reducesTo_S50000x9_S_d0_1 : S50000x9.ReducesTo [0, 1] S_

variable [Facts]

def fn_part2 {F : FTy → Type} [FloatOps F] (main_arg0 : IVec S50000x9 32) (main_v33 : IVec S_ 1) : IVec S_ 1 :=
  let main_c_12 : IVec S_ 32 := constantI S_ 32 0#32
  let main_v34 : IVec S50000x9 32 := broadcastInDim S50000x9 ![] bcast_S_S50000x9 main_c_12
  let main_v35 : IVec S50000x9 1 := cmpi .sge main_arg0 main_v34
  let main_c_13 : IVec S_ 32 := constantI S_ 32 119#32
  let main_v36 : IVec S50000x9 32 := broadcastInDim S50000x9 ![] bcast_S_S50000x9 main_c_13
  let main_v37 : IVec S50000x9 1 := cmpi .slt main_arg0 main_v36
  let main_v38 : IVec S50000x9 1 := andi main_v35 main_v37
  let main_c_14 : IVec S_ 1 := constantI S_ 1 1#1
  let main_v39 : IVec S_ 1 := (fun x v => Host.reduce IntOp.andi x v reducesTo_S50000x9_S_d0_1 h_S_) main_v38 main_c_14
  let main_v40 : IVec S_ 1 := andi main_v33 main_v39
  main_v40

def fn_part1 {F : FTy → Type} [FloatOps F] (main_arg0 : IVec S50000x9 32) (main_arg7 : FVec F S4x128 .f32) (main_arg8 : FVec F S128x1 .f32) (main_arg9 : FVec F S1 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg7
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S128x1 .f32 := Host.absf main_arg8
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg0 main_v33

def fn {F : FTy → Type} [FloatOps F] (main_arg0 : IVec S50000x9 32) (main_arg1 : IVec S2x800000 32) (main_arg2 : IVec S50000 32) (main_arg3 : FVec F S9x119x128 .f32) (main_arg4 : FVec F S4x128x128 .f32) (main_arg5 : FVec F S4x128 .f32) (main_arg6 : FVec F S4x128 .f32) (main_arg7 : FVec F S4x128 .f32) (main_arg8 : FVec F S128x1 .f32) (main_arg9 : FVec F S1 .f32) : IVec S_ 1 :=
  let main_v0 : FVec F S9x119x128 .f32 := Host.absf main_arg3
  let main_cst : FVec F S_ .f32 := constant S_ .f32 0x7F800000#32
  let main_v1 : FVec F S9x119x128 .f32 := broadcastInDim S9x119x128 ![] bcast_S_S9x119x128 main_cst
  let main_v2 : IVec S9x119x128 1 := cmpf .olt main_v0 main_v1
  let main_c : IVec S_ 1 := constantI S_ 1 1#1
  let main_v3 : IVec S_ 1 := (fun x v => Host.reduce IntOp.andi x v reducesTo_S9x119x128_S_d0_1_2 h_S_) main_v2 main_c
  let main_v4 : FVec F S4x128x128 .f32 := Host.absf main_arg4
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg5
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg6
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg0 main_arg7 main_arg8 main_arg9 main_v13 main_v16
-- ==== Kernel.lean ====
abbrev S50000x9 : Shape := ⟨2, ![50000, 9]⟩
abbrev S2x800000 : Shape := ⟨2, ![2, 800000]⟩
abbrev S50000 : Shape := ⟨1, ![50000]⟩
abbrev S9x119x128 : Shape := ⟨3, ![9, 119, 128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S_ : Shape := ⟨0, ![]⟩
abbrev S9x128x128 : Shape := ⟨3, ![9, 128, 128]⟩
abbrev S50000x128 : Shape := ⟨2, ![50000, 128]⟩
abbrev S2000x9 : Shape := ⟨2, ![2000, 9]⟩
abbrev S2000x128 : Shape := ⟨2, ![2000, 128]⟩
abbrev S2000x1 : Shape := ⟨2, ![2000, 1]⟩
abbrev S1x128x128 : Shape := ⟨3, ![1, 128, 128]⟩
abbrev S128x128 : Shape := ⟨2, ![128, 128]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩
abbrev S1x128 : Shape := ⟨2, ![1, 128]⟩
abbrev S128 : Shape := ⟨1, ![128]⟩
abbrev S1000 : Shape := ⟨1, ![1000]⟩
abbrev S50000x1 : Shape := ⟨2, ![50000, 1]⟩
abbrev S1000x128 : Shape := ⟨2, ![1000, 128]⟩
abbrev S1000x1 : Shape := ⟨2, ![1000, 1]⟩
abbrev S1x1 : Shape := ⟨2, ![1, 1]⟩

abbrev nBuf : Space → Nat
  | .hbm => 328
  | .vmem => 69
  | .smem => 0
  | _ => 0

abbrev hbmTy0_0 (i : Nat) : BufTy := match i % 128 with
  | 0 => ⟨S50000x9, .i32⟩
  | 1 => ⟨S2x800000, .i32⟩
  | 2 => ⟨S50000, .i32⟩
  | 3 => ⟨S9x119x128, .f32⟩
  | 4 => ⟨S4x128x128, .f32⟩
  | 5 => ⟨S4x128, .f32⟩
  | 6 => ⟨S4x128, .f32⟩
  | 7 => ⟨S4x128, .f32⟩
  | 8 => ⟨S128x1, .f32⟩
  | 9 => ⟨S1, .f32⟩
  | 10 => ⟨S_, .i32⟩
  | 11 => ⟨S_, .f32⟩
  | 12 => ⟨S9x128x128, .f32⟩
  | 13 => ⟨S50000x128, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S850000x1, .f32⟩
  | 58 => ⟨S1x128x128, .f32⟩
  | 59 => ⟨S128x128, .f32⟩
  | 60 => ⟨S50000x128, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x128, .f32⟩
  | 70 => ⟨S850000x128, .f32⟩
  | 71 => ⟨S850000x128, .f32⟩
  | 72 => ⟨S_, .f32⟩
  | 73 => ⟨S50000x128, .f32⟩
  | 74 => ⟨S850000x1, .i32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S_, .f32⟩
  | 85 => ⟨S128, .f32⟩
  | 86 => ⟨S_, .f32⟩
  | 87 => ⟨S128, .f32⟩
  | 88 => ⟨S128, .f32⟩
  | 89 => ⟨S_, .i32⟩
  | 90 => ⟨S_, .f32⟩
  | 91 => ⟨S128, .f32⟩
  | 92 => ⟨S1x128, .f32⟩
  | 93 => ⟨S_, .f32⟩
  | 94 => ⟨S1x128, .f32⟩
  | 95 => ⟨S1x128, .f32⟩
  | 96 => ⟨S50000x128, .f32⟩
  | 97 => ⟨S50000x128, .f32⟩
  | 98 => ⟨S50000x128, .f32⟩
  | 99 => ⟨S_, .f32⟩
  | 100 => ⟨S_, .f32⟩
  | 101 => ⟨S_, .f32⟩
  | 102 => ⟨S_, .f32⟩
  | 103 => ⟨S128, .f32⟩
  | 104 => ⟨S128, .f32⟩
  | 105 => ⟨S128, .f32⟩
  | 106 => ⟨S_, .f32⟩
  | 107 => ⟨S_, .i1⟩
  | 108 => ⟨S_, .f32⟩
  | 109 => ⟨S_, .f32⟩
  | 110 => ⟨S128, .f32⟩
  | 111 => ⟨S128, .f32⟩
  | 112 => ⟨S1x128, .f32⟩
  | 113 => ⟨S128, .f32⟩
  | 114 => ⟨S1x128, .f32⟩
  | 115 => ⟨S1x128, .f32⟩
  | 116 => ⟨S128, .f32⟩
  | 117 => ⟨S1x128, .f32⟩
  | 118 => ⟨S1x128, .f32⟩
  | 119 => ⟨S1x128, .f32⟩
  | 120 => ⟨S50000x128, .f32⟩
  | 121 => ⟨S1x128x128, .f32⟩
  | 122 => ⟨S128x128, .f32⟩
  | 123 => ⟨S50000x128, .f32⟩
  | 124 => ⟨S_, .i32⟩
  | 125 => ⟨S850000, .i32⟩
  | 126 => ⟨S850000, .i1⟩
  | 127 => ⟨S_, .i32⟩
  | _ => ⟨S50000x9, .i32⟩

abbrev hbmTy0_1 (i : Nat) : BufTy := match i % 128 with
  | 0 => ⟨S850000, .i32⟩
  | 1 => ⟨S850000, .i32⟩
  | 2 => ⟨S850000, .i32⟩
  | 3 => ⟨S850000x1, .i32⟩
  | 4 => ⟨S850000x128, .f32⟩
  | 5 => ⟨S850000x128, .f32⟩
  | 6 => ⟨S850000x128, .f32⟩
  | 7 => ⟨S_, .f32⟩
  | 8 => ⟨S50000x128, .f32⟩
  | 9 => ⟨S850000x1, .i32⟩
  | 10 => ⟨S50000x128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S_, .f32⟩
  | 20 => ⟨S128, .f32⟩
  | 21 => ⟨S_, .f32⟩
  | 22 => ⟨S128, .f32⟩
  | 23 => ⟨S128, .f32⟩
  | 24 => ⟨S_, .i32⟩
  | 25 => ⟨S_, .f32⟩
  | 26 => ⟨S128, .f32⟩
  | 27 => ⟨S1x128, .f32⟩
  | 28 => ⟨S_, .f32⟩
  | 29 => ⟨S1x128, .f32⟩
  | 30 => ⟨S1x128, .f32⟩
  | 31 => ⟨S50000x128, .f32⟩
  | 32 => ⟨S50000x128, .f32⟩
  | 33 => ⟨S50000x128, .f32⟩
  | 34 => ⟨S_, .f32⟩
  | 35 => ⟨S_, .f32⟩
  | 36 => ⟨S_, .f32⟩
  | 37 => ⟨S_, .f32⟩
  | 38 => ⟨S128, .f32⟩
  | 39 => ⟨S128, .f32⟩
  | 40 => ⟨S128, .f32⟩
  | 41 => ⟨S_, .f32⟩
  | 42 => ⟨S_, .i1⟩
  | 43 => ⟨S_, .f32⟩
  | 44 => ⟨S_, .f32⟩
  | 45 => ⟨S128, .f32⟩
  | 46 => ⟨S128, .f32⟩
  | 47 => ⟨S1x128, .f32⟩
  | 48 => ⟨S128, .f32⟩
  | 49 => ⟨S1x128, .f32⟩
  | 50 => ⟨S1x128, .f32⟩
  | 51 => ⟨S128, .f32⟩
  | 52 => ⟨S1x128, .f32⟩
  | 53 => ⟨S1x128, .f32⟩
  | 54 => ⟨S1x128, .f32⟩
  | 55 => ⟨S50000x128, .f32⟩
  | 56 => ⟨S1x128x128, .f32⟩
  | 57 => ⟨S128x128, .f32⟩
  | 58 => ⟨S50000x128, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x128, .f32⟩
  | 68 => ⟨S850000x128, .f32⟩
  | 69 => ⟨S850000x128, .f32⟩
  | 70 => ⟨S_, .f32⟩
  | 71 => ⟨S50000x128, .f32⟩
  | 72 => ⟨S850000x1, .i32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S1x128, .f32⟩
  | 111 => ⟨S128, .f32⟩
  | 112 => ⟨S1x128, .f32⟩
  | 113 => ⟨S1x128, .f32⟩
  | 114 => ⟨S128, .f32⟩
  | 115 => ⟨S1x128, .f32⟩
  | 116 => ⟨S1x128, .f32⟩
  | 117 => ⟨S1x128, .f32⟩
  | 118 => ⟨S50000x128, .f32⟩
  | 119 => ⟨S1x128x128, .f32⟩
  | 120 => ⟨S128x128, .f32⟩
  | 121 => ⟨S50000x128, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x9, .i32⟩

abbrev hbmTy0_2 (i : Nat) : BufTy := match i % 128 with
  | 0 => ⟨S850000, .i32⟩
  | 1 => ⟨S850000x1, .i32⟩
  | 2 => ⟨S850000x128, .f32⟩
  | 3 => ⟨S850000x128, .f32⟩
  | 4 => ⟨S850000x128, .f32⟩
  | 5 => ⟨S_, .f32⟩
  | 6 => ⟨S50000x128, .f32⟩
  | 7 => ⟨S850000x1, .i32⟩
  | 8 => ⟨S50000x128, .f32⟩
  | 9 => ⟨S1x128, .f32⟩
  | 10 => ⟨S128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S_, .f32⟩
  | 18 => ⟨S128, .f32⟩
  | 19 => ⟨S_, .f32⟩
  | 20 => ⟨S128, .f32⟩
  | 21 => ⟨S128, .f32⟩
  | 22 => ⟨S_, .i32⟩
  | 23 => ⟨S_, .f32⟩
  | 24 => ⟨S128, .f32⟩
  | 25 => ⟨S1x128, .f32⟩
  | 26 => ⟨S_, .f32⟩
  | 27 => ⟨S1x128, .f32⟩
  | 28 => ⟨S1x128, .f32⟩
  | 29 => ⟨S50000x128, .f32⟩
  | 30 => ⟨S50000x128, .f32⟩
  | 31 => ⟨S50000x128, .f32⟩
  | 32 => ⟨S_, .f32⟩
  | 33 => ⟨S_, .f32⟩
  | 34 => ⟨S_, .f32⟩
  | 35 => ⟨S_, .f32⟩
  | 36 => ⟨S128, .f32⟩
  | 37 => ⟨S128, .f32⟩
  | 38 => ⟨S128, .f32⟩
  | 39 => ⟨S_, .f32⟩
  | 40 => ⟨S_, .i1⟩
  | 41 => ⟨S_, .f32⟩
  | 42 => ⟨S_, .f32⟩
  | 43 => ⟨S128, .f32⟩
  | 44 => ⟨S128, .f32⟩
  | 45 => ⟨S1x128, .f32⟩
  | 46 => ⟨S128, .f32⟩
  | 47 => ⟨S1x128, .f32⟩
  | 48 => ⟨S1x128, .f32⟩
  | 49 => ⟨S128, .f32⟩
  | 50 => ⟨S1x128, .f32⟩
  | 51 => ⟨S1x128, .f32⟩
  | 52 => ⟨S1x128, .f32⟩
  | 53 => ⟨S50000x128, .f32⟩
  | 54 => ⟨S_, .f32⟩
  | 55 => ⟨S50000, .f32⟩
  | 56 => ⟨S_, .f32⟩
  | 57 => ⟨S1000, .f32⟩
  | 58 => ⟨S50000x1, .i32⟩
  | 59 => ⟨S1000, .f32⟩
  | 60 => ⟨S_, .f32⟩
  | 61 => ⟨S1000x128, .f32⟩
  | 62 => ⟨S50000x1, .i32⟩
  | 63 => ⟨S1000x128, .f32⟩
  | 64 => ⟨S_, .f32⟩
  | 65 => ⟨S1000, .f32⟩
  | 66 => ⟨S1000, .f32⟩
  | 67 => ⟨S1000x1, .f32⟩
  | 68 => ⟨S1000x128, .f32⟩
  | 69 => ⟨S1000x128, .f32⟩
  | 70 => ⟨S1x1, .f32⟩
  | 71 => ⟨S1000x1, .f32⟩
  | _ => ⟨S50000x9, .i32⟩

abbrev hbmTy (i : Nat) : BufTy := match i / 128 with
  | 0 => hbmTy0_0 i
  | 1 => hbmTy0_1 i
  | 2 => hbmTy0_2 i
  | _ => ⟨S50000x9, .i32⟩

abbrev bufTy : (tb : Table) → Fin (tcTables nBuf tb) → BufTy
  | .hbm, ⟨i, _⟩ => hbmTy i
  | .local _ .vmem, ⟨0, _⟩ => ⟨S2000x9, .i32⟩
  | .local _ .vmem, ⟨1, _⟩ => ⟨S2000x9, .i32⟩
  | .local _ .vmem, ⟨2, _⟩ => ⟨S9x128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S128x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S128x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S2000x128, .f32⟩
  | .local _ .vmem, ⟨64, _⟩ => ⟨S2000x128, .f32⟩
  | .local _ .vmem, ⟨65, _⟩ => ⟨S1000x128, .f32⟩
  | .local _ .vmem, ⟨66, _⟩ => ⟨S128x1, .f32⟩
  | .local _ .vmem, ⟨67, _⟩ => ⟨S1x1, .f32⟩
  | .local _ .vmem, ⟨68, _⟩ => ⟨S1000x1, .f32⟩
  | _, _ => ⟨S50000x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call2_cst : Ref sig .tc := ⟨.hbm, 81, rfl⟩
abbrev main_call2_v0 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_c_13 : Ref sig .tc := ⟨.hbm, 89, rfl⟩
abbrev main_call3_cst : Ref sig .tc := ⟨.hbm, 90, rfl⟩
abbrev main_call3_v0 : Ref sig .tc := ⟨.hbm, 91, rfl⟩
abbrev main_call3_v1 : Ref sig .tc := ⟨.hbm, 92, rfl⟩
abbrev main_call3_cst_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_v6 : Ref sig .tc := ⟨.hbm, 98, rfl⟩
abbrev main_call3_v7 : Ref sig .tc := ⟨.hbm, 99, rfl⟩
abbrev main_call3_cst_1 : Ref sig .tc := ⟨.hbm, 100, rfl⟩
abbrev main_call3_v8 : Ref sig .tc := ⟨.hbm, 101, rfl⟩
abbrev main_call3_cst_2 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_cst_3 : Ref sig .tc := ⟨.hbm, 106, rfl⟩
abbrev main_call3_v12 : Ref sig .tc := ⟨.hbm, 107, rfl⟩
abbrev main_call3_cst_4 : Ref sig .tc := ⟨.hbm, 108, rfl⟩
abbrev main_call3_call0_v0 : Ref sig .tc := ⟨.hbm, 109, rfl⟩
abbrev main_call3_call0_v1 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_c_14 : Ref sig .tc := ⟨.hbm, 124, rfl⟩
abbrev main_v72 : Ref sig .tc := ⟨.hbm, 125, rfl⟩
abbrev main_v73 : Ref sig .tc := ⟨.hbm, 126, rfl⟩
abbrev main_c_15 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_cst_16 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_call4_cst : Ref sig .tc := ⟨.hbm, 144, rfl⟩
abbrev main_call4_v0 : Ref sig .tc := ⟨.hbm, 145, rfl⟩
abbrev main_v89 : Ref sig .tc := ⟨.hbm, 146, rfl⟩
abbrev main_cst_17 : Ref sig .tc := ⟨.hbm, 147, rfl⟩
abbrev main_v90 : Ref sig .tc := ⟨.hbm, 148, rfl⟩
abbrev main_cst_18 : Ref sig .tc := ⟨.hbm, 149, rfl⟩
abbrev main_v91 : Ref sig .tc := ⟨.hbm, 150, rfl⟩
abbrev main_v92 : Ref sig .tc := ⟨.hbm, 151, rfl⟩
abbrev main_c_19 : Ref sig .tc := ⟨.hbm, 152, rfl⟩
abbrev main_call5_cst : Ref sig .tc := ⟨.hbm, 153, rfl⟩
abbrev main_call5_v0 : Ref sig .tc := ⟨.hbm, 154, rfl⟩
abbrev main_call5_v1 : Ref sig .tc := ⟨.hbm, 155, rfl⟩
abbrev main_call5_cst_0 : Ref sig .tc := ⟨.hbm, 156, rfl⟩
abbrev main_call5_v2 : Ref sig .tc := ⟨.hbm, 157, rfl⟩
abbrev main_call5_v3 : Ref sig .tc := ⟨.hbm, 158, rfl⟩
abbrev main_call5_v4 : Ref sig .tc := ⟨.hbm, 159, rfl⟩
abbrev main_call5_v5 : Ref sig .tc := ⟨.hbm, 160, rfl⟩
abbrev main_call5_v6 : Ref sig .tc := ⟨.hbm, 161, rfl⟩
abbrev main_call5_v7 : Ref sig .tc := ⟨.hbm, 162, rfl⟩
abbrev main_call5_cst_1 : Ref sig .tc := ⟨.hbm, 163, rfl⟩
abbrev main_call5_v8 : Ref sig .tc := ⟨.hbm, 164, rfl⟩
abbrev main_call5_cst_2 : Ref sig .tc := ⟨.hbm, 165, rfl⟩
abbrev main_call5_v9 : Ref sig .tc := ⟨.hbm, 166, rfl⟩
abbrev main_call5_v10 : Ref sig .tc := ⟨.hbm, 167, rfl⟩
abbrev main_call5_v11 : Ref sig .tc := ⟨.hbm, 168, rfl⟩
abbrev main_call5_cst_3 : Ref sig .tc := ⟨.hbm, 169, rfl⟩
abbrev main_call5_v12 : Ref sig .tc := ⟨.hbm, 170, rfl⟩
abbrev main_call5_cst_4 : Ref sig .tc := ⟨.hbm, 171, rfl⟩
abbrev main_call5_call0_v0 : Ref sig .tc := ⟨.hbm, 172, rfl⟩
abbrev main_call5_call0_v1 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_c_20 : Ref sig .tc := ⟨.hbm, 187, rfl⟩
abbrev main_v106 : Ref sig .tc := ⟨.hbm, 188, rfl⟩
abbrev main_v107 : Ref sig .tc := ⟨.hbm, 189, rfl⟩
abbrev main_c_21 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_22 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_call6_cst : Ref sig .tc := ⟨.hbm, 207, rfl⟩
abbrev main_call6_v0 : Ref sig .tc := ⟨.hbm, 208, rfl⟩
abbrev main_v123 : Ref sig .tc := ⟨.hbm, 209, rfl⟩
abbrev main_cst_23 : Ref sig .tc := ⟨.hbm, 210, rfl⟩
abbrev main_v124 : Ref sig .tc := ⟨.hbm, 211, rfl⟩
abbrev main_cst_24 : Ref sig .tc := ⟨.hbm, 212, rfl⟩
abbrev main_v125 : Ref sig .tc := ⟨.hbm, 213, rfl⟩
abbrev main_v126 : Ref sig .tc := ⟨.hbm, 214, rfl⟩
abbrev main_c_25 : Ref sig .tc := ⟨.hbm, 215, rfl⟩
abbrev main_call7_cst : Ref sig .tc := ⟨.hbm, 216, rfl⟩
abbrev main_call7_v0 : Ref sig .tc := ⟨.hbm, 217, rfl⟩
abbrev main_call7_v1 : Ref sig .tc := ⟨.hbm, 218, rfl⟩
abbrev main_call7_cst_0 : Ref sig .tc := ⟨.hbm, 219, rfl⟩
abbrev main_call7_v2 : Ref sig .tc := ⟨.hbm, 220, rfl⟩
abbrev main_call7_v3 : Ref sig .tc := ⟨.hbm, 221, rfl⟩
abbrev main_call7_v4 : Ref sig .tc := ⟨.hbm, 222, rfl⟩
abbrev main_call7_v5 : Ref sig .tc := ⟨.hbm, 223, rfl⟩
abbrev main_call7_v6 : Ref sig .tc := ⟨.hbm, 224, rfl⟩
abbrev main_call7_v7 : Ref sig .tc := ⟨.hbm, 225, rfl⟩
abbrev main_call7_cst_1 : Ref sig .tc := ⟨.hbm, 226, rfl⟩
abbrev main_call7_v8 : Ref sig .tc := ⟨.hbm, 227, rfl⟩
abbrev main_call7_cst_2 : Ref sig .tc := ⟨.hbm, 228, rfl⟩
abbrev main_call7_v9 : Ref sig .tc := ⟨.hbm, 229, rfl⟩
abbrev main_call7_v10 : Ref sig .tc := ⟨.hbm, 230, rfl⟩
abbrev main_call7_v11 : Ref sig .tc := ⟨.hbm, 231, rfl⟩
abbrev main_call7_cst_3 : Ref sig .tc := ⟨.hbm, 232, rfl⟩
abbrev main_call7_v12 : Ref sig .tc := ⟨.hbm, 233, rfl⟩
abbrev main_call7_cst_4 : Ref sig .tc := ⟨.hbm, 234, rfl⟩
abbrev main_call7_call0_v0 : Ref sig .tc := ⟨.hbm, 235, rfl⟩
abbrev main_call7_call0_v1 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_c_26 : Ref sig .tc := ⟨.hbm, 250, rfl⟩
abbrev main_v140 : Ref sig .tc := ⟨.hbm, 251, rfl⟩
abbrev main_v141 : Ref sig .tc := ⟨.hbm, 252, rfl⟩
abbrev main_c_27 : Ref sig .tc := ⟨.hbm, 253, rfl⟩
abbrev main_v142 : Ref sig .tc := ⟨.hbm, 254, rfl⟩
abbrev main_v143 : Ref sig .tc := ⟨.hbm, 255, rfl⟩
abbrev main_v144 : Ref sig .tc := ⟨.hbm, 256, rfl⟩
abbrev main_v145 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩
abbrev main_cst_28 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_v153 : Ref sig .tc := ⟨.hbm, 266, rfl⟩
abbrev main_v154 : Ref sig .tc := ⟨.hbm, 267, rfl⟩
abbrev main_v155 : Ref sig .tc := ⟨.hbm, 268, rfl⟩
abbrev main_v156 : Ref sig .tc := ⟨.hbm, 269, rfl⟩
abbrev main_call8_cst : Ref sig .tc := ⟨.hbm, 270, rfl⟩
abbrev main_call8_v0 : Ref sig .tc := ⟨.hbm, 271, rfl⟩
abbrev main_v157 : Ref sig .tc := ⟨.hbm, 272, rfl⟩
abbrev main_cst_29 : Ref sig .tc := ⟨.hbm, 273, rfl⟩
abbrev main_v158 : Ref sig .tc := ⟨.hbm, 274, rfl⟩
abbrev main_cst_30 : Ref sig .tc := ⟨.hbm, 275, rfl⟩
abbrev main_v159 : Ref sig .tc := ⟨.hbm, 276, rfl⟩
abbrev main_v160 : Ref sig .tc := ⟨.hbm, 277, rfl⟩
abbrev main_c_31 : Ref sig .tc := ⟨.hbm, 278, rfl⟩
abbrev main_call9_cst : Ref sig .tc := ⟨.hbm, 279, rfl⟩
abbrev main_call9_v0 : Ref sig .tc := ⟨.hbm, 280, rfl⟩
abbrev main_call9_v1 : Ref sig .tc := ⟨.hbm, 281, rfl⟩
abbrev main_call9_cst_0 : Ref sig .tc := ⟨.hbm, 282, rfl⟩
abbrev main_call9_v2 : Ref sig .tc := ⟨.hbm, 283, rfl⟩
abbrev main_call9_v3 : Ref sig .tc := ⟨.hbm, 284, rfl⟩
abbrev main_call9_v4 : Ref sig .tc := ⟨.hbm, 285, rfl⟩
abbrev main_call9_v5 : Ref sig .tc := ⟨.hbm, 286, rfl⟩
abbrev main_call9_v6 : Ref sig .tc := ⟨.hbm, 287, rfl⟩
abbrev main_call9_v7 : Ref sig .tc := ⟨.hbm, 288, rfl⟩
abbrev main_call9_cst_1 : Ref sig .tc := ⟨.hbm, 289, rfl⟩
abbrev main_call9_v8 : Ref sig .tc := ⟨.hbm, 290, rfl⟩
abbrev main_call9_cst_2 : Ref sig .tc := ⟨.hbm, 291, rfl⟩
abbrev main_call9_v9 : Ref sig .tc := ⟨.hbm, 292, rfl⟩
abbrev main_call9_v10 : Ref sig .tc := ⟨.hbm, 293, rfl⟩
abbrev main_call9_v11 : Ref sig .tc := ⟨.hbm, 294, rfl⟩
abbrev main_call9_cst_3 : Ref sig .tc := ⟨.hbm, 295, rfl⟩
abbrev main_call9_v12 : Ref sig .tc := ⟨.hbm, 296, rfl⟩
abbrev main_call9_cst_4 : Ref sig .tc := ⟨.hbm, 297, rfl⟩
abbrev main_call9_call0_v0 : Ref sig .tc := ⟨.hbm, 298, rfl⟩
abbrev main_call9_call0_v1 : Ref sig .tc := ⟨.hbm, 299, rfl⟩
abbrev main_v161 : Ref sig .tc := ⟨.hbm, 300, rfl⟩
abbrev main_v162 : Ref sig .tc := ⟨.hbm, 301, rfl⟩
abbrev main_v163 : Ref sig .tc := ⟨.hbm, 302, rfl⟩
abbrev main_v164 : Ref sig .tc := ⟨.hbm, 303, rfl⟩
abbrev main_v165 : Ref sig .tc := ⟨.hbm, 304, rfl⟩
abbrev main_v166 : Ref sig .tc := ⟨.hbm, 305, rfl⟩
abbrev main_v167 : Ref sig .tc := ⟨.hbm, 306, rfl⟩
abbrev main_v168 : Ref sig .tc := ⟨.hbm, 307, rfl⟩
abbrev main_v169 : Ref sig .tc := ⟨.hbm, 308, rfl⟩
abbrev main_v170 : Ref sig .tc := ⟨.hbm, 309, rfl⟩
abbrev main_cst_32 : Ref sig .tc := ⟨.hbm, 310, rfl⟩
abbrev main_v171 : Ref sig .tc := ⟨.hbm, 311, rfl⟩
abbrev main_cst_33 : Ref sig .tc := ⟨.hbm, 312, rfl⟩
abbrev main_v172 : Ref sig .tc := ⟨.hbm, 313, rfl⟩
abbrev main_v173 : Ref sig .tc := ⟨.hbm, 314, rfl⟩
abbrev main_v174 : Ref sig .tc := ⟨.hbm, 315, rfl⟩
abbrev main_cst_34 : Ref sig .tc := ⟨.hbm, 316, rfl⟩
abbrev main_v175 : Ref sig .tc := ⟨.hbm, 317, rfl⟩
abbrev main_v176 : Ref sig .tc := ⟨.hbm, 318, rfl⟩
abbrev main_v177 : Ref sig .tc := ⟨.hbm, 319, rfl⟩
abbrev main_cst_35 : Ref sig .tc := ⟨.hbm, 320, rfl⟩
abbrev main_v178 : Ref sig .tc := ⟨.hbm, 321, rfl⟩
abbrev main_v179 : Ref sig .tc := ⟨.hbm, 322, rfl⟩
abbrev main_v180 : Ref sig .tc := ⟨.hbm, 323, rfl⟩
abbrev main_v181 : Ref sig .tc := ⟨.hbm, 324, rfl⟩
abbrev main_v182 : Ref sig .tc := ⟨.hbm, 325, rfl⟩
abbrev main_v183 : Ref sig .tc := ⟨.hbm, 326, rfl⟩
abbrev main_v184 : Ref sig .tc := ⟨.hbm, 327, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg5_0 : Ref sig .tc := ⟨.vmem, 32, rfl⟩
abbrev cc4_stg6_0 : Ref sig .tc := ⟨.vmem, 33, rfl⟩
abbrev cc4_stg6_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc6_stg6_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg2_1 : Ref sig .tc := ⟨.vmem, 54, rfl⟩
abbrev cc8_stg0_0 : Ref sig .tc := ⟨.vmem, 55, rfl⟩
abbrev cc8_stg0_1 : Ref sig .tc := ⟨.vmem, 56, rfl⟩
abbrev cc8_stg1_0 : Ref sig .tc := ⟨.vmem, 57, rfl⟩
abbrev cc8_stg1_1 : Ref sig .tc := ⟨.vmem, 58, rfl⟩
abbrev cc8_stg2_0 : Ref sig .tc := ⟨.vmem, 59, rfl⟩
abbrev cc8_stg3_0 : Ref sig .tc := ⟨.vmem, 60, rfl⟩
abbrev cc8_stg4_0 : Ref sig .tc := ⟨.vmem, 61, rfl⟩
abbrev cc8_stg5_0 : Ref sig .tc := ⟨.vmem, 62, rfl⟩
abbrev cc8_stg6_0 : Ref sig .tc := ⟨.vmem, 63, rfl⟩
abbrev cc8_stg6_1 : Ref sig .tc := ⟨.vmem, 64, rfl⟩
abbrev cc9_stg0_0 : Ref sig .tc := ⟨.vmem, 65, rfl⟩
abbrev cc9_stg1_0 : Ref sig .tc := ⟨.vmem, 66, rfl⟩
abbrev cc9_stg2_0 : Ref sig .tc := ⟨.vmem, 67, rfl⟩
abbrev cc9_stg3_0 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem3_0 : DmaSem sig := 30
abbrev cc4_sem4_0 : DmaSem sig := 31
abbrev cc4_sem5_0 : DmaSem sig := 32
abbrev cc4_sem6_0 : DmaSem sig := 33
abbrev cc4_sem6_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem6_0 : DmaSem sig := 48
abbrev cc6_sem6_1 : DmaSem sig := 49
abbrev cc7_sem0_0 : DmaSem sig := 50
abbrev cc7_sem0_1 : DmaSem sig := 51
abbrev cc7_sem1_0 : DmaSem sig := 52
abbrev cc7_sem2_0 : DmaSem sig := 53
abbrev cc7_sem2_1 : DmaSem sig := 54
abbrev cc8_sem0_0 : DmaSem sig := 55
abbrev cc8_sem0_1 : DmaSem sig := 56
abbrev cc8_sem1_0 : DmaSem sig := 57
abbrev cc8_sem1_1 : DmaSem sig := 58
abbrev cc8_sem2_0 : DmaSem sig := 59
abbrev cc8_sem3_0 : DmaSem sig := 60
abbrev cc8_sem4_0 : DmaSem sig := 61
abbrev cc8_sem5_0 : DmaSem sig := 62
abbrev cc8_sem6_0 : DmaSem sig := 63
abbrev cc8_sem6_1 : DmaSem sig := 64
abbrev cc9_sem0_0 : DmaSem sig := 65
abbrev cc9_sem1_0 : DmaSem sig := 66
abbrev cc9_sem2_0 : DmaSem sig := 67
abbrev cc9_sem3_0 : DmaSem sig := 68

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x9 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S2000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S1000x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S128x1 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1000x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

class Facts₀ : Prop where
  pads_S9x119x128_S9x128x128_000_090_000 : S9x119x128.Pads (![0, 0, 0] : Fin 3 → Nat) ![0, 9, 0] ![0, 0, 0] S9x128x128
  h_S_ : 0 < S_.numel
  inb_S2000x9_S2000x9_0_0 : ∀ a, (![0, 0] : Fin 2 → Nat) a + S2000x9.size a ≤ S2000x9.size a
  h_S2000x9 : 0 < S2000x9.numel
  iota_S2000x128_d1_w32 : S2000x128.Iotas .tc 32 [1]
  slices_S2000x9_o0_0_S2000x1 : S2000x9.Slices ![0, 0] S2000x1
  broadcasts_S2000x1_S2000x128 : S2000x1.Broadcasts S2000x128
  natLt_1_32 : 1 < 32
  bitsLt_bf16_f32 : FTy.bits .bf16 < FTy.bits .f32
  inb_S9x128x128_S1x128x128_0_0_0 : ∀ a, (![0, 0, 0] : Fin 3 → Nat) a + S1x128x128.size a ≤ S9x128x128.size a
  h_S1x128x128 : 0 < S1x128x128.numel
  shapeCasts_S1x128x128_S128x128 : S1x128x128.ShapeCasts S128x128
  slices_S2000x9_o0_1_S2000x1 : S2000x9.Slices ![0, 1] S2000x1
  inb_S9x128x128_S1x128x128_1_0_0 : ∀ a, (![1, 0, 0] : Fin 3 → Nat) a + S1x128x128.size a ≤ S9x128x128.size a
  slices_S2000x9_o0_2_S2000x1 : S2000x9.Slices ![0, 2] S2000x1
  inb_S9x128x128_S1x128x128_2_0_0 : ∀ a, (![2, 0, 0] : Fin 3 → Nat) a + S1x128x128.size a ≤ S9x128x128.size a
  slices_S2000x9_o0_3_S2000x1 : S2000x9.Slices ![0, 3] S2000x1
  inb_S9x128x128_S1x128x128_3_0_0 : ∀ a, (![3, 0, 0] : Fin 3 → Nat) a + S1x128x128.size a ≤ S9x128x128.size a
  slices_S2000x9_o0_4_S2000x1 : S2000x9.Slices ![0, 4] S2000x1
  inb_S9x128x128_S1x128x128_4_0_0 : ∀ a, (![4, 0, 0] : Fin 3 → Nat) a + S1x128x128.size a ≤ S9x128x128.size a
  slices_S2000x9_o0_5_S2000x1 : S2000x9.Slices ![0, 5] S2000x1
  inb_S9x128x128_S1x128x128_5_0_0 : ∀ a, (![5, 0, 0] : Fin 3 → Nat) a + S1x128x128.size a ≤ S9x128x128.size a
  slices_S2000x9_o0_6_S2000x1 : S2000x9.Slices ![0, 6] S2000x1
  inb_S9x128x128_S1x128x128_6_0_0 : ∀ a, (![6, 0, 0] : Fin 3 → Nat) a + S1x128x128.size a ≤ S9x128x128.size a
  slices_S2000x9_o0_7_S2000x1 : S2000x9.Slices ![0, 7] S2000x1
  inb_S9x128x128_S1x128x128_7_0_0 : ∀ a, (![7, 0, 0] : Fin 3 → Nat) a + S1x128x128.size a ≤ S9x128x128.size a
  slices_S2000x9_o0_8_S2000x1 : S2000x9.Slices ![0, 8] S2000x1
  inb_S9x128x128_S1x128x128_8_0_0 : ∀ a, (![8, 0, 0] : Fin 3 → Nat) a + S1x128x128.size a ≤ S9x128x128.size a
  inb_S2000x128_S2000x128_0_0 : ∀ a, (![0, 0] : Fin 2 → Nat) a + S2000x128.size a ≤ S2000x128.size a
  h_S2000x128 : 0 < S2000x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S4x128x128_S1x128x128_0_0_0 : S4x128x128.Slices ![0, 0, 0] S1x128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S1000 : S_.BroadcastsInDim S1000 (![] : Fin 0 → Fin S1000.rank)
  bcast_S50000_S50000x1_0 : S50000.BroadcastsInDim S50000x1 (![0] : Fin 1 → Fin S50000x1.rank)
  bcast_S_S1000x128 : S_.BroadcastsInDim S1000x128 (![] : Fin 0 → Fin S1000x128.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  shapeCasts_S1_S1x1 : S1.ShapeCasts S1x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  dot_S2000x128_S128x128_S2000x128_1_0_0_1_n_n_wf : DotDims.WF S2000x128 S128x128 S2000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S1000_S50000x1_S50000_n_0_0_1_wf : ScatterDims.WF S1000 S50000x1 S50000 [] [0] [0] 1
  scatter_S1000x128_S50000x1_S50000x128_1_0_0_1_wf : ScatterDims.WF S1000x128 S50000x1 S50000x128 [1] [0] [0] 1
  dot_S1000x128_S128x1_S1000x1_1_0_0_1_n_n_wf : DotDims.WF S1000x128 S128x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x9.size a ≤ S50000x9.size a
  hwx0_0 : ∀ i : grid0.Coords, EltTy.bits .i32 = 32 ∨ (Rect.block (s := S50000x9) S2000x9.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128x128.size a ≤ S9x128x128.size a
  hwx0_1 : ∀ i : grid0.Coords, EltTy.bits .f32 = 32 ∨ (Rect.block (s := S9x128x128) S9x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x128.size a ≤ S50000x128.size a
  hwx6_6 : ∀ i : grid6.Coords, EltTy.bits .f32 = 32 ∨ (Rect.block (s := S50000x128) S2000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S50000x128.size a
  hwx7_2 : ∀ i : grid7.Coords, EltTy.bits .f32 = 32 ∨ (Rect.block (s := S50000x128) S2000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S50000x128.size a
  hwx8_1 : ∀ i : grid8.Coords, EltTy.bits .f32 = 32 ∨ (Rect.block (s := S50000x128) S2000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S2000x128.size a ≤ S50000x128.size a
  hwx8_6 : ∀ i : grid8.Coords, EltTy.bits .f32 = 32 ∨ (Rect.block (s := S50000x128) S2000x128.size (cc8_transform_6 i) (hinb8_6 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S1000x128.size a ≤ S1000x128.size a
  hwx9_0 : ∀ i : grid9.Coords, EltTy.bits .f32 = 32 ∨ (Rect.block (s := S1000x128) S1000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x1.size a ≤ S128x1.size a
  hwx9_1 : ∀ i : grid9.Coords, EltTy.bits .f32 = 32 ∨ (Rect.block (s := S128x1) S128x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1.size a ≤ S1x1.size a
  hwx9_2 : ∀ i : grid9.Coords, EltTy.bits .f32 = 32 ∨ (Rect.block (s := S1x1) S1x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1000x1.size a ≤ S1000x1.size a
  hwx9_3 : ∀ i : grid9.Coords, EltTy.bits .f32 = 32 ∨ (Rect.block (s := S1000x1) S1000x1.size (cc9_transform_3 i) (hinb9_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf
def scatter_S1000x128_S50000x1_S50000x128_1_0_0_1 : ScatterDims S1000x128 S50000x1 S50000x128 where
  updateWindowDims := [1]
  insertedWindowDims := [0]
  scatterDimsToOperandDims := [0]
  indexVectorDim := 1
  wf := scatter_S1000x128_S50000x1_S50000x128_1_0_0_1_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

abbrev win0_0 : Pipeline.Window sig grid0 :=
  Pipeline.Window.ofSpec (Memref.whole main_arg0) S2000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S9x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v55) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v68) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v89) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v96) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v99) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v100) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v101) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v102) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v102) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v104) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v105) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v123) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v102) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v130) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v133) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v134) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v135) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v136) S2000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v136) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v138) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v139) S2000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v157) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v136) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v164) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v167) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v168) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v169) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v170) S2000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v182) S1000x128.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg8) S128x1.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v183) S1x1.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v184) S1000x1.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x9 : Shape := ⟨2, ![50000, 9]⟩
abbrev S2x800000 : Shape := ⟨2, ![2, 800000]⟩
abbrev S50000 : Shape := ⟨1, ![50000]⟩
abbrev S9x119x128 : Shape := ⟨3, ![9, 119, 128]⟩
abbrev S4x128x128 : Shape := ⟨3, ![4, 128, 128]⟩
abbrev S4x128 : Shape := ⟨2, ![4, 128]⟩
abbrev S128x1 : Shape := ⟨2, ![128, 1]⟩
abbrev S1 : Shape := ⟨1, ![1]⟩
abbrev S9 : Shape := ⟨1, ![9]⟩
abbrev S1x9 : Shape := ⟨2, ![1, 9]⟩
abbrev S_ : Shape := ⟨0, ![]⟩
abbrev S50000x9x1 : Shape := ⟨3, ![50000, 9, 1]⟩
abbrev S50000x9x2 : Shape := ⟨3, ![50000, 9, 2]⟩
abbrev S50000x9x128 : Shape := ⟨3, ![50000, 9, 128]⟩
abbrev S50000x128 : Shape := ⟨2, ![50000, 128]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S1x128x128 : Shape := ⟨3, ![1, 128, 128]⟩
abbrev S128x128 : Shape := ⟨2, ![128, 128]⟩
abbrev S850000x128 : Shape := ⟨2, ![850000, 128]⟩
abbrev S1x128 : Shape := ⟨2, ![1, 128]⟩
abbrev S128 : Shape := ⟨1, ![128]⟩
abbrev S1000 : Shape := ⟨1, ![1000]⟩
abbrev S50000x1 : Shape := ⟨2, ![50000, 1]⟩
abbrev S1000x128 : Shape := ⟨2, ![1000, 128]⟩
abbrev S1000x1 : Shape := ⟨2, ![1000, 1]⟩
abbrev S1x1 : Shape := ⟨2, ![1, 1]⟩

abbrev nBuf : Space → Nat
  | .hbm => 417
  | .vmem => 0
  | .smem => 0
  | _ => 0

abbrev hbmTy0_0 (i : Nat) : BufTy := match i % 128 with
  | 0 => ⟨S50000x9, .i32⟩
  | 1 => ⟨S2x800000, .i32⟩
  | 2 => ⟨S50000, .i32⟩
  | 3 => ⟨S9x119x128, .f32⟩
  | 4 => ⟨S4x128x128, .f32⟩
  | 5 => ⟨S4x128, .f32⟩
  | 6 => ⟨S4x128, .f32⟩
  | 7 => ⟨S4x128, .f32⟩
  | 8 => ⟨S128x1, .f32⟩
  | 9 => ⟨S1, .f32⟩
  | 10 => ⟨S9, .i32⟩
  | 11 => ⟨S1x9, .i32⟩
  | 12 => ⟨S_, .i32⟩
  | 13 => ⟨S1x9, .i32⟩
  | 14 => ⟨S1x9, .i1⟩
  | 15 => ⟨S_, .i32⟩
  | 16 => ⟨S1x9, .i32⟩
  | 17 => ⟨S1x9, .i32⟩
  | 18 => ⟨S1x9, .i32⟩
  | 19 => ⟨S_, .i32⟩
  | 20 => ⟨S50000x9, .i32⟩
  | 21 => ⟨S50000x9, .i1⟩
  | 22 => ⟨S_, .i32⟩
  | 23 => ⟨S50000x9, .i32⟩
  | 24 => ⟨S50000x9, .i32⟩
  | 25 => ⟨S50000x9, .i32⟩
  | 26 => ⟨S50000x9, .i32⟩
  | 27 => ⟨S50000x9x1, .i32⟩
  | 28 => ⟨S50000x9x1, .i32⟩
  | 29 => ⟨S50000x9x2, .i32⟩
  | 30 => ⟨S50000x9x128, .f32⟩
  | 31 => ⟨S_, .f32⟩
  | 32 => ⟨S50000x128, .f32⟩
  | 33 => ⟨S50000, .i32⟩
  | 34 => ⟨S1x800000, .i32⟩
  | 35 => ⟨S800000, .i32⟩
  | 36 => ⟨S850000, .i32⟩
  | 37 => ⟨S1x800000, .i32⟩
  | 38 => ⟨S800000, .i32⟩
  | 39 => ⟨S850000, .i32⟩
  | 40 => ⟨S_, .f32⟩
  | 41 => ⟨S850000, .f32⟩
  | 42 => ⟨S_, .f32⟩
  | 43 => ⟨S50000, .f32⟩
  | 44 => ⟨S850000x1, .i32⟩
  | 45 => ⟨S50000, .f32⟩
  | 46 => ⟨S_, .f32⟩
  | 47 => ⟨S50000, .f32⟩
  | 48 => ⟨S50000, .i1⟩
  | 49 => ⟨S50000, .f32⟩
  | 50 => ⟨S_, .f32⟩
  | 51 => ⟨S50000, .f32⟩
  | 52 => ⟨S50000, .f32⟩
  | 53 => ⟨S_, .f32⟩
  | 54 => ⟨S_, .f32⟩
  | 55 => ⟨S50000, .f32⟩
  | 56 => ⟨S50000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000, .f32⟩
  | 75 => ⟨S850000, .f32⟩
  | 76 => ⟨S850000x1, .f32⟩
  | 77 => ⟨S1x128x128, .f32⟩
  | 78 => ⟨S128x128, .f32⟩
  | 79 => ⟨S50000x128, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x128, .f32⟩
  | 89 => ⟨S850000x128, .f32⟩
  | 90 => ⟨S850000x128, .f32⟩
  | 91 => ⟨S_, .f32⟩
  | 92 => ⟨S50000x128, .f32⟩
  | 93 => ⟨S850000x1, .i32⟩
  | 94 => ⟨S50000x128, .f32⟩
  | 95 => ⟨S1x128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S50000x9, .i32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S128, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S1x128, .f32⟩
  | 19 => ⟨S128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x128, .f32⟩
  | 27 => ⟨S1x128x128, .f32⟩
  | 28 => ⟨S128x128, .f32⟩
  | 29 => ⟨S50000x128, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000x128, .f32⟩
  | 39 => ⟨S850000x128, .f32⟩
  | 40 => ⟨S850000x128, .f32⟩
  | 41 => ⟨S_, .f32⟩
  | 42 => ⟨S50000x128, .f32⟩
  | 43 => ⟨S850000x1, .i32⟩
  | 44 => ⟨S50000x128, .f32⟩
  | 45 => ⟨S1x128, .f32⟩
  | 46 => ⟨S128, .f32⟩
  | 47 => ⟨S1x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S128, .f32⟩
  | 83 => ⟨S1x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S128, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S1x128, .f32⟩
  | 97 => ⟨S128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S1x128x128, .f32⟩
  | 106 => ⟨S128x128, .f32⟩
  | 107 => ⟨S50000x128, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x128, .f32⟩
  | 117 => ⟨S850000x128, .f32⟩
  | 118 => ⟨S850000x128, .f32⟩
  | 119 => ⟨S_, .f32⟩
  | 120 => ⟨S50000x128, .f32⟩
  | 121 => ⟨S850000x1, .i32⟩
  | 122 => ⟨S50000x128, .f32⟩
  | 123 => ⟨S1x128, .f32⟩
  | 124 => ⟨S128, .f32⟩
  | 125 => ⟨S1x128, .f32⟩
  | 126 => ⟨S50000x128, .f32⟩
  | 127 => ⟨S50000x128, .f32⟩
  | _ => ⟨S50000x9, .i32⟩

abbrev hbmTy0_2 (i : Nat) : BufTy := match i % 128 with
  | 0 => ⟨S_, .f32⟩
  | 1 => ⟨S50000x128, .f32⟩
  | 2 => ⟨S50000x128, .f32⟩
  | 3 => ⟨S_, .f32⟩
  | 4 => ⟨S128, .f32⟩
  | 5 => ⟨S_, .f32⟩
  | 6 => ⟨S128, .f32⟩
  | 7 => ⟨S128, .f32⟩
  | 8 => ⟨S_, .i32⟩
  | 9 => ⟨S_, .f32⟩
  | 10 => ⟨S128, .f32⟩
  | 11 => ⟨S1x128, .f32⟩
  | 12 => ⟨S_, .f32⟩
  | 13 => ⟨S1x128, .f32⟩
  | 14 => ⟨S1x128, .f32⟩
  | 15 => ⟨S50000x128, .f32⟩
  | 16 => ⟨S50000x128, .f32⟩
  | 17 => ⟨S50000x128, .f32⟩
  | 18 => ⟨S_, .f32⟩
  | 19 => ⟨S_, .f32⟩
  | 20 => ⟨S_, .f32⟩
  | 21 => ⟨S_, .f32⟩
  | 22 => ⟨S128, .f32⟩
  | 23 => ⟨S128, .f32⟩
  | 24 => ⟨S128, .f32⟩
  | 25 => ⟨S_, .f32⟩
  | 26 => ⟨S_, .i1⟩
  | 27 => ⟨S_, .f32⟩
  | 28 => ⟨S_, .f32⟩
  | 29 => ⟨S128, .f32⟩
  | 30 => ⟨S128, .f32⟩
  | 31 => ⟨S1x128, .f32⟩
  | 32 => ⟨S128, .f32⟩
  | 33 => ⟨S1x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S_, .f32⟩
  | 40 => ⟨S128, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S50000x128, .f32⟩
  | 55 => ⟨S1x128x128, .f32⟩
  | 56 => ⟨S128x128, .f32⟩
  | 57 => ⟨S50000x128, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x128, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S_, .f32⟩
  | 82 => ⟨S128, .f32⟩
  | 83 => ⟨S_, .f32⟩
  | 84 => ⟨S128, .f32⟩
  | 85 => ⟨S128, .f32⟩
  | 86 => ⟨S_, .i32⟩
  | 87 => ⟨S_, .f32⟩
  | 88 => ⟨S128, .f32⟩
  | 89 => ⟨S1x128, .f32⟩
  | 90 => ⟨S_, .f32⟩
  | 91 => ⟨S1x128, .f32⟩
  | 92 => ⟨S1x128, .f32⟩
  | 93 => ⟨S50000x128, .f32⟩
  | 94 => ⟨S50000x128, .f32⟩
  | 95 => ⟨S50000x128, .f32⟩
  | 96 => ⟨S_, .f32⟩
  | 97 => ⟨S_, .f32⟩
  | 98 => ⟨S_, .f32⟩
  | 99 => ⟨S_, .f32⟩
  | 100 => ⟨S128, .f32⟩
  | 101 => ⟨S128, .f32⟩
  | 102 => ⟨S128, .f32⟩
  | 103 => ⟨S_, .f32⟩
  | 104 => ⟨S_, .i1⟩
  | 105 => ⟨S_, .f32⟩
  | 106 => ⟨S_, .f32⟩
  | 107 => ⟨S128, .f32⟩
  | 108 => ⟨S128, .f32⟩
  | 109 => ⟨S1x128, .f32⟩
  | 110 => ⟨S128, .f32⟩
  | 111 => ⟨S1x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S128, .f32⟩
  | 119 => ⟨S128, .f32⟩
  | 120 => ⟨S128, .f32⟩
  | 121 => ⟨S1x128, .f32⟩
  | 122 => ⟨S50000x128, .f32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000x9, .i32⟩

abbrev hbmTy0_3 (i : Nat) : BufTy := match i % 128 with
  | 0 => ⟨S50000x128, .f32⟩
  | 1 => ⟨S_, .f32⟩
  | 2 => ⟨S50000x128, .f32⟩
  | 3 => ⟨S50000x128, .f32⟩
  | 4 => ⟨S50000x128, .f32⟩
  | 5 => ⟨S_, .f32⟩
  | 6 => ⟨S50000, .f32⟩
  | 7 => ⟨S_, .f32⟩
  | 8 => ⟨S1000, .f32⟩
  | 9 => ⟨S50000x1, .i32⟩
  | 10 => ⟨S1000, .f32⟩
  | 11 => ⟨S_, .f32⟩
  | 12 => ⟨S1000x128, .f32⟩
  | 13 => ⟨S50000x1, .i32⟩
  | 14 => ⟨S1000x128, .f32⟩
  | 15 => ⟨S_, .f32⟩
  | 16 => ⟨S1000, .f32⟩
  | 17 => ⟨S1000, .f32⟩
  | 18 => ⟨S1000x1, .f32⟩
  | 19 => ⟨S1000x128, .f32⟩
  | 20 => ⟨S1000x128, .f32⟩
  | 21 => ⟨S1000x1, .f32⟩
  | 22 => ⟨S1x1, .f32⟩
  | 23 => ⟨S1000x1, .f32⟩
  | 24 => ⟨S1000x1, .f32⟩
  | 25 => ⟨S1000x1, .f32⟩
  | 26 => ⟨S1000x1, .f32⟩
  | 27 => ⟨S_, .f32⟩
  | 28 => ⟨S1000x1, .f32⟩
  | 29 => ⟨S1000x1, .f32⟩
  | 30 => ⟨S_, .f32⟩
  | 31 => ⟨S1000x1, .f32⟩
  | 32 => ⟨S1000x1, .f32⟩
  | _ => ⟨S50000x9, .i32⟩

abbrev hbmTy (i : Nat) : BufTy := match i / 128 with
  | 0 => hbmTy0_0 i
  | 1 => hbmTy0_1 i
  | 2 => hbmTy0_2 i
  | 3 => hbmTy0_3 i
  | _ => ⟨S50000x9, .i32⟩

abbrev bufTy : (tb : Table) → Fin (tcTables nBuf tb) → BufTy
  | .hbm, ⟨i, _⟩ => hbmTy i
  | _, _ => ⟨S50000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_call0_v0 : Ref sig .tc := ⟨.hbm, 54, rfl⟩
abbrev main_call0_v1 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call1_cst : Ref sig .tc := ⟨.hbm, 100, rfl⟩
abbrev main_call1_v0 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_cst_16 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_call2_cst : Ref sig .tc := ⟨.hbm, 109, rfl⟩
abbrev main_call2_v0 : Ref sig .tc := ⟨.hbm, 110, rfl⟩
abbrev main_call2_v1 : Ref sig .tc := ⟨.hbm, 111, rfl⟩
abbrev main_call2_cst_0 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_v7 : Ref sig .tc := ⟨.hbm, 118, rfl⟩
abbrev main_call2_cst_1 : Ref sig .tc := ⟨.hbm, 119, rfl⟩
abbrev main_call2_v8 : Ref sig .tc := ⟨.hbm, 120, rfl⟩
abbrev main_call2_cst_2 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_cst_3 : Ref sig .tc := ⟨.hbm, 125, rfl⟩
abbrev main_call2_v12 : Ref sig .tc := ⟨.hbm, 126, rfl⟩
abbrev main_call2_cst_4 : Ref sig .tc := ⟨.hbm, 127, rfl⟩
abbrev main_call2_call0_v0 : Ref sig .tc := ⟨.hbm, 128, rfl⟩
abbrev main_call2_call0_v1 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_18 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_call3_cst : Ref sig .tc := ⟨.hbm, 151, rfl⟩
abbrev main_call3_v0 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_c_19 : Ref sig .tc := ⟨.hbm, 158, rfl⟩
abbrev main_v100 : Ref sig .tc := ⟨.hbm, 159, rfl⟩
abbrev main_v101 : Ref sig .tc := ⟨.hbm, 160, rfl⟩
abbrev main_c_20 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_cst_21 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_call4_cst : Ref sig .tc := ⟨.hbm, 178, rfl⟩
abbrev main_call4_v0 : Ref sig .tc := ⟨.hbm, 179, rfl⟩
abbrev main_v117 : Ref sig .tc := ⟨.hbm, 180, rfl⟩
abbrev main_cst_22 : Ref sig .tc := ⟨.hbm, 181, rfl⟩
abbrev main_v118 : Ref sig .tc := ⟨.hbm, 182, rfl⟩
abbrev main_cst_23 : Ref sig .tc := ⟨.hbm, 183, rfl⟩
abbrev main_v119 : Ref sig .tc := ⟨.hbm, 184, rfl⟩
abbrev main_v120 : Ref sig .tc := ⟨.hbm, 185, rfl⟩
abbrev main_c_24 : Ref sig .tc := ⟨.hbm, 186, rfl⟩
abbrev main_call5_cst : Ref sig .tc := ⟨.hbm, 187, rfl⟩
abbrev main_call5_v0 : Ref sig .tc := ⟨.hbm, 188, rfl⟩
abbrev main_call5_v1 : Ref sig .tc := ⟨.hbm, 189, rfl⟩
abbrev main_call5_cst_0 : Ref sig .tc := ⟨.hbm, 190, rfl⟩
abbrev main_call5_v2 : Ref sig .tc := ⟨.hbm, 191, rfl⟩
abbrev main_call5_v3 : Ref sig .tc := ⟨.hbm, 192, rfl⟩
abbrev main_call5_v4 : Ref sig .tc := ⟨.hbm, 193, rfl⟩
abbrev main_call5_v5 : Ref sig .tc := ⟨.hbm, 194, rfl⟩
abbrev main_call5_v6 : Ref sig .tc := ⟨.hbm, 195, rfl⟩
abbrev main_call5_v7 : Ref sig .tc := ⟨.hbm, 196, rfl⟩
abbrev main_call5_cst_1 : Ref sig .tc := ⟨.hbm, 197, rfl⟩
abbrev main_call5_v8 : Ref sig .tc := ⟨.hbm, 198, rfl⟩
abbrev main_call5_cst_2 : Ref sig .tc := ⟨.hbm, 199, rfl⟩
abbrev main_call5_v9 : Ref sig .tc := ⟨.hbm, 200, rfl⟩
abbrev main_call5_v10 : Ref sig .tc := ⟨.hbm, 201, rfl⟩
abbrev main_call5_v11 : Ref sig .tc := ⟨.hbm, 202, rfl⟩
abbrev main_call5_cst_3 : Ref sig .tc := ⟨.hbm, 203, rfl⟩
abbrev main_call5_v12 : Ref sig .tc := ⟨.hbm, 204, rfl⟩
abbrev main_call5_cst_4 : Ref sig .tc := ⟨.hbm, 205, rfl⟩
abbrev main_call5_call0_v0 : Ref sig .tc := ⟨.hbm, 206, rfl⟩
abbrev main_call5_call0_v1 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_cst_25 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_call6_cst : Ref sig .tc := ⟨.hbm, 229, rfl⟩
abbrev main_call6_v0 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_c_26 : Ref sig .tc := ⟨.hbm, 236, rfl⟩
abbrev main_v146 : Ref sig .tc := ⟨.hbm, 237, rfl⟩
abbrev main_v147 : Ref sig .tc := ⟨.hbm, 238, rfl⟩
abbrev main_c_27 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_cst_28 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_call7_cst : Ref sig .tc := ⟨.hbm, 256, rfl⟩
abbrev main_call7_v0 : Ref sig .tc := ⟨.hbm, 257, rfl⟩
abbrev main_v163 : Ref sig .tc := ⟨.hbm, 258, rfl⟩
abbrev main_cst_29 : Ref sig .tc := ⟨.hbm, 259, rfl⟩
abbrev main_v164 : Ref sig .tc := ⟨.hbm, 260, rfl⟩
abbrev main_cst_30 : Ref sig .tc := ⟨.hbm, 261, rfl⟩
abbrev main_v165 : Ref sig .tc := ⟨.hbm, 262, rfl⟩
abbrev main_v166 : Ref sig .tc := ⟨.hbm, 263, rfl⟩
abbrev main_c_31 : Ref sig .tc := ⟨.hbm, 264, rfl⟩
abbrev main_call8_cst : Ref sig .tc := ⟨.hbm, 265, rfl⟩
abbrev main_call8_v0 : Ref sig .tc := ⟨.hbm, 266, rfl⟩
abbrev main_call8_v1 : Ref sig .tc := ⟨.hbm, 267, rfl⟩
abbrev main_call8_cst_0 : Ref sig .tc := ⟨.hbm, 268, rfl⟩
abbrev main_call8_v2 : Ref sig .tc := ⟨.hbm, 269, rfl⟩
abbrev main_call8_v3 : Ref sig .tc := ⟨.hbm, 270, rfl⟩
abbrev main_call8_v4 : Ref sig .tc := ⟨.hbm, 271, rfl⟩
abbrev main_call8_v5 : Ref sig .tc := ⟨.hbm, 272, rfl⟩
abbrev main_call8_v6 : Ref sig .tc := ⟨.hbm, 273, rfl⟩
abbrev main_call8_v7 : Ref sig .tc := ⟨.hbm, 274, rfl⟩
abbrev main_call8_cst_1 : Ref sig .tc := ⟨.hbm, 275, rfl⟩
abbrev main_call8_v8 : Ref sig .tc := ⟨.hbm, 276, rfl⟩
abbrev main_call8_cst_2 : Ref sig .tc := ⟨.hbm, 277, rfl⟩
abbrev main_call8_v9 : Ref sig .tc := ⟨.hbm, 278, rfl⟩
abbrev main_call8_v10 : Ref sig .tc := ⟨.hbm, 279, rfl⟩
abbrev main_call8_v11 : Ref sig .tc := ⟨.hbm, 280, rfl⟩
abbrev main_call8_cst_3 : Ref sig .tc := ⟨.hbm, 281, rfl⟩
abbrev main_call8_v12 : Ref sig .tc := ⟨.hbm, 282, rfl⟩
abbrev main_call8_cst_4 : Ref sig .tc := ⟨.hbm, 283, rfl⟩
abbrev main_call8_call0_v0 : Ref sig .tc := ⟨.hbm, 284, rfl⟩
abbrev main_call8_call0_v1 : Ref sig .tc := ⟨.hbm, 285, rfl⟩
abbrev main_v167 : Ref sig .tc := ⟨.hbm, 286, rfl⟩
abbrev main_v168 : Ref sig .tc := ⟨.hbm, 287, rfl⟩
abbrev main_v169 : Ref sig .tc := ⟨.hbm, 288, rfl⟩
abbrev main_v170 : Ref sig .tc := ⟨.hbm, 289, rfl⟩
abbrev main_v171 : Ref sig .tc := ⟨.hbm, 290, rfl⟩
abbrev main_v172 : Ref sig .tc := ⟨.hbm, 291, rfl⟩
abbrev main_v173 : Ref sig .tc := ⟨.hbm, 292, rfl⟩
abbrev main_v174 : Ref sig .tc := ⟨.hbm, 293, rfl⟩
abbrev main_v175 : Ref sig .tc := ⟨.hbm, 294, rfl⟩
abbrev main_cst_32 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩
abbrev main_v179 : Ref sig .tc := ⟨.hbm, 299, rfl⟩
abbrev main_v180 : Ref sig .tc := ⟨.hbm, 300, rfl⟩
abbrev main_v181 : Ref sig .tc := ⟨.hbm, 301, rfl⟩
abbrev main_v182 : Ref sig .tc := ⟨.hbm, 302, rfl⟩
abbrev main_v183 : Ref sig .tc := ⟨.hbm, 303, rfl⟩
abbrev main_v184 : Ref sig .tc := ⟨.hbm, 304, rfl⟩
abbrev main_v185 : Ref sig .tc := ⟨.hbm, 305, rfl⟩
abbrev main_v186 : Ref sig .tc := ⟨.hbm, 306, rfl⟩
abbrev main_call9_cst : Ref sig .tc := ⟨.hbm, 307, rfl⟩
abbrev main_call9_v0 : Ref sig .tc := ⟨.hbm, 308, rfl⟩
abbrev main_v187 : Ref sig .tc := ⟨.hbm, 309, rfl⟩
abbrev main_v188 : Ref sig .tc := ⟨.hbm, 310, rfl⟩
abbrev main_v189 : Ref sig .tc := ⟨.hbm, 311, rfl⟩
abbrev main_v190 : Ref sig .tc := ⟨.hbm, 312, rfl⟩
abbrev main_v191 : Ref sig .tc := ⟨.hbm, 313, rfl⟩
abbrev main_c_33 : Ref sig .tc := ⟨.hbm, 314, rfl⟩
abbrev main_v192 : Ref sig .tc := ⟨.hbm, 315, rfl⟩
abbrev main_v193 : Ref sig .tc := ⟨.hbm, 316, rfl⟩
abbrev main_c_34 : Ref sig .tc := ⟨.hbm, 317, rfl⟩
abbrev main_v194 : Ref sig .tc := ⟨.hbm, 318, rfl⟩
abbrev main_v195 : Ref sig .tc := ⟨.hbm, 319, rfl⟩
abbrev main_v196 : Ref sig .tc := ⟨.hbm, 320, rfl⟩
abbrev main_v197 : Ref sig .tc := ⟨.hbm, 321, rfl⟩
abbrev main_v198 : Ref sig .tc := ⟨.hbm, 322, rfl⟩
abbrev main_v199 : Ref sig .tc := ⟨.hbm, 323, rfl⟩
abbrev main_v200 : Ref sig .tc := ⟨.hbm, 324, rfl⟩
abbrev main_cst_35 : Ref sig .tc := ⟨.hbm, 325, rfl⟩
abbrev main_v201 : Ref sig .tc := ⟨.hbm, 326, rfl⟩
abbrev main_v202 : Ref sig .tc := ⟨.hbm, 327, rfl⟩
abbrev main_v203 : Ref sig .tc := ⟨.hbm, 328, rfl⟩
abbrev main_v204 : Ref sig .tc := ⟨.hbm, 329, rfl⟩
abbrev main_v205 : Ref sig .tc := ⟨.hbm, 330, rfl⟩
abbrev main_v206 : Ref sig .tc := ⟨.hbm, 331, rfl⟩
abbrev main_v207 : Ref sig .tc := ⟨.hbm, 332, rfl⟩
abbrev main_v208 : Ref sig .tc := ⟨.hbm, 333, rfl⟩
abbrev main_call10_cst : Ref sig .tc := ⟨.hbm, 334, rfl⟩
abbrev main_call10_v0 : Ref sig .tc := ⟨.hbm, 335, rfl⟩
abbrev main_v209 : Ref sig .tc := ⟨.hbm, 336, rfl⟩
abbrev main_cst_36 : Ref sig .tc := ⟨.hbm, 337, rfl⟩
abbrev main_v210 : Ref sig .tc := ⟨.hbm, 338, rfl⟩
abbrev main_cst_37 : Ref sig .tc := ⟨.hbm, 339, rfl⟩
abbrev main_v211 : Ref sig .tc := ⟨.hbm, 340, rfl⟩
abbrev main_v212 : Ref sig .tc := ⟨.hbm, 341, rfl⟩
abbrev main_c_38 : Ref sig .tc := ⟨.hbm, 342, rfl⟩
abbrev main_call11_cst : Ref sig .tc := ⟨.hbm, 343, rfl⟩
abbrev main_call11_v0 : Ref sig .tc := ⟨.hbm, 344, rfl⟩
abbrev main_call11_v1 : Ref sig .tc := ⟨.hbm, 345, rfl⟩
abbrev main_call11_cst_0 : Ref sig .tc := ⟨.hbm, 346, rfl⟩
abbrev main_call11_v2 : Ref sig .tc := ⟨.hbm, 347, rfl⟩
abbrev main_call11_v3 : Ref sig .tc := ⟨.hbm, 348, rfl⟩
abbrev main_call11_v4 : Ref sig .tc := ⟨.hbm, 349, rfl⟩
abbrev main_call11_v5 : Ref sig .tc := ⟨.hbm, 350, rfl⟩
abbrev main_call11_v6 : Ref sig .tc := ⟨.hbm, 351, rfl⟩
abbrev main_call11_v7 : Ref sig .tc := ⟨.hbm, 352, rfl⟩
abbrev main_call11_cst_1 : Ref sig .tc := ⟨.hbm, 353, rfl⟩
abbrev main_call11_v8 : Ref sig .tc := ⟨.hbm, 354, rfl⟩
abbrev main_call11_cst_2 : Ref sig .tc := ⟨.hbm, 355, rfl⟩
abbrev main_call11_v9 : Ref sig .tc := ⟨.hbm, 356, rfl⟩
abbrev main_call11_v10 : Ref sig .tc := ⟨.hbm, 357, rfl⟩
abbrev main_call11_v11 : Ref sig .tc := ⟨.hbm, 358, rfl⟩
abbrev main_call11_cst_3 : Ref sig .tc := ⟨.hbm, 359, rfl⟩
abbrev main_call11_v12 : Ref sig .tc := ⟨.hbm, 360, rfl⟩
abbrev main_call11_cst_4 : Ref sig .tc := ⟨.hbm, 361, rfl⟩
abbrev main_call11_call0_v0 : Ref sig .tc := ⟨.hbm, 362, rfl⟩
abbrev main_call11_call0_v1 : Ref sig .tc := ⟨.hbm, 363, rfl⟩
abbrev main_v213 : Ref sig .tc := ⟨.hbm, 364, rfl⟩
abbrev main_v214 : Ref sig .tc := ⟨.hbm, 365, rfl⟩
abbrev main_v215 : Ref sig .tc := ⟨.hbm, 366, rfl⟩
abbrev main_v216 : Ref sig .tc := ⟨.hbm, 367, rfl⟩
abbrev main_v217 : Ref sig .tc := ⟨.hbm, 368, rfl⟩
abbrev main_v218 : Ref sig .tc := ⟨.hbm, 369, rfl⟩
abbrev main_v219 : Ref sig .tc := ⟨.hbm, 370, rfl⟩
abbrev main_v220 : Ref sig .tc := ⟨.hbm, 371, rfl⟩
abbrev main_v221 : Ref sig .tc := ⟨.hbm, 372, rfl⟩
abbrev main_cst_39 : Ref sig .tc := ⟨.hbm, 373, rfl⟩
abbrev main_v222 : Ref sig .tc := ⟨.hbm, 374, rfl⟩
abbrev main_v223 : Ref sig .tc := ⟨.hbm, 375, rfl⟩
abbrev main_v224 : Ref sig .tc := ⟨.hbm, 376, rfl⟩
abbrev main_v225 : Ref sig .tc := ⟨.hbm, 377, rfl⟩
abbrev main_v226 : Ref sig .tc := ⟨.hbm, 378, rfl⟩
abbrev main_v227 : Ref sig .tc := ⟨.hbm, 379, rfl⟩
abbrev main_v228 : Ref sig .tc := ⟨.hbm, 380, rfl⟩
abbrev main_v229 : Ref sig .tc := ⟨.hbm, 381, rfl⟩
abbrev main_v230 : Ref sig .tc := ⟨.hbm, 382, rfl⟩
abbrev main_v231 : Ref sig .tc := ⟨.hbm, 383, rfl⟩
abbrev main_v232 : Ref sig .tc := ⟨.hbm, 384, rfl⟩
abbrev main_call12_cst : Ref sig .tc := ⟨.hbm, 385, rfl⟩
abbrev main_call12_v0 : Ref sig .tc := ⟨.hbm, 386, rfl⟩
abbrev main_v233 : Ref sig .tc := ⟨.hbm, 387, rfl⟩
abbrev main_v234 : Ref sig .tc := ⟨.hbm, 388, rfl⟩
abbrev main_cst_40 : Ref sig .tc := ⟨.hbm, 389, rfl⟩
abbrev main_v235 : Ref sig .tc := ⟨.hbm, 390, rfl⟩
abbrev main_cst_41 : Ref sig .tc := ⟨.hbm, 391, rfl⟩
abbrev main_v236 : Ref sig .tc := ⟨.hbm, 392, rfl⟩
abbrev main_v237 : Ref sig .tc := ⟨.hbm, 393, rfl⟩
abbrev main_v238 : Ref sig .tc := ⟨.hbm, 394, rfl⟩
abbrev main_cst_42 : Ref sig .tc := ⟨.hbm, 395, rfl⟩
abbrev main_v239 : Ref sig .tc := ⟨.hbm, 396, rfl⟩
abbrev main_v240 : Ref sig .tc := ⟨.hbm, 397, rfl⟩
abbrev main_v241 : Ref sig .tc := ⟨.hbm, 398, rfl⟩
abbrev main_cst_43 : Ref sig .tc := ⟨.hbm, 399, rfl⟩
abbrev main_v242 : Ref sig .tc := ⟨.hbm, 400, rfl⟩
abbrev main_v243 : Ref sig .tc := ⟨.hbm, 401, rfl⟩
abbrev main_v244 : Ref sig .tc := ⟨.hbm, 402, rfl⟩
abbrev main_v245 : Ref sig .tc := ⟨.hbm, 403, rfl⟩
abbrev main_v246 : Ref sig .tc := ⟨.hbm, 404, rfl⟩
abbrev main_v247 : Ref sig .tc := ⟨.hbm, 405, rfl⟩
abbrev main_v248 : Ref sig .tc := ⟨.hbm, 406, rfl⟩
abbrev main_v249 : Ref sig .tc := ⟨.hbm, 407, rfl⟩
abbrev main_v250 : Ref sig .tc := ⟨.hbm, 408, rfl⟩
abbrev main_v251 : Ref sig .tc := ⟨.hbm, 409, rfl⟩
abbrev main_v252 : Ref sig .tc := ⟨.hbm, 410, rfl⟩
abbrev main_cst_44 : Ref sig .tc := ⟨.hbm, 411, rfl⟩
abbrev main_v253 : Ref sig .tc := ⟨.hbm, 412, rfl⟩
abbrev main_v254 : Ref sig .tc := ⟨.hbm, 413, rfl⟩
abbrev main_cst_45 : Ref sig .tc := ⟨.hbm, 414, rfl⟩
abbrev main_v255 : Ref sig .tc := ⟨.hbm, 415, rfl⟩
abbrev main_v256 : Ref sig .tc := ⟨.hbm, 416, rfl⟩

abbrev nD : Nat := 1
abbrev τ : Topo := Topo.v7x

variable {F : FTy → Type} [FloatOps F]

class Facts₀ : Prop where
  bcast_S9_S1x9_1 : S9.BroadcastsInDim S1x9 (![1] : Fin 1 → Fin S1x9.rank)
  bcast_S_S1x9 : S_.BroadcastsInDim S1x9 (![] : Fin 0 → Fin S1x9.rank)
  bcast_S_S50000x9 : S_.BroadcastsInDim S50000x9 (![] : Fin 0 → Fin S50000x9.rank)
  bcast_S1x9_S50000x9_0_1 : S1x9.BroadcastsInDim S50000x9 (![0, 1] : Fin 2 → Fin S50000x9.rank)
  bcast_S50000x9_S50000x9x1_0_1 : S50000x9.BroadcastsInDim S50000x9x1 (![0, 1] : Fin 2 → Fin S50000x9x1.rank)
  concatenates_S50000x9x1_S50000x9x1_S50000x9x2_d2 : Shape.Concatenates [S50000x9x1, S50000x9x1] S50000x9x2 2
  reducesTo_S50000x9x128_S50000x128_d1 : S50000x9x128.ReducesTo [1] S50000x128
  h_S_ : 0 < S_.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S4x128x128_S1x128x128_0_0_0 : S4x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S1000 : S_.BroadcastsInDim S1000 (![] : Fin 0 → Fin S1000.rank)
  bcast_S50000_S50000x1_0 : S50000.BroadcastsInDim S50000x1 (![0] : Fin 1 → Fin S50000x1.rank)
  bcast_S_S1000x128 : S_.BroadcastsInDim S1000x128 (![] : Fin 0 → Fin S1000x128.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  bcast_S_S1000x1 : S_.BroadcastsInDim S1000x1 (![] : Fin 0 → Fin S1000x1.rank)
  gather_S9x119x128_S50000x9x2_S50000x9x128_2_01_n_n_01_2_11128_wf : GatherDims.WF S9x119x128 S50000x9x2 S50000x9x128 [2] [0, 1] [] [0, 1] [] 2 ![1, 1, 128]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S1000_S50000x1_S50000_n_0_0_1_wf : ScatterDims.WF S1000 S50000x1 S50000 [] [0] [0] 1
  scatter_S1000x128_S50000x1_S50000x128_1_0_0_1_wf : ScatterDims.WF S1000x128 S50000x1 S50000x128 [1] [0] [0] 1
  dot_S1000x128_S128x1_S1000x1_1_0_0_1_n_n_wf : DotDims.WF S1000x128 S128x1 S1000x1 [1] [0] [0] [1] [] []

variable [Facts₀]

def gather_S9x119x128_S50000x9x2_S50000x9x128_2_01_n_n_01_2_11128 : GatherDims S9x119x128 S50000x9x2 S50000x9x128 where
  offsetDims := [2]
  collapsedSliceDims := [0, 1]
  operandBatchingDims := []
  startIndicesBatchingDims := []
  startIndexMap := [0, 1]
  indexVectorDim := 2
  sliceSizes := ![1, 1, 128]
  wf := gather_S9x119x128_S50000x9x2_S50000x9x128_2_01_n_n_01_2_11128_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf
def scatter_S1000x128_S50000x1_S50000x128_1_0_0_1 : ScatterDims S1000x128 S50000x1 S50000x128 where
  updateWindowDims := [1]
  insertedWindowDims := [0]
  scatterDimsToOperandDims := [0]
  indexVectorDim := 1
  wf := scatter_S1000x128_S50000x1_S50000x128_1_0_0_1_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

class Facts : Prop extends Facts₀ where

variable [Facts]
-- ==== Proof.PreRange.lean ====
import proofs.«424614_j7395933684274_1_alg».proof.Proof.Gen.Pre_finite_inputs
import Idealize.ShloMosaic.PureOps.Ideal
import Idealize.ShloMosaic.Lib.ReduceAll
import Idealize.ShloMosaic.Lib.ValueIdx

noncomputable section

namespace Cert.PreRange

open Idealize.ShloMosaic Cert.Pre_finite_inputs

instance subsingleton_scalar_idx : Subsingleton S_.Idx := ⟨fun _ _ => funext fun d => d.elim0⟩

theorem word_in_range (x : IVec S50000x9 32) (i : S50000x9.Idx)
    (h0 : cmpi .sge x (broadcastInDim S50000x9 ![] Facts.bcast_S_S50000x9 (constantI S_ 32 0#32)) i = 1#1)
    (h1 : cmpi .slt x (broadcastInDim S50000x9 ![] Facts.bcast_S_S50000x9 (constantI S_ 32 119#32)) i = 1#1) :
    0 ≤ (x i).toInt ∧ (x i).toInt < 119 := by
  have h0' : IntOp.cmpi .sge (x i) 0#32 = 1#1 := h0
  have h1' : IntOp.cmpi .slt (x i) 119#32 = 1#1 := h1
  rw [IntOp.cmpi_sge] at h0'
  rw [IntOp.cmpi_slt] at h1'
  have z : (0#32 : BitVec 32).toInt = 0 := by decide
  have c : (119#32 : BitVec 32).toInt = 119 := by decide
  rw [z] at h0'
  rw [c] at h1'
  exact ⟨h0', h1'⟩

theorem x_in_range (x : IVec S50000x9 32) (ei : IVec S2x800000 32) (bidx : IVec S50000 32) (emb : FVec Ideal S9x119x128 .f32)
    (W : FVec Ideal S4x128x128 .f32) (b g bt : FVec Ideal S4x128 .f32) (lw : FVec Ideal S128x1 .f32) (lb : FVec Ideal S1 .f32)
    (h : Cert.Pre_finite_inputs.fn (F := Ideal) x ei bidx emb W b g bt lw lb = fun _ => 1#1) :
    ∀ i : S50000x9.Idx, 0 ≤ (x i).toInt ∧ (x i).toInt < 119 := by
  intro i
  have e := congrFun h ValueIdx.ix0
  dsimp only [Cert.Pre_finite_inputs.fn, Cert.Pre_finite_inputs.fn_part1, Cert.Pre_finite_inputs.fn_part2] at e

  have e7 := (IntOp.andi_eq_one.1 e).2
  have ei := Host.reduce_andi_all _ _ _ _ _ e7 i
  obtain ⟨h0, h1⟩ := IntOp.andi_eq_one.1 ei
  exact word_in_range x i h0 h1

end Cert.PreRange

end
-- ==== Proof.Spec.lean ====
import proofs.«424614_j7395933684274_1_alg».proof.ReferenceIdeal

/-!
# The network as one composition of pure functions

Each definition below is one stage of the graph network, written with the host operations of the reference program
in the order the reference applies them: the node encoding, the edge lists with self-loops, the edge normalisation,
and per layer the dense product, the aggregation over edges, the batch statistics and the normalised residual update;
then the per-graph mean and the logistic readout. `result` composes them. Both programs are shown to compute
`result` of their arguments.
-/

noncomputable section

namespace Cert.Spec

open Idealize.ShloMosaic Cert.ReferenceIdeal Cert.ReferenceIdeal.Facts₀ Cert.ReferenceIdeal.Facts

variable {F : FTy → Type} [FloatOps F] [Cert.ReferenceIdeal.Facts]

/-- The node encoding: for node `n` and channel `j`, the sum over the nine feature columns `f` of `emb f (x n f) j`, the row index read as the gather reads it (a negative index wrapped by 119, then clamped into the table). -/
def enc (x : IVec S50000x9 32) (emb : FVec F S9x119x128 .f32) : FVec F S50000x128 .f32 :=
  let v0 : IVec S9 32 := iotaInDim S9 32 0
  let v1 : IVec S1x9 32 := (broadcastInDim S1x9 ![1] bcast_S9_S1x9_1) v0
  let c : IVec S_ 32 := constantI S_ 32 0#32
  let v2 : IVec S1x9 32 := (broadcastInDim S1x9 ![] bcast_S_S1x9) c
  let v3 : IVec S1x9 1 := (cmpi .slt) v1 v2
  let c_0 : IVec S_ 32 := constantI S_ 32 9#32
  let v4 : IVec S1x9 32 := (broadcastInDim S1x9 ![] bcast_S_S1x9) c_0
  let v5 : IVec S1x9 32 := addi v1 v4
  let v6 : IVec S1x9 32 := select v3 v5 v1
  let c_1 : IVec S_ 32 := constantI S_ 32 0#32
  let v7 : IVec S50000x9 32 := (broadcastInDim S50000x9 ![] bcast_S_S50000x9) c_1
  let v8 : IVec S50000x9 1 := (cmpi .slt) x v7
  let c_2 : IVec S_ 32 := constantI S_ 32 119#32
  let v9 : IVec S50000x9 32 := (broadcastInDim S50000x9 ![] bcast_S_S50000x9) c_2
  let v10 : IVec S50000x9 32 := addi x v9
  let v11 : IVec S50000x9 32 := select v8 v10 x
  let v12 : IVec S50000x9 32 := (broadcastInDim S50000x9 ![0, 1] bcast_S1x9_S50000x9_0_1) v6
  let v13 : IVec S50000x9x1 32 := (broadcastInDim S50000x9x1 ![0, 1] bcast_S50000x9_S50000x9x1_0_1) v12
  let v14 : IVec S50000x9x1 32 := (broadcastInDim S50000x9x1 ![0, 1] bcast_S50000x9_S50000x9x1_0_1) v11
  let v15 : IVec S50000x9x2 32 := (fun a b => concatenate S50000x9x2 2 [⟨S50000x9x1, a⟩, ⟨S50000x9x1, b⟩] concatenates_S50000x9x1_S50000x9x1_S50000x9x2_d2) v13 v14
  let v16 : FVec F S50000x9x128 .f32 := (fun x i => Host.gather gather_S9x119x128_S50000x9x2_S50000x9x128_2_01_n_n_01_2_11128 x i) emb v15
  let cst : FVec F S_ .f32 := constant S_ .f32 0x00000000#32
  let v17 : FVec F S50000x128 .f32 := (fun x v => Host.reduceAdd x v reducesTo_S50000x9x128_S50000x128_d1 h_S_) v16 cst
  v17

/-- The edge sources followed by one self-loop per node. -/
def src (ei : IVec S2x800000 32) : IVec S850000 32 :=
  let v18 : IVec S50000 32 := iotaInDim S50000 32 0
  let v19 : IVec S1x800000 32 := (extractStridedSlice S1x800000 ![0, 0] · slices_S2x800000_S1x800000_0_0) ei
  let v20 : IVec S800000 32 := shapeCast S800000 v19 shapeCasts_S1x800000_S800000
  let v21 : IVec S850000 32 := (fun a b => concatenate S850000 0 [⟨S800000, a⟩, ⟨S50000, b⟩] concatenates_S800000_S50000_S850000_d0) v20 v18
  v21

/-- The edge targets followed by one self-loop per node. -/
def dst (ei : IVec S2x800000 32) : IVec S850000 32 :=
  let v18 : IVec S50000 32 := iotaInDim S50000 32 0
  let v22 : IVec S1x800000 32 := (extractStridedSlice S1x800000 ![1, 0] · slices_S2x800000_S1x800000_1_0) ei
  let v23 : IVec S800000 32 := shapeCast S800000 v22 shapeCasts_S1x800000_S800000
  let v24 : IVec S850000 32 := (fun a b => concatenate S850000 0 [⟨S800000, a⟩, ⟨S50000, b⟩] concatenates_S800000_S50000_S850000_d0) v23 v18
  v24

/-- The symmetric normalisation of every edge: `dinv (src e) * dinv (dst e)`, with `dinv = 1 / sqrt deg` where the degree is positive and `0` elsewhere, the degree counted over edge targets. -/
def norm (ei : IVec S2x800000 32) : FVec F S850000x1 .f32 :=
  let v18 : IVec S50000 32 := iotaInDim S50000 32 0
  let v19 : IVec S1x800000 32 := (extractStridedSlice S1x800000 ![0, 0] · slices_S2x800000_S1x800000_0_0) ei
  let v20 : IVec S800000 32 := shapeCast S800000 v19 shapeCasts_S1x800000_S800000
  let v21 : IVec S850000 32 := (fun a b => concatenate S850000 0 [⟨S800000, a⟩, ⟨S50000, b⟩] concatenates_S800000_S50000_S850000_d0) v20 v18
  let v22 : IVec S1x800000 32 := (extractStridedSlice S1x800000 ![1, 0] · slices_S2x800000_S1x800000_1_0) ei
  let v23 : IVec S800000 32 := shapeCast S800000 v22 shapeCasts_S1x800000_S800000
  let v24 : IVec S850000 32 := (fun a b => concatenate S850000 0 [⟨S800000, a⟩, ⟨S50000, b⟩] concatenates_S800000_S50000_S850000_d0) v23 v18
  let cst_3 : FVec F S_ .f32 := constant S_ .f32 0x3F800000#32
  let v25 : FVec F S850000 .f32 := (broadcastInDim S850000 ![] bcast_S_S850000) cst_3
  let cst_4 : FVec F S_ .f32 := constant S_ .f32 0x00000000#32
  let v26 : FVec F S50000 .f32 := (broadcastInDim S50000 ![] bcast_S_S50000) cst_4
  let v27 : IVec S850000x1 32 := (broadcastInDim S850000x1 ![0] bcast_S850000_S850000x1_0) v24
  let v28 : FVec F S50000 .f32 := (fun x i u => Host.scatterAdd scatter_S50000_S850000x1_S850000_n_0_0_1 x i u) v26 v27 v25
  let cst_5 : FVec F S_ .f32 := constant S_ .f32 0x00000000#32
  let v29 : FVec F S50000 .f32 := (broadcastInDim S50000 ![] bcast_S_S50000) cst_5
  let v30 : IVec S50000 1 := (cmpf .ogt) v28 v29
  let v31 : FVec F S50000 .f32 := Host.sqrt v28
  let cst_6 : FVec F S_ .f32 := constant S_ .f32 0x3F800000#32
  let v32 : FVec F S50000 .f32 := (broadcastInDim S50000 ![] bcast_S_S50000) cst_6
  let v33 : FVec F S50000 .f32 := Host.divf v32 v31
  let cst_7 : FVec F S_ .f32 := constant S_ .f32 0x00000000#32
  let call0_v0 : FVec F S_ .f32 := cst_7
  let call0_v1 : FVec F S50000 .f32 := (broadcastInDim S50000 ![] bcast_S_S50000) call0_v0
  let v34 : FVec F S50000 .f32 := select v30 v33 call0_v1
  let c_8 : IVec S_ 32 := constantI S_ 32 0#32
  let v35 : IVec S850000 32 := (broadcastInDim S850000 ![] bcast_S_S850000) c_8
  let v36 : IVec S850000 1 := (cmpi .slt) v21 v35
  let c_9 : IVec S_ 32 := constantI S_ 32 50000#32
  let v37 : IVec S850000 32 := (broadcastInDim S850000 ![] bcast_S_S850000) c_9
  let v38 : IVec S850000 32 := addi v21 v37
  let v39 : IVec S850000 32 := select v36 v38 v21
  let v40 : IVec S850000x1 32 := (broadcastInDim S850000x1 ![0] bcast_S850000_S850000x1_0) v39
  let v41 : FVec F S850000 .f32 := (fun x i => Host.gather gather_S50000_S850000x1_S850000_n_0_n_n_0_1_1 x i) v34 v40
  let c_10 : IVec S_ 32 := constantI S_ 32 0#32
  let v42 : IVec S850000 32 := (broadcastInDim S850000 ![] bcast_S_S850000) c_10
  let v43 : IVec S850000 1 := (cmpi .slt) v24 v42
  let c_11 : IVec S_ 32 := constantI S_ 32 50000#32
  let v44 : IVec S850000 32 := (broadcastInDim S850000 ![] bcast_S_S850000) c_11
  let v45 : IVec S850000 32 := addi v24 v44
  let v46 : IVec S850000 32 := select v43 v45 v24
  let v47 : IVec S850000x1 32 := (broadcastInDim S850000x1 ![0] bcast_S850000_S850000x1_0) v46
  let v48 : FVec F S850000 .f32 := (fun x i => Host.gather gather_S50000_S850000x1_S850000_n_0_n_n_0_1_1 x i) v34 v47
  let v49 : FVec F S850000 .f32 := mulf v41 v48
  let v50 : FVec F S850000x1 .f32 := (broadcastInDim S850000x1 ![0] bcast_S850000_S850000x1_0) v49
  v50

/-- Layer 0's weight matrix: slab 0 of the stacked weights. -/
def sliceW0 (W : FVec F S4x128x128 .f32) : FVec F S128x128 .f32 :=
  let v51 : FVec F S1x128x128 .f32 := (extractStridedSlice S1x128x128 ![0, 0, 0] · slices_S4x128x128_S1x128x128_0_0_0) W
  let v52 : FVec F S128x128 .f32 := shapeCast S128x128 v51 shapeCasts_S1x128x128_S128x128
  v52

/-- Layer 0's bias row. -/
def sliceb0 (b : FVec F S4x128 .f32) : FVec F S128 .f32 :=
  let v66 : FVec F S1x128 .f32 := (extractStridedSlice S1x128 ![0, 0] · slices_S4x128_S1x128_0_0) b
  let v67 : FVec F S128 .f32 := shapeCast S128 v66 shapeCasts_S1x128_S128
  v67

/-- Layer 0's batch-norm scale row. -/
def sliceg0 (g : FVec F S4x128 .f32) : FVec F S128 .f32 :=
  let v76 : FVec F S1x128 .f32 := (extractStridedSlice S1x128 ![0, 0] · slices_S4x128_S1x128_0_0) g
  let v77 : FVec F S128 .f32 := shapeCast S128 v76 shapeCasts_S1x128_S128
  v77

/-- Layer 0's batch-norm shift row. -/
def slicebeta0 (bt : FVec F S4x128 .f32) : FVec F S128 .f32 :=
  let v90 : FVec F S1x128 .f32 := (extractStridedSlice S1x128 ![0, 0] · slices_S4x128_S1x128_0_0) bt
  let v91 : FVec F S128 .f32 := shapeCast S128 v90 shapeCasts_S1x128_S128
  v91

/-- Layer 1's weight matrix: slab 1 of the stacked weights. -/
def sliceW1 (W : FVec F S4x128x128 .f32) : FVec F S128x128 .f32 :=
  let v97 : FVec F S1x128x128 .f32 := (extractStridedSlice S1x128x128 ![1, 0, 0] · slices_S4x128x128_S1x128x128_1_0_0) W
  let v98 : FVec F S128x128 .f32 := shapeCast S128x128 v97 shapeCasts_S1x128x128_S128x128
  v98

/-- Layer 1's bias row. -/
def sliceb1 (b : FVec F S4x128 .f32) : FVec F S128 .f32 :=
  let v112 : FVec F S1x128 .f32 := (extractStridedSlice S1x128 ![1, 0] · slices_S4x128_S1x128_1_0) b
  let v113 : FVec F S128 .f32 := shapeCast S128 v112 shapeCasts_S1x128_S128
  v113

/-- Layer 1's batch-norm scale row. -/
def sliceg1 (g : FVec F S4x128 .f32) : FVec F S128 .f32 :=
  let v122 : FVec F S1x128 .f32 := (extractStridedSlice S1x128 ![1, 0] · slices_S4x128_S1x128_1_0) g
  let v123 : FVec F S128 .f32 := shapeCast S128 v122 shapeCasts_S1x128_S128
  v123

/-- Layer 1's batch-norm shift row. -/
def slicebeta1 (bt : FVec F S4x128 .f32) : FVec F S128 .f32 :=
  let v136 : FVec F S1x128 .f32 := (extractStridedSlice S1x128 ![1, 0] · slices_S4x128_S1x128_1_0) bt
  let v137 : FVec F S128 .f32 := shapeCast S128 v136 shapeCasts_S1x128_S128
  v137

/-- Layer 2's weight matrix: slab 2 of the stacked weights. -/
def sliceW2 (W : FVec F S4x128x128 .f32) : FVec F S128x128 .f32 :=
  let v143 : FVec F S1x128x128 .f32 := (extractStridedSlice S1x128x128 ![2, 0, 0] · slices_S4x128x128_S1x128x128_2_0_0) W
  let v144 : FVec F S128x128 .f32 := shapeCast S128x128 v143 shapeCasts_S1x128x128_S128x128
  v144

/-- Layer 2's bias row. -/
def sliceb2 (b : FVec F S4x128 .f32) : FVec F S128 .f32 :=
  let v158 : FVec F S1x128 .f32 := (extractStridedSlice S1x128 ![2, 0] · slices_S4x128_S1x128_2_0) b
  let v159 : FVec F S128 .f32 := shapeCast S128 v158 shapeCasts_S1x128_S128
  v159

/-- Layer 2's batch-norm scale row. -/
def sliceg2 (g : FVec F S4x128 .f32) : FVec F S128 .f32 :=
  let v168 : FVec F S1x128 .f32 := (extractStridedSlice S1x128 ![2, 0] · slices_S4x128_S1x128_2_0) g
  let v169 : FVec F S128 .f32 := shapeCast S128 v168 shapeCasts_S1x128_S128
  v169

/-- Layer 2's batch-norm shift row. -/
def slicebeta2 (bt : FVec F S4x128 .f32) : FVec F S128 .f32 :=
  let v182 : FVec F S1x128 .f32 := (extractStridedSlice S1x128 ![2, 0] · slices_S4x128_S1x128_2_0) bt
  let v183 : FVec F S128 .f32 := shapeCast S128 v182 shapeCasts_S1x128_S128
  v183

/-- Layer 3's weight matrix: slab 3 of the stacked weights. -/
def sliceW3 (W : FVec F S4x128x128 .f32) : FVec F S128x128 .f32 :=
  let v189 : FVec F S1x128x128 .f32 := (extractStridedSlice S1x128x128 ![3, 0, 0] · slices_S4x128x128_S1x128x128_3_0_0) W
  let v190 : FVec F S128x128 .f32 := shapeCast S128x128 v189 shapeCasts_S1x128x128_S128x128
  v190

/-- Layer 3's bias row. -/
def sliceb3 (b : FVec F S4x128 .f32) : FVec F S128 .f32 :=
  let v204 : FVec F S1x128 .f32 := (extractStridedSlice S1x128 ![3, 0] · slices_S4x128_S1x128_3_0) b
  let v205 : FVec F S128 .f32 := shapeCast S128 v204 shapeCasts_S1x128_S128
  v205

/-- Layer 3's batch-norm scale row. -/
def sliceg3 (g : FVec F S4x128 .f32) : FVec F S128 .f32 :=
  let v214 : FVec F S1x128 .f32 := (extractStridedSlice S1x128 ![3, 0] · slices_S4x128_S1x128_3_0) g
  let v215 : FVec F S128 .f32 := shapeCast S128 v214 shapeCasts_S1x128_S128
  v215

/-- Layer 3's batch-norm shift row. -/
def slicebeta3 (bt : FVec F S4x128 .f32) : FVec F S128 .f32 :=
  let v228 : FVec F S1x128 .f32 := (extractStridedSlice S1x128 ![3, 0] · slices_S4x128_S1x128_3_0) bt
  let v229 : FVec F S128 .f32 := shapeCast S128 v228 shapeCasts_S1x128_S128
  v229

/-- The dense product `h · Wl` (the messages before aggregation). -/
def mm (h : FVec F S50000x128 .f32) (Wl : FVec F S128x128 .f32) : FVec F S50000x128 .f32 :=
  let v53 : FVec F S50000x128 .f32 := (fun l r => Host.dotGeneral dot_S50000x128_S128x128_S50000x128_1_0_0_1_n_n none l r) h Wl
  v53

/-- The aggregated, biased and rectified messages: each edge carries its source's row of `mv` scaled by the edge's normalisation to its target, the rows landing on one target summed; then the bias row is added and negatives are cut to zero. -/
def agg (mv : FVec F S50000x128 .f32) (bl : FVec F S128 .f32) (srcv : IVec S850000 32) (dstv : IVec S850000 32) (nrm : FVec F S850000x1 .f32) : FVec F S50000x128 .f32 :=
  let c_12 : IVec S_ 32 := constantI S_ 32 0#32
  let v54 : IVec S850000 32 := (broadcastInDim S850000 ![] bcast_S_S850000) c_12
  let v55 : IVec S850000 1 := (cmpi .slt) srcv v54
  let c_13 : IVec S_ 32 := constantI S_ 32 50000#32
  let v56 : IVec S850000 32 := (broadcastInDim S850000 ![] bcast_S_S850000) c_13
  let v57 : IVec S850000 32 := addi srcv v56
  let v58 : IVec S850000 32 := select v55 v57 srcv
  let v59 : IVec S850000x1 32 := (broadcastInDim S850000x1 ![0] bcast_S850000_S850000x1_0) v58
  let v60 : FVec F S850000x128 .f32 := (fun x i => Host.gather gather_S50000x128_S850000x1_S850000x128_1_0_n_n_0_1_1128 x i) mv v59
  let v61 : FVec F S850000x128 .f32 := (broadcastInDim S850000x128 ![0, 1] bcast_S850000x1_S850000x128_0_1) nrm
  let v62 : FVec F S850000x128 .f32 := mulf v60 v61
  let cst_14 : FVec F S_ .f32 := constant S_ .f32 0x00000000#32
  let v63 : FVec F S50000x128 .f32 := (broadcastInDim S50000x128 ![] bcast_S_S50000x128) cst_14
  let v64 : IVec S850000x1 32 := (broadcastInDim S850000x1 ![0] bcast_S850000_S850000x1_0) dstv
  let v65 : FVec F S50000x128 .f32 := (fun x i u => Host.scatterAdd scatter_S50000x128_S850000x1_S850000x128_1_0_0_1 x i u) v63 v64 v62
  let v68 : FVec F S1x128 .f32 := (broadcastInDim S1x128 ![1] bcast_S128_S1x128_1) bl
  let v69 : FVec F S50000x128 .f32 := (broadcastInDim S50000x128 ![0, 1] bcast_S1x128_S50000x128_0_1) v68
  let v70 : FVec F S50000x128 .f32 := addf v65 v69
  let call1_cst : FVec F S_ .f32 := constant S_ .f32 0x00000000#32
  let call1_v0 : FVec F S50000x128 .f32 := (broadcastInDim S50000x128 ![] bcast_S_S50000x128) call1_cst
  let v71 : FVec F S50000x128 .f32 := maximumf v70 call1_v0
  v71

/-- The per-channel mean over the 50000 nodes. -/
def mean (a : FVec F S50000x128 .f32) : FVec F S128 .f32 :=
  let cst_15 : FVec F S_ .f32 := constant S_ .f32 0x00000000#32
  let v72 : FVec F S128 .f32 := (fun x v => Host.reduceAdd x v reducesTo_S50000x128_S128_d0 h_S_) a cst_15
  let cst_16 : FVec F S_ .f32 := constant S_ .f32 0x47435000#32
  let v73 : FVec F S128 .f32 := (broadcastInDim S128 ![] bcast_S_S128) cst_16
  let v74 : FVec F S128 .f32 := Host.divf v72 v73
  v74

/-- The per-channel (biased) variance over the 50000 nodes. -/
def var (a : FVec F S50000x128 .f32) : FVec F S128 .f32 :=
  let c_17 : IVec S_ 32 := constantI S_ 32 0#32
  let call2_cst : FVec F S_ .f32 := constant S_ .f32 0x00000000#32
  let call2_v0 : FVec F S128 .f32 := (fun x v => Host.reduceAdd x v reducesTo_S50000x128_S128_d0 h_S_) a call2_cst
  let call2_v1 : FVec F S1x128 .f32 := (broadcastInDim S1x128 ![1] bcast_S128_S1x128_1) call2_v0
  let call2_cst_0 : FVec F S_ .f32 := constant S_ .f32 0x47435000#32
  let call2_v2 : FVec F S1x128 .f32 := (broadcastInDim S1x128 ![] bcast_S_S1x128) call2_cst_0
  let call2_v3 : FVec F S1x128 .f32 := Host.divf call2_v1 call2_v2
  let call2_v4 : FVec F S50000x128 .f32 := (broadcastInDim S50000x128 ![0, 1] bcast_S1x128_S50000x128_0_1) call2_v3
  let call2_v5 : FVec F S50000x128 .f32 := subf a call2_v4
  let call2_v6 : FVec F S50000x128 .f32 := mulf call2_v5 call2_v5
  let call2_v7 : FVec F S_ .f32 := (sitofp .f32) c_17
  let call2_cst_1 : FVec F S_ .f32 := constant S_ .f32 0x47435000#32
  let call2_v8 : FVec F S_ .f32 := subf call2_cst_1 call2_v7
  let call2_cst_2 : FVec F S_ .f32 := constant S_ .f32 0x00000000#32
  let call2_v9 : FVec F S128 .f32 := (fun x v => Host.reduceAdd x v reducesTo_S50000x128_S128_d0 h_S_) call2_v6 call2_cst_2
  let call2_v10 : FVec F S128 .f32 := (broadcastInDim S128 ![] bcast_S_S128) call2_v8
  let call2_v11 : FVec F S128 .f32 := Host.divf call2_v9 call2_v10
  let call2_cst_3 : FVec F S_ .f32 := constant S_ .f32 0x00000000#32
  let call2_v12 : IVec S_ 1 := (cmpf .ogt) call2_v8 call2_cst_3
  let call2_cst_4 : FVec F S_ .f32 := constant S_ .f32 0x7FC00000#32
  let call2_call0_v0 : FVec F S_ .f32 := call2_cst_4
  let call2_call0_v1 : FVec F S128 .f32 := (broadcastInDim S128 ![] bcast_S_S128) call2_call0_v0
  let v75 : FVec F S128 .f32 := (fun p a b => select (broadcastInDim S128 ![] bcast_S_S128 p) a b) call2_v12 call2_v11 call2_call0_v1
  v75

/-- Batch normalisation, rectification and the residual: `max (gl * (a - mu) * rsqrt (vr + eps) + btl) 0 + res`, the rows `gl`, `btl`, `mu`, `vr` broadcast over the nodes. -/
def bnres (gl : FVec F S128 .f32) (btl : FVec F S128 .f32) (a : FVec F S50000x128 .f32) (mu : FVec F S128 .f32) (vr : FVec F S128 .f32) (res : FVec F S50000x128 .f32) : FVec F S50000x128 .f32 :=
  let v78 : FVec F S1x128 .f32 := (broadcastInDim S1x128 ![1] bcast_S128_S1x128_1) mu
  let v79 : FVec F S50000x128 .f32 := (broadcastInDim S50000x128 ![0, 1] bcast_S1x128_S50000x128_0_1) v78
  let v80 : FVec F S50000x128 .f32 := subf a v79
  let v81 : FVec F S1x128 .f32 := (broadcastInDim S1x128 ![1] bcast_S128_S1x128_1) gl
  let v82 : FVec F S50000x128 .f32 := (broadcastInDim S50000x128 ![0, 1] bcast_S1x128_S50000x128_0_1) v81
  let v83 : FVec F S50000x128 .f32 := mulf v82 v80
  let cst_18 : FVec F S_ .f32 := constant S_ .f32 0x3727C5AC#32
  let v84 : FVec F S128 .f32 := (broadcastInDim S128 ![] bcast_S_S128) cst_18
  let v85 : FVec F S128 .f32 := addf vr v84
  let v86 : FVec F S128 .f32 := Host.rsqrt v85
  let v87 : FVec F S1x128 .f32 := (broadcastInDim S1x128 ![1] bcast_S128_S1x128_1) v86
  let v88 : FVec F S50000x128 .f32 := (broadcastInDim S50000x128 ![0, 1] bcast_S1x128_S50000x128_0_1) v87
  let v89 : FVec F S50000x128 .f32 := mulf v83 v88
  let v92 : FVec F S1x128 .f32 := (broadcastInDim S1x128 ![1] bcast_S128_S1x128_1) btl
  let v93 : FVec F S50000x128 .f32 := (broadcastInDim S50000x128 ![0, 1] bcast_S1x128_S50000x128_0_1) v92
  let v94 : FVec F S50000x128 .f32 := addf v89 v93
  let call3_cst : FVec F S_ .f32 := constant S_ .f32 0x00000000#32
  let call3_v0 : FVec F S50000x128 .f32 := (broadcastInDim S50000x128 ![] bcast_S_S50000x128) call3_cst
  let v95 : FVec F S50000x128 .f32 := maximumf v94 call3_v0
  let v96 : FVec F S50000x128 .f32 := addf v95 res
  v96

/-- The per-graph mean readout: the rows of `h` summed by graph id, divided by the graph's node count (at least one). -/
def pool (bidx : IVec S50000 32) (h : FVec F S50000x128 .f32) : FVec F S1000x128 .f32 :=
  let cst_40 : FVec F S_ .f32 := constant S_ .f32 0x3F800000#32
  let v235 : FVec F S50000 .f32 := (broadcastInDim S50000 ![] bcast_S_S50000) cst_40
  let cst_41 : FVec F S_ .f32 := constant S_ .f32 0x00000000#32
  let v236 : FVec F S1000 .f32 := (broadcastInDim S1000 ![] bcast_S_S1000) cst_41
  let v237 : IVec S50000x1 32 := (broadcastInDim S50000x1 ![0] bcast_S50000_S50000x1_0) bidx
  let v238 : FVec F S1000 .f32 := (fun x i u => Host.scatterAdd scatter_S1000_S50000x1_S50000_n_0_0_1 x i u) v236 v237 v235
  let cst_42 : FVec F S_ .f32 := constant S_ .f32 0x00000000#32
  let v239 : FVec F S1000x128 .f32 := (broadcastInDim S1000x128 ![] bcast_S_S1000x128) cst_42
  let v240 : IVec S50000x1 32 := (broadcastInDim S50000x1 ![0] bcast_S50000_S50000x1_0) bidx
  let v241 : FVec F S1000x128 .f32 := (fun x i u => Host.scatterAdd scatter_S1000x128_S50000x1_S50000x128_1_0_0_1 x i u) v239 v240 h
  let cst_43 : FVec F S_ .f32 := constant S_ .f32 0x3F800000#32
  let v242 : FVec F S1000 .f32 := (broadcastInDim S1000 ![] bcast_S_S1000) cst_43
  let v243 : FVec F S1000 .f32 := maximumf v238 v242
  let v244 : FVec F S1000x1 .f32 := (broadcastInDim S1000x1 ![0] bcast_S1000_S1000x1_0) v243
  let v245 : FVec F S1000x128 .f32 := (broadcastInDim S1000x128 ![0, 1] bcast_S1000x1_S1000x128_0_1) v244
  let v246 : FVec F S1000x128 .f32 := Host.divf v241 v245
  v246

/-- The readout: `1 / (1 + exp (-(p · lw + lb)))`. -/
def out (p : FVec F S1000x128 .f32) (lw : FVec F S128x1 .f32) (lb : FVec F S1 .f32) : FVec F S1000x1 .f32 :=
  let v247 : FVec F S1000x1 .f32 := (fun l r => Host.dotGeneral dot_S1000x128_S128x1_S1000x1_1_0_0_1_n_n none l r) p lw
  let v248 : FVec F S1x1 .f32 := (broadcastInDim S1x1 ![1] bcast_S1_S1x1_1) lb
  let v249 : FVec F S1000x1 .f32 := (broadcastInDim S1000x1 ![0, 1] bcast_S1x1_S1000x1_0_1) v248
  let v250 : FVec F S1000x1 .f32 := addf v247 v249
  let v251 : FVec F S1000x1 .f32 := Host.negf v250
  let v252 : FVec F S1000x1 .f32 := Host.exp v251
  let cst_44 : FVec F S_ .f32 := constant S_ .f32 0x3F800000#32
  let v253 : FVec F S1000x1 .f32 := (broadcastInDim S1000x1 ![] bcast_S_S1000x1) cst_44
  let v254 : FVec F S1000x1 .f32 := addf v253 v252
  let cst_45 : FVec F S_ .f32 := constant S_ .f32 0x3F800000#32
  let v255 : FVec F S1000x1 .f32 := (broadcastInDim S1000x1 ![] bcast_S_S1000x1) cst_45
  let v256 : FVec F S1000x1 .f32 := Host.divf v255 v254
  v256

/-- One layer: the dense product, the aggregation, the batch statistics of the aggregate, the normalised residual update. -/
def layer (Wl : FVec F S128x128 .f32) (bl gl btl : FVec F S128 .f32) (srcv dstv : IVec S850000 32) (nrm : FVec F S850000x1 .f32)
    (h : FVec F S50000x128 .f32) : FVec F S50000x128 .f32 :=
  bnres gl btl (agg (mm h Wl) bl srcv dstv nrm) (mean (agg (mm h Wl) bl srcv dstv nrm)) (var (agg (mm h Wl) bl srcv dstv nrm)) h

/-- The node features after the encoding and each of the four layers. -/
def h0 (x : IVec S50000x9 32) (emb : FVec F S9x119x128 .f32) : FVec F S50000x128 .f32 := enc x emb
def h1 (x : IVec S50000x9 32) (ei : IVec S2x800000 32) (emb : FVec F S9x119x128 .f32) (W : FVec F S4x128x128 .f32) (b g bt : FVec F S4x128 .f32) :
    FVec F S50000x128 .f32 :=
  layer (sliceW0 W) (sliceb0 b) (sliceg0 g) (slicebeta0 bt) (src ei) (dst ei) (norm ei) (h0 x emb)
def h2 (x : IVec S50000x9 32) (ei : IVec S2x800000 32) (emb : FVec F S9x119x128 .f32) (W : FVec F S4x128x128 .f32) (b g bt : FVec F S4x128 .f32) :
    FVec F S50000x128 .f32 :=
  layer (sliceW1 W) (sliceb1 b) (sliceg1 g) (slicebeta1 bt) (src ei) (dst ei) (norm ei) (h1 x ei emb W b g bt)
def h3 (x : IVec S50000x9 32) (ei : IVec S2x800000 32) (emb : FVec F S9x119x128 .f32) (W : FVec F S4x128x128 .f32) (b g bt : FVec F S4x128 .f32) :
    FVec F S50000x128 .f32 :=
  layer (sliceW2 W) (sliceb2 b) (sliceg2 g) (slicebeta2 bt) (src ei) (dst ei) (norm ei) (h2 x ei emb W b g bt)
def h4 (x : IVec S50000x9 32) (ei : IVec S2x800000 32) (emb : FVec F S9x119x128 .f32) (W : FVec F S4x128x128 .f32) (b g bt : FVec F S4x128 .f32) :
    FVec F S50000x128 .f32 :=
  layer (sliceW3 W) (sliceb3 b) (sliceg3 g) (slicebeta3 bt) (src ei) (dst ei) (norm ei) (h3 x ei emb W b g bt)

/-- The whole network. -/
def result (x : IVec S50000x9 32) (ei : IVec S2x800000 32) (bidx : IVec S50000 32) (emb : FVec F S9x119x128 .f32) (W : FVec F S4x128x128 .f32)
    (b g bt : FVec F S4x128 .f32) (lw : FVec F S128x1 .f32) (lb : FVec F S1 .f32) : FVec F S1000x1 .f32 :=
  out (pool bidx (h4 x ei emb W b g bt)) lw lb

end Cert.Spec

end
-- ==== Proof.KDefs.lean ====
import proofs.«424614_j7395933684274_1_alg».proof.Proof.Gen.KernelIdeal.Frame
import proofs.«424614_j7395933684274_1_alg».proof.Proof.Gen.ReferenceIdeal
import proofs.«424614_j7395933684274_1_alg».proof.Proof.Spec
import Idealize.ShloMosaic.PureOps.Ideal

noncomputable section

namespace Cert.KVal

open Idealize.ShloMosaic Idealize.ShloMosaic.TcCoe Idealize.SL.Sem
open Cert.KernelIdeal Cert.KernelIdeal.Facts₀ Cert.KernelIdeal.Facts

abbrev KV := (c : Dev nD) → (b : Ref sig .tc) → Buf (Elt Ideal) ((c : Thread nD τ).loc b)

def padEmb (emb : FVec Ideal S9x119x128 .f32) : FVec Ideal S9x128x128 .f32 :=
  pad S9x128x128 ![0, 0, 0] ![0, 9, 0] ![0, 0, 0] emb (sitofp .f32 (constantI S_ 32 0#32)) pads_S9x119x128_S9x128x128_000_090_000 h_S_

def InRange (x : IVec S50000x9 32) : Prop := ∀ i : S50000x9.Idx, 0 ≤ (x i).toInt ∧ (x i).toInt < 119

/-- A literal buffer that no operation of the named stretch writes holds after the stretch what it held before. -/
macro "host_keeps " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

end Cert.KVal

end
-- ==== Proof.KMm.lean ====
import proofs.«424614_j7395933684274_1_alg».proof.Proof.KDefs
import Idealize.ShloMosaic.Lib.ValueIdx
import Idealize.ShloMosaic.PureOps.Ideal.Laws
import Idealize.ShloMosaic.Lib.Pipeline.Value

noncomputable section

namespace Cert.KVal

open Idealize.ShloMosaic Idealize.ShloMosaic.TcCoe Idealize.SL.Sem
open Cert.KernelIdeal Cert.KernelIdeal.Facts₀ Cert.KernelIdeal.Facts
open Idealize.ShloMosaic.ValueIdx

/-- An `M×K` by `K×N` product at row `a`, column `b`: the contracted index runs over `Fin K`, the left operand read at `(a, c)`, the right at `(c, b)`. -/
theorem plain_sum {m k n : Nat} {φ₁ φ₂ : FTy} (A : FVec Ideal ⟨2, ![m, k]⟩ φ₁) (B : FVec Ideal ⟨2, ![k, n]⟩ φ₂) (a : Fin m) (b : Fin n) :
    ∑ c : (DotDims.plain m k n).contr.Idx, A ((DotDims.plain m k n).lhsIdx (ix2 a b) c) * B ((DotDims.plain m k n).rhsIdx (ix2 a b) c)
      = ∑ c : Fin k, A (ix2 a c) * B (ix2 c b) := by
  rw [← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- A product into a zero accumulator, and the host's dense product, at an index: both are that sum. -/
theorem mm_plain_zero {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply _ prec A B _).trans (plain_sum A B a b)

theorem dg_plain {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) :=
  (Ideal.dotGeneral_apply _ prec sched A B _).trans (plain_sum A B a b)

private theorem pay_apply (x0 : Vec Ideal S2000x128 .f32) (x1 : Vec Ideal S128x128 .f32) (p : Fin 2000) (q : Fin 128) :
    Gen.k1_pay1 (F := Ideal) x0 x1 (ix2 p q) = ∑ k : Fin 128, x0 (ix2 p k) * x1 (ix2 k q) := by
  unfold Gen.k1_pay1
  simp only [shapeCast_self]
  exact mm_plain_zero none x0 x1 p q

private theorem mm_apply (h : FVec Ideal Cert.ReferenceIdeal.S50000x128 .f32) (W : FVec Ideal Cert.ReferenceIdeal.S128x128 .f32) (n : Fin 50000) (q : Fin 128) :
    Cert.Spec.mm (F := Ideal) h W (ix2 n q) = ∑ k : Fin 128, h (ix2 n k) * W (ix2 k q) :=
  dg_plain none _ h W n q

private theorem hz : (![0, 0] : Fin 2 → Nat) = fun _ => 0 := funext fun a => by fin_cases a <;> rfl

private theorem idx_facts : ∀ t : Fin cfg1.N,
    (cfg1.win 0).index t (0 : Fin 2) = t.val ∧ (cfg1.win 0).index t (1 : Fin 2) = 0
    ∧ (cfg1.win 1).index t (0 : Fin 2) = 0 ∧ (cfg1.win 1).index t (1 : Fin 2) = 0
    ∧ (cfg1.win 2).index t (0 : Fin 2) = t.val ∧ (cfg1.win 2).index t (1 : Fin 2) = 0 :=
  (by decide +kernel : ∀ t : Fin grid1.N, _)

private theorem block_eq (x0 : Vec Ideal S2000x128 .f32) (x1 : Vec Ideal S128x128 .f32)
    (h : FVec Ideal Cert.ReferenceIdeal.S50000x128 .f32) (W : FVec Ideal Cert.ReferenceIdeal.S128x128 .f32) (b : ℕ)
    (h0 : ∀ (p : Fin 2000) (k : Fin 128) (n : Fin 50000), n.val = b * 2000 + p.val → x0 (ix2 p k) = h (ix2 n k))
    (h1 : ∀ k q : Fin 128, x1 (ix2 k q) = W (ix2 k q))
    (j : S2000x128.Idx) (i : Cert.ReferenceIdeal.S50000x128.Idx)
    (hi0 : (i 0).val = b * 2000 + (j 0).val) (hi1 : (i 1).val = (j 1).val) :
    Gen.k1_pay1 (F := Ideal) x0 x1 j = Cert.Spec.mm (F := Ideal) h W i := by
  obtain ⟨p, q, rfl⟩ : ∃ (p : Fin 2000) (q : Fin 128), j = ix2 p q := ⟨j 0, j 1, eq_ix2 j⟩
  obtain ⟨n, q', rfl⟩ : ∃ (n : Fin 50000) (q' : Fin 128), i = ix2 n q' := ⟨i 0, i 1, eq_ix2 i⟩
  obtain rfl : q' = q := Fin.ext hi1
  rw [pay_apply, mm_apply]
  exact Finset.sum_congr rfl fun k _ => by rw [h0 p k n hi0, h1 k q']

/-- What point `t` stores is rows `2000 t … 2000 t + 1999` of the product `A · B`, for any arrays `A`, `B` the blocks are cut from. -/
private theorem point_eq (A : FVec Ideal Cert.ReferenceIdeal.S50000x128 .f32) (B : FVec Ideal Cert.ReferenceIdeal.S128x128 .f32) (t : Fin cfg1.N) :
    (cfg1.win 2).cut (grid1.coords t)
        (Gen.out1_2 (F := Ideal) (((cfg1.win 0).blk t).view.read (Elt Ideal) A) (((cfg1.win 1).blk t).view.read (Elt Ideal) B))
      = ((cfg1.win 2).blk t).view.read (Elt Ideal) (Cert.Spec.mm (F := Ideal) A B) := by
  unfold Gen.out1_2
  rw [View.canon_unit_zero hz]
  simp only [View.ld_unit_zero (S := S2000x128) hz, View.ld_unit_zero (S := S128x128) hz]
  obtain ⟨e0, e1, e2, e3, e4, e5⟩ := idx_facts t
  funext j
  refine block_eq _ _ A B t.val ?_ ?_ j (((cfg1.win 2).blk t).view.emb j) ?_ ?_
  · intro p k n hn
    show A (((cfg1.win 0).blk t).view.emb (ix2 p k)) = A (ix2 n k)
    refine congrArg A (funext fun a => Fin.ext ?_)
    match a with
    | ⟨0, _⟩ => show (cfg1.win 0).index t (0 : Fin 2) * 2000 + 1 * p.val = n.val; omega
    | ⟨1, _⟩ => show (cfg1.win 0).index t (1 : Fin 2) * 128 + 1 * k.val = k.val; omega
  · intro k q
    show B (((cfg1.win 1).blk t).view.emb (ix2 k q)) = B (ix2 k q)
    refine congrArg B (funext fun a => Fin.ext ?_)
    match a with
    | ⟨0, _⟩ => show (cfg1.win 1).index t (0 : Fin 2) * 128 + 1 * k.val = k.val; omega
    | ⟨1, _⟩ => show (cfg1.win 1).index t (1 : Fin 2) * 128 + 1 * q.val = q.val; omega
  · show (cfg1.win 2).index t (0 : Fin 2) * 2000 + 1 * (j 0).val = t.val * 2000 + (j 0).val; omega
  · show (cfg1.win 2).index t (1 : Fin 2) * 128 + 1 * (j 1).val = (j 1).val; omega

/-- Row `r` of the result lies in the block of point `r / 2000`. -/
theorem rows_cover (i : S50000x128.Idx) : ∃ t : Fin cfg1.N, i ∈ ((cfg1.win 2).blk t).view.set := by
  have hi0 : (i 0).val < 50000 := (i 0).isLt
  have hi1 : (i 1).val < 128 := (i 1).isLt
  have ht : (i 0).val / 2000 < cfg1.N := by rw [show cfg1.N = 25 from Gen.N_1]; omega
  obtain ⟨-, -, -, -, e4, e5⟩ := idx_facts ⟨(i 0).val / 2000, ht⟩
  refine ⟨⟨(i 0).val / 2000, ht⟩, ?_⟩
  show i ∈ ((View.whole (Pipeline.arrRef spec1 2)).slice ((cfg1.win 2).rect ⟨(i 0).val / 2000, ht⟩)).set
  rw [View.set_slice_whole, Rect.mem_set_unit]
  intro a
  match a with
  | ⟨0, _⟩ =>
    show (cfg1.win 2).index ⟨(i 0).val / 2000, ht⟩ (0 : Fin 2) * 2000 ≤ (i 0).val
      ∧ (i 0).val < (cfg1.win 2).index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show (cfg1.win 2).index ⟨(i 0).val / 2000, ht⟩ (1 : Fin 2) * 128 ≤ (i 1).val
      ∧ (i 1).val < (cfg1.win 2).index ⟨(i 0).val / 2000, ht⟩ (1 : Fin 2) * 128 + 128
    rw [e5]; omega

theorem region1 (V : KV) (c : Dev nD) :
    (Gen.dat1 (F := Ideal) V c).arrAt 2 cfg1.N = Cert.Spec.mm (F := Ideal) (V c main_v1) (V c main_v36) :=
  (Gen.dat1 (F := Ideal) V c).arrAt_eq_of_cover 2 _
    (fun t _ => (congrArg ((cfg1.win 2).cut (grid1.coords t)) (Gen.after1_2 V c t)).trans (point_eq (V c main_v1) (V c main_v36) t))
    (fun i => (rows_cover i).imp fun t h => ⟨Gen.flush1_2 t, h⟩)

/-- The other three dense products: the same grid, index maps and body as the first, over other arrays. -/
theorem region3 (V : KV) (c : Dev nD) :
    (Gen.dat3 (F := Ideal) V c).arrAt 2 cfg3.N = Cert.Spec.mm (F := Ideal) (V c main_v68) (V c main_v70) :=
  (Gen.dat3 (F := Ideal) V c).arrAt_eq_of_cover 2 _
    (fun t _ => (congrArg ((cfg3.win 2).cut (grid3.coords t)) (Gen.after3_2 V c t)).trans (point_eq (V c main_v68) (V c main_v70) t))
    (fun i => (rows_cover i).imp fun t h => ⟨Gen.flush3_2 t, h⟩)

theorem region5 (V : KV) (c : Dev nD) :
    (Gen.dat5 (F := Ideal) V c).arrAt 2 cfg5.N = Cert.Spec.mm (F := Ideal) (V c main_v102) (V c main_v104) :=
  (Gen.dat5 (F := Ideal) V c).arrAt_eq_of_cover 2 _
    (fun t _ => (congrArg ((cfg5.win 2).cut (grid5.coords t)) (Gen.after5_2 V c t)).trans (point_eq (V c main_v102) (V c main_v104) t))
    (fun i => (rows_cover i).imp fun t h => ⟨Gen.flush5_2 t, h⟩)

theorem region7 (V : KV) (c : Dev nD) :
    (Gen.dat7 (F := Ideal) V c).arrAt 2 cfg7.N = Cert.Spec.mm (F := Ideal) (V c main_v136) (V c main_v138) :=
  (Gen.dat7 (F := Ideal) V c).arrAt_eq_of_cover 2 _
    (fun t _ => (congrArg ((cfg7.win 2).cut (grid7.coords t)) (Gen.after7_2 V c t)).trans (point_eq (V c main_v136) (V c main_v138) t))
    (fun i => (rows_cover i).imp fun t h => ⟨Gen.flush7_2 t, h⟩)

end Cert.KVal

end
-- ==== Proof.KReg0.lean ====
import proofs.«424614_j7395933684274_1_alg».proof.Proof.KDefs
import proofs.«424614_j7395933684274_1_alg».proof.Proof.KMm
import Idealize.ShloMosaic.Lib.ValueIdx
import Idealize.ShloMosaic.Lib.Pipeline.Value
import Idealize.ShloMosaic.Lib.KernelVsHost
import Idealize.ShloMosaic.Lib.IdealHost
import Idealize.ShloMosaic.PureOps.Ideal.Laws

noncomputable section

namespace Cert.KVal.Reg0Spec

open Idealize.ShloMosaic Idealize.ShloMosaic.ValueIdx
open Cert.ReferenceIdeal Cert.ReferenceIdeal.Facts₀ Cert.ReferenceIdeal.Facts

theorem toNat_of_range (w : BitVec 32) (h0 : 0 ≤ w.toInt) (h1 : w.toInt < 119) : w.toInt.toNat = w.toNat ∧ w.toNat < 119 := by
  have := BitVec.toInt_eq_toNat_cond w
  have hw := w.isLt
  split_ifs at this <;> omega

theorem wrap_id (w : BitVec 32) (h : 0 ≤ w.toInt) :
    Scalar.select (IntOp.cmpi .slt w 0#32) (IntOp.addi w 119#32) w = w := by
  have hs : w.slt 0#32 = false := by simp [BitVec.slt]; exact h
  show Scalar.select (BitVec.ofBool (w.slt 0#32)) _ _ = _
  rw [hs]
  exact select_zero _ _

theorem wrap_feat : ∀ f : Fin 9, Scalar.select (IntOp.cmpi .slt (BitVec.ofNat 32 f.val) 0#32) (IntOp.addi (BitVec.ofNat 32 f.val) 9#32) (BitVec.ofNat 32 f.val) = BitVec.ofNat 32 f.val := by
  decide

theorem feat_clamp : ∀ f : Fin 9, min (BitVec.ofNat 32 f.val).toInt.toNat 8 = f.val := by decide

def starts (x : IVec S50000x9 32) : IVec S50000x9x2 32 :=
  let v0 : IVec S9 32 := iotaInDim S9 32 0
  let v1 : IVec S1x9 32 := (broadcastInDim S1x9 ![1] bcast_S9_S1x9_1) v0
  let c : IVec S_ 32 := constantI S_ 32 0#32
  let v2 : IVec S1x9 32 := (broadcastInDim S1x9 ![] bcast_S_S1x9) c
  let v3 : IVec S1x9 1 := (cmpi .slt) v1 v2
  let c_0 : IVec S_ 32 := constantI S_ 32 9#32
  let v4 : IVec S1x9 32 := (broadcastInDim S1x9 ![] bcast_S_S1x9) c_0
  let v5 : IVec S1x9 32 := addi v1 v4
  let v6 : IVec S1x9 32 := select v3 v5 v1
  let c_1 : IVec S_ 32 := constantI S_ 32 0#32
  let v7 : IVec S50000x9 32 := (broadcastInDim S50000x9 ![] bcast_S_S50000x9) c_1
  let v8 : IVec S50000x9 1 := (cmpi .slt) x v7
  let c_2 : IVec S_ 32 := constantI S_ 32 119#32
  let v9 : IVec S50000x9 32 := (broadcastInDim S50000x9 ![] bcast_S_S50000x9) c_2
  let v10 : IVec S50000x9 32 := addi x v9
  let v11 : IVec S50000x9 32 := select v8 v10 x
  let v12 : IVec S50000x9 32 := (broadcastInDim S50000x9 ![0, 1] bcast_S1x9_S50000x9_0_1) v6
  let v13 : IVec S50000x9x1 32 := (broadcastInDim S50000x9x1 ![0, 1] bcast_S50000x9_S50000x9x1_0_1) v12
  let v14 : IVec S50000x9x1 32 := (broadcastInDim S50000x9x1 ![0, 1] bcast_S50000x9_S50000x9x1_0_1) v11
  concatenate S50000x9x2 2 [⟨S50000x9x1, v13⟩, ⟨S50000x9x1, v14⟩] concatenates_S50000x9x1_S50000x9x1_S50000x9x2_d2

abbrev gd : GatherDims S9x119x128 S50000x9x2 S50000x9x128 := gather_S9x119x128_S50000x9x2_S50000x9x128_2_01_n_n_01_2_11128

theorem enc_eq (x : IVec S50000x9 32) (emb : FVec Ideal S9x119x128 .f32) :
    Cert.Spec.enc (F := Ideal) x emb
      = Host.reduceAdd (Host.gather gd emb (starts x)) (constant (F := Ideal) S_ .f32 0x00000000#32) reducesTo_S50000x9x128_S50000x128_d1 h_S_ := rfl

theorem starts_feat (x : IVec S50000x9 32) (n : Fin 50000) (f : Fin 9) :
    starts x (ix3 n f (0 : Fin 2)) = BitVec.ofNat 32 f.val := by
  unfold starts
  dsimp only
  refine (concatenate_pair_apply_left (t := S50000x9x2) (s₁ := S50000x9x1) (s₂ := S50000x9x1) (2 : Fin 3) _ _ _ (ix3 n f (0 : Fin 2)) rfl (ix3 n f (0 : Fin 1)) ?_).trans ?_
  · intro b
    match b with
    | ⟨0, _⟩ => rfl
    | ⟨1, _⟩ => rfl
    | ⟨2, _⟩ => rfl
  refine (broadcastInDim_apply _ _ _ (ix3 n f (0 : Fin 1)) (ix2 n f) ?_).trans ?_
  · intro b
    match b with
    | ⟨0, _⟩ => rfl
    | ⟨1, _⟩ => rfl
  refine (broadcastInDim_apply _ _ _ (ix2 n f) (ix2 (0 : Fin 1) f) ?_).trans ?_
  · intro b
    match b with
    | ⟨0, _⟩ => rfl
    | ⟨1, _⟩ => rfl
  have e1 : (broadcastInDim S1x9 ![1] bcast_S9_S1x9_1 (iotaInDim S9 32 0) : IVec S1x9 32) (ix2 (0 : Fin 1) f) = BitVec.ofNat 32 f.val := by
    refine (broadcastInDim_apply _ _ _ (ix2 (0 : Fin 1) f) (ix1 f) ?_).trans rfl
    intro b
    match b with
    | ⟨0, _⟩ => rfl
  show Scalar.select (IntOp.cmpi .slt ((broadcastInDim S1x9 ![1] bcast_S9_S1x9_1 (iotaInDim S9 32 0) : IVec S1x9 32) (ix2 (0 : Fin 1) f)) 0#32)
    (IntOp.addi ((broadcastInDim S1x9 ![1] bcast_S9_S1x9_1 (iotaInDim S9 32 0) : IVec S1x9 32) (ix2 (0 : Fin 1) f)) 9#32)
    ((broadcastInDim S1x9 ![1] bcast_S9_S1x9_1 (iotaInDim S9 32 0) : IVec S1x9 32) (ix2 (0 : Fin 1) f)) = _
  rw [e1]
  exact wrap_feat f

theorem starts_id (x : IVec S50000x9 32) (n : Fin 50000) (f : Fin 9) (h : 0 ≤ (x (ix2 n f)).toInt) :
    starts x (ix3 n f (1 : Fin 2)) = x (ix2 n f) := by
  unfold starts
  dsimp only
  refine (concatenate_pair_apply_right (t := S50000x9x2) (s₁ := S50000x9x1) (s₂ := S50000x9x1) (2 : Fin 3) _ _ _ (ix3 n f (1 : Fin 2)) rfl rfl (ix3 n f (0 : Fin 1)) ?_ rfl).trans ?_
  · intro b hb
    match b with
    | ⟨0, _⟩ => rfl
    | ⟨1, _⟩ => rfl
    | ⟨2, _⟩ => exact absurd rfl hb
  refine (broadcastInDim_apply _ _ _ (ix3 n f (0 : Fin 1)) (ix2 n f) ?_).trans ?_
  · intro b
    match b with
    | ⟨0, _⟩ => rfl
    | ⟨1, _⟩ => rfl
  exact wrap_id _ h

theorem si_feat (n : Fin 50000) (f : Fin 9) (q : Fin 128) :
    gd.siIdx (ix3 n f q) ⟨List.idxOf (0 : Fin 3) gd.startIndexMap, List.idxOf_lt_length_iff.2 (by decide)⟩ = ix3 n f (0 : Fin 2) := by
  funext b
  refine Fin.ext ?_
  match b with
  | ⟨0, _⟩ => rfl
  | ⟨1, _⟩ => rfl
  | ⟨2, _⟩ => rfl

theorem si_id (n : Fin 50000) (f : Fin 9) (q : Fin 128) :
    gd.siIdx (ix3 n f q) ⟨List.idxOf (1 : Fin 3) gd.startIndexMap, List.idxOf_lt_length_iff.2 (by decide)⟩ = ix3 n f (1 : Fin 2) := by
  funext b
  refine Fin.ext ?_
  match b with
  | ⟨0, _⟩ => rfl
  | ⟨1, _⟩ => rfl
  | ⟨2, _⟩ => rfl

theorem op_feat (idx : IVec S50000x9x2 32) (n : Fin 50000) (f : Fin 9) (q : Fin 128) :
    (gd.operandIdx (ix3 n f q) idx (0 : Fin 3)).val = min (idx (ix3 n f (0 : Fin 2))).toInt.toNat 8 := by
  show gd.start (ix3 n f q) idx 0 + gd.batchCoord (ix3 n f q) 0 + gd.offCoord (ix3 n f q) 0 = _
  rw [GatherDims.batchCoord_eq_zero _ _ _ (by decide),
    GatherDims.offCoord_eq_zero _ _ _ (fun h => ((GatherDims.mem_sKept _ _).mp h).1 (by decide))]
  simp only [Nat.add_zero]
  unfold GatherDims.start
  rw [dif_pos (show (0 : Fin 3) ∈ gd.startIndexMap from by decide), si_feat]
  rfl

theorem op_id (idx : IVec S50000x9x2 32) (n : Fin 50000) (f : Fin 9) (q : Fin 128) :
    (gd.operandIdx (ix3 n f q) idx (1 : Fin 3)).val = min (idx (ix3 n f (1 : Fin 2))).toInt.toNat 118 := by
  show gd.start (ix3 n f q) idx 1 + gd.batchCoord (ix3 n f q) 1 + gd.offCoord (ix3 n f q) 1 = _
  rw [GatherDims.batchCoord_eq_zero _ _ _ (by decide),
    GatherDims.offCoord_eq_zero _ _ _ (fun h => ((GatherDims.mem_sKept _ _).mp h).1 (by decide))]
  simp only [Nat.add_zero]
  unfold GatherDims.start
  rw [dif_pos (show (1 : Fin 3) ∈ gd.startIndexMap from by decide), si_id]
  rfl

theorem op_chan (idx : IVec S50000x9x2 32) (n : Fin 50000) (f : Fin 9) (q : Fin 128) :
    (gd.operandIdx (ix3 n f q) idx (2 : Fin 3)).val = q.val := by
  show gd.start (ix3 n f q) idx 2 + gd.batchCoord (ix3 n f q) 2 + gd.offCoord (ix3 n f q) 2 = _
  rw [GatherDims.batchCoord_eq_zero _ _ _ (by decide)]
  unfold GatherDims.start
  rw [dif_neg (show ¬ (2 : Fin 3) ∈ gd.startIndexMap from by decide)]
  unfold GatherDims.offCoord
  rw [dif_pos (show (2 : Fin 3) ∈ gd.sKept from by decide)]
  simp only [Nat.zero_add]
  rfl

theorem enc_apply (x : IVec S50000x9 32) (emb : FVec Ideal S9x119x128 .f32)
    (hr : ∀ i : S50000x9.Idx, 0 ≤ (x i).toInt ∧ (x i).toInt < 119) (n : Fin 50000) (q : Fin 128) :
    Cert.Spec.enc (F := Ideal) x emb (ix2 n q)
      = ∑ f : Fin 9, emb (ix3 f (⟨(x (ix2 n f)).toNat % 119, Nat.mod_lt _ (by decide)⟩ : Fin 119) q) := by
  have hred : S50000x9x128.Reduces [1] S50000x128 :=
    ⟨reducesTo_S50000x9x128_S50000x128_d1.1, by decide, reducesTo_S50000x9x128_S50000x128_d1.2⟩
  rw [enc_eq, hostReduceAdd_apply, Ideal.hostReduceAdd_single _ hred]
  show Ideal.ofBits .f32 0x00000000#32 + ∑ f : Fin 9, Host.gather gd emb (starts x) (hred.lift (ix2 n q) f) = _
  rw [Ideal.ofBits_zero_f32, zero_add]
  refine Finset.sum_congr rfl fun f _ => ?_
  have hl : hred.lift (ix2 n q) f = ix3 n f q := by
    funext c
    apply Fin.ext
    match c with
    | ⟨0, _⟩ => rfl
    | ⟨1, _⟩ => rfl
    | ⟨2, _⟩ => rfl
  rw [hl]
  unfold Host.gather
  congr 1
  funext a
  apply Fin.ext
  obtain ⟨h0, h1⟩ := hr (ix2 n f)
  obtain ⟨e, hlt⟩ := toNat_of_range _ h0 h1
  match a with
  | ⟨0, _⟩ => exact (op_feat _ n f q).trans (by rw [starts_feat]; exact feat_clamp f)
  | ⟨1, _⟩ => exact (op_id _ n f q).trans (by rw [starts_id x n f h0, e]; show min _ 118 = _ % 119; omega)
  | ⟨2, _⟩ => exact op_chan _ n f q

end Cert.KVal.Reg0Spec

namespace Cert.KVal.Reg0

open Idealize.ShloMosaic Idealize.ShloMosaic.TcCoe Idealize.SL.Sem Idealize.ShloMosaic.ValueIdx
open Cert.KernelIdeal Cert.KernelIdeal.Facts₀ Cert.KernelIdeal.Facts

theorem indicator_val (x y : BitVec 32) :
    FloatOps.sitofp (F := Ideal) .f32 ((IntOp.cmpi .eq x y).setWidth 32) = if x = y then (1 : EReal) else 0 := by
  show (((((IntOp.cmpi .eq x y).setWidth 32).toInt : ℤ) : ℝ) : EReal) = _
  by_cases h : x = y
  · subst h
    rw [if_pos rfl]
    have : ((IntOp.cmpi .eq x x).setWidth 32).toInt = 1 := by
      simp [IntOp.cmpi]
    rw [this]; simp
  · rw [if_neg h]
    have hb : (x == y) = false := by simp [h]
    have : ((IntOp.cmpi .eq x y).setWidth 32).toInt = 0 := by
      simp [IntOp.cmpi, hb]
    rw [this]; simp

theorem ofNat_inj128 (a b : Fin 128) (h : BitVec.ofNat 32 a.val = BitVec.ofNat 32 b.val) : a = b := by
  have := congrArg BitVec.toNat h
  simp only [BitVec.toNat_ofNat] at this
  exact Fin.ext (by omega)

theorem col_apply (xb : IVec S2000x9 32) (o : ℕ) (ho : o < 9) (hs : S2000x9.Slices ![0, o] S2000x1) (p : Fin 2000) (c : Fin 128) :
    broadcastTo S2000x128 (extractStridedSlice S2000x1 ![0, o] xb hs) broadcasts_S2000x1_S2000x128 (ix2 p c)
      = xb (ix2 p ⟨o, ho⟩) := by
  refine (broadcastTo_apply _ _ (ix2 p c) (ix2 p (0 : Fin 1)) ?_).trans ?_
  · intro a
    match a with
    | ⟨0, _⟩ => rfl
    | ⟨1, _⟩ => rfl
  · refine extractStridedSlice_apply _ _ _ _ (ix2 p ⟨o, ho⟩) fun a => ?_
    match a with
    | ⟨0, _⟩ => show p.val = 0 + p.val; omega
    | ⟨1, _⟩ => show o = o + 0; omega

theorem slab_apply (slab : Vec Ideal S1x128x128 .f32) (c q : Fin 128) :
    shapeCast S128x128 slab shapeCasts_S1x128x128_S128x128 (ix2 c q) = slab (ix3 (0 : Fin 1) c q) := by
  refine shapeCast_apply slab _ (ix2 c q) (ix3 (0 : Fin 1) c q) ?_
  rw [Shape.rowMajor_val_three, Shape.rowMajor_val_two]
  show ((0 : ℕ) * 128 + c.val) * 128 + q.val = c.val * 128 + q.val
  omega

theorem onehot_term (xb : Vec Ideal S2000x9 .i32) (o : ℕ) (ho : o < 9) (hs : S2000x9.Slices ![0, o] S2000x1)
    (slab : Vec Ideal S1x128x128 .f32) (p : Fin 2000) (q : Fin 128) (k : Fin 128)
    (hk : xb (ix2 p ⟨o, ho⟩) = BitVec.ofNat 32 k.val) :
    matmul (F := Ideal) dot_S2000x128_S128x128_S2000x128_1_0_0_1_n_n none
      (truncf .bf16 (sitofp .f32 (extui 32 (cmpi .eq (broadcastTo S2000x128 (extractStridedSlice S2000x1 ![0, o] xb hs) broadcasts_S2000x1_S2000x128) (iota .tc S2000x128 32 [1] iota_S2000x128_d1_w32)) natLt_1_32)) bitsLt_bf16_f32)
      (truncf .bf16 (shapeCast S128x128 slab shapeCasts_S1x128x128_S128x128) bitsLt_bf16_f32)
      (constant S2000x128 .f32 0x00000000#32) (ix2 p q)
    = slab (ix3 (0 : Fin 1) k q) := by
  refine (mm_plain_zero (m := 2000) (k := 128) (n := 128) none _ _ p q).trans ?_
  have e1 : ∀ c : Fin 128, (truncf (F := Ideal) .bf16 (sitofp .f32 (extui 32 (cmpi .eq (broadcastTo S2000x128 (extractStridedSlice S2000x1 ![0, o] xb hs) broadcasts_S2000x1_S2000x128) (iota .tc S2000x128 32 [1] iota_S2000x128_d1_w32)) natLt_1_32)) bitsLt_bf16_f32 : FVec Ideal S2000x128 .bf16) (ix2 p c)
      = if k = c then (1 : EReal) else 0 := by
    intro c
    show FloatOps.sitofp (F := Ideal) .f32 ((IntOp.cmpi .eq (broadcastTo S2000x128 (extractStridedSlice S2000x1 ![0, o] xb hs) broadcasts_S2000x1_S2000x128 (ix2 p c)) (iota .tc S2000x128 32 [1] iota_S2000x128_d1_w32 (ix2 p c))).setWidth 32) = _
    rw [indicator_val, col_apply xb o ho hs p c, hk, iota_single_apply]
    show (if BitVec.ofNat 32 k.val = BitVec.ofNat 32 c.val then (1 : EReal) else 0) = _
    by_cases h : k = c
    · rw [if_pos h, if_pos (by rw [h])]
    · rw [if_neg h, if_neg (fun h' => h (ofNat_inj128 k c h'))]
  have e2 : ∀ c : Fin 128, (truncf (F := Ideal) .bf16 (shapeCast S128x128 slab shapeCasts_S1x128x128_S128x128) bitsLt_bf16_f32 : FVec Ideal S128x128 .bf16) (ix2 c q)
      = slab (ix3 (0 : Fin 1) c q) := fun c => slab_apply slab c q
  rw [Finset.sum_eq_single k]
  · rw [e1 k, e2 k, if_pos rfl, one_mul]
  · intro c _ hc
    rw [e1 c, if_neg (fun h => hc h.symm), zero_mul]
  · intro h; exact absurd (Finset.mem_univ k) h

theorem ldslab (tb : Vec Ideal S9x128x128 .f32) (o : ℕ) (ho : o < 9)
    (inb : ∀ a, (![o, 0, 0] : Fin 3 → ℕ) a + S1x128x128.size a ≤ S9x128x128.size a) (k q : Fin 128) :
    View.ld tb (Rect.unit (s := S9x128x128) ![o, 0, 0] S1x128x128.size inb) (ix3 (0 : Fin 1) k q) = tb (ix3 (⟨o, ho⟩ : Fin 9) k q) := by
  show tb ((Rect.unit (s := S9x128x128) ![o, 0, 0] S1x128x128.size inb).idx (ix3 (0 : Fin 1) k q)) = _
  congr 1
  funext a
  apply Fin.ext
  match a with
  | ⟨0, _⟩ => show o + 1 * 0 = o; omega
  | ⟨1, _⟩ => show 0 + 1 * k.val = k.val; omega
  | ⟨2, _⟩ => show 0 + 1 * q.val = q.val; omega

theorem onehot_slab (xb : Vec Ideal S2000x9 .i32) (o : ℕ) (ho : o < 9) (hs : S2000x9.Slices ![0, o] S2000x1)
    (tb : Vec Ideal S9x128x128 .f32) (inb : ∀ a, (![o, 0, 0] : Fin 3 → ℕ) a + S1x128x128.size a ≤ S9x128x128.size a)
    (p : Fin 2000) (q : Fin 128) (k : Fin 128) (hk : xb (ix2 p ⟨o, ho⟩) = BitVec.ofNat 32 k.val) :
    matmul (F := Ideal) dot_S2000x128_S128x128_S2000x128_1_0_0_1_n_n none
      (truncf .bf16 (sitofp .f32 (extui 32 (cmpi .eq (broadcastTo S2000x128 (extractStridedSlice S2000x1 ![0, o] xb hs) broadcasts_S2000x1_S2000x128) (iota .tc S2000x128 32 [1] iota_S2000x128_d1_w32)) natLt_1_32)) bitsLt_bf16_f32)
      (truncf .bf16 (shapeCast S128x128 (View.ld tb (Rect.unit (s := S9x128x128) ![o, 0, 0] S1x128x128.size inb)) shapeCasts_S1x128x128_S128x128) bitsLt_bf16_f32)
      (constant S2000x128 .f32 0x00000000#32) (ix2 p q)
    = tb (ix3 (⟨o, ho⟩ : Fin 9) k q) :=
  (onehot_term xb o ho hs (View.ld tb (Rect.unit (s := S9x128x128) ![o, 0, 0] S1x128x128.size inb)) p q k hk).trans
    (ldslab tb o ho inb k q)

theorem hz2 : (![0, 0] : Fin 2 → Nat) = fun _ => 0 := funext fun a => by fin_cases a <;> rfl

theorem out_apply (xb : Vec Ideal S2000x9 .i32) (tb : Vec Ideal S9x128x128 .f32) (p : Fin 2000) (q : Fin 128)
    (kf : Fin 9 → Fin 128) (hk : ∀ f : Fin 9, xb (ix2 p f) = BitVec.ofNat 32 (kf f).val) :
    Gen.out0_2 xb tb (ix2 p q) = ∑ f : Fin 9, tb (ix3 f (kf f) q) := by
  unfold Gen.out0_2
  rw [View.canon_unit_zero hz2]
  simp only [View.ld_unit_zero (S := S2000x9) hz2]
  unfold Gen.k0_pay1 Gen.k0_pay4 Gen.k0_pay2 Gen.k0_pay3 Gen.k0_pay5
  dsimp only
  simp only [ValueIdx.addf_apply, ValueIdx.broadcast_apply]
  rw [onehot_slab xb 0 (by decide) _ tb _ p q (kf 0) (hk 0),
    onehot_slab xb 1 (by decide) _ tb _ p q (kf 1) (hk 1),
    onehot_slab xb 2 (by decide) _ tb _ p q (kf 2) (hk 2),
    onehot_slab xb 3 (by decide) _ tb _ p q (kf 3) (hk 3),
    onehot_slab xb 4 (by decide) _ tb _ p q (kf 4) (hk 4),
    onehot_slab xb 5 (by decide) _ tb _ p q (kf 5) (hk 5),
    onehot_slab xb 6 (by decide) _ tb _ p q (kf 6) (hk 6),
    onehot_slab xb 7 (by decide) _ tb _ p q (kf 7) (hk 7),
    onehot_slab xb 8 (by decide) _ tb _ p q (kf 8) (hk 8)]
  simp only [Fin.sum_univ_castSucc, Fin.sum_univ_zero]
  rw [show FloatOps.ofBits (F := Ideal) .f32 0x00000000#32 = (0 : EReal) from Ideal.ofBits_zero_f32]
  rfl

def rowSum (x : IVec S50000x9 32) (tab : FVec Ideal S9x128x128 .f32) (n : Fin 50000) (q : Fin 128) : EReal :=
  ∑ f : Fin 9, tab (ix3 f ⟨(x (ix2 n f)).toNat % 128, Nat.mod_lt _ (by decide)⟩ q)

def encG (x : IVec S50000x9 32) (tab : FVec Ideal S9x128x128 .f32) : S50000x128.Idx → EReal :=
  fun i => rowSum x tab (i 0) (i 1)

theorem idx0 : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

theorem xblk_apply (V : KV) (c : Dev nD) (t : Fin cfg0.N) (p : Fin 2000) (f : Fin 9) (n : Fin 50000)
    (hn : n.val = t.val * 2000 + p.val) :
    (Gen.iblk0 V c 0 t : Vec Ideal S2000x9 .i32) (ix2 p f) = (V c main_arg0 : S50000x9.Idx → BitVec 32) (ix2 n f) := by
  obtain ⟨e0, e1, -⟩ := idx0 t
  unfold Gen.iblk0
  show V c main_arg0 (((cfg0.win 0).blk t).view.emb (ix2 p f)) = V c main_arg0 (ix2 n f)
  congr 1
  funext a
  apply Fin.ext
  match a with
  | ⟨0, _⟩ => show win0_0.index t (0 : Fin 2) * 2000 + 1 * p.val = n.val; omega
  | ⟨1, _⟩ => show win0_0.index t (1 : Fin 2) * 9 + 1 * f.val = f.val; omega

theorem tblk_apply (V : KV) (c : Dev nD) (t : Fin cfg0.N) (f : Fin 9) (k q : Fin 128) :
    (Gen.iblk0 V c 1 t : Vec Ideal S9x128x128 .f32) (ix3 f k q) = (V c main_v0 : S9x128x128.Idx → EReal) (ix3 f k q) := by
  obtain ⟨-, -, e2, e3, e4, -⟩ := idx0 t
  unfold Gen.iblk0
  show V c main_v0 (((cfg0.win 1).blk t).view.emb (ix3 f k q)) = V c main_v0 (ix3 f k q)
  congr 1
  funext a
  apply Fin.ext
  match a with
  | ⟨0, _⟩ => show win0_1.index t (0 : Fin 3) * 9 + 1 * f.val = f.val; omega
  | ⟨1, _⟩ => show win0_1.index t (1 : Fin 3) * 128 + 1 * k.val = k.val; omega
  | ⟨2, _⟩ => show win0_1.index t (2 : Fin 3) * 128 + 1 * q.val = q.val; omega

theorem flushed_eq (V : KV) (c : Dev nD) (x : IVec S50000x9 32) (tab : FVec Ideal S9x128x128 .f32)
    (hx : V c main_arg0 = x) (htab : V c main_v0 = tab) (hr : ∀ i : S50000x9.Idx, (x i).toNat < 128) (t : Fin cfg0.N) :
    (Gen.dat0 V c).flushed 2 t = ((cfg0.win 2).blk t).view.read (Elt Ideal) (encG x tab) := by
  obtain ⟨-, -, -, -, -, e5, e6⟩ := idx0 t
  have ht : t.val < 25 := lt_of_lt_of_eq t.isLt Gen.N_0
  show (cfg0.win 2).cut (grid0.coords t) ((Gen.dat0 V c).after 2 t) = _
  rw [Gen.after0_2]
  funext j
  obtain ⟨p, q, rfl⟩ : ∃ (p : Fin 2000) (q : Fin 128), j = ix2 p q := ⟨j 0, j 1, eq_ix2 j⟩
  show Gen.out0_2 (Gen.iblk0 V c 0 t) (Gen.iblk0 V c 1 t) (ix2 p q) = encG x tab (((cfg0.win 2).blk t).view.emb (ix2 p q))
  have hn : t.val * 2000 + p.val < 50000 := by omega
  have hemb : ((cfg0.win 2).blk t).view.emb (ix2 p q) = (ix2 (⟨t.val * 2000 + p.val, hn⟩ : Fin 50000) q : S50000x128.Idx) := by
    funext a
    apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  rw [hemb]
  show _ = rowSum x tab ⟨t.val * 2000 + p.val, hn⟩ q
  unfold rowSum
  refine (out_apply (Gen.iblk0 V c 0 t) (Gen.iblk0 V c 1 t) p q
    (fun f => ⟨(x (ix2 (⟨t.val * 2000 + p.val, hn⟩ : Fin 50000) f)).toNat % 128, Nat.mod_lt _ (by decide)⟩) ?_).trans ?_
  · intro f
    rw [xblk_apply V c t p f ⟨t.val * 2000 + p.val, hn⟩ rfl, hx]
    have := hr (ix2 (⟨t.val * 2000 + p.val, hn⟩ : Fin 50000) f)
    show _ = BitVec.ofNat 32 ((x (ix2 (⟨t.val * 2000 + p.val, hn⟩ : Fin 50000) f)).toNat % 128)
    rw [Nat.mod_eq_of_lt this, BitVec.ofNat_toNat, BitVec.setWidth_eq]
  · refine Finset.sum_congr rfl fun f _ => ?_
    rw [tblk_apply V c t f _ q, htab]

theorem arr_eq (V : KV) (c : Dev nD) (x : IVec S50000x9 32) (tab : FVec Ideal S9x128x128 .f32)
    (hx : V c main_arg0 = x) (htab : V c main_v0 = tab) (hr : ∀ i : S50000x9.Idx, (x i).toNat < 128) :
    (Gen.dat0 V c).arrAt 2 cfg0.N = encG x tab :=
  (Gen.dat0 V c).arrAt_eq_of_cover 2 (encG x tab) (fun t _ => flushed_eq V c x tab hx htab hr t)
    fun i => (rows_cover i).imp fun t h => ⟨Gen.flush0_2 t, h⟩

theorem padEmb_apply (emb : FVec Ideal S9x119x128 .f32) (f : Fin 9) (k : Fin 128) (k' : Fin 119) (hk : k.val = k'.val) (q : Fin 128) :
    padEmb emb (ix3 f k q) = emb (ix3 f k' q) := by
  unfold padEmb
  refine pad_apply_of_inside _ _ _ emb _ _ _ (ix3 f k q) (ix3 f k' q) ?_
  intro a
  match a with
  | ⟨0, _⟩ => show f.val = 0 + f.val * (0 + 1); omega
  | ⟨1, _⟩ => show k.val = 0 + k'.val * (0 + 1); omega
  | ⟨2, _⟩ => show q.val = 0 + q.val * (0 + 1); omega

end Cert.KVal.Reg0

namespace Cert.KVal

open Idealize.ShloMosaic Idealize.ShloMosaic.TcCoe Idealize.SL.Sem Idealize.ShloMosaic.ValueIdx
open Cert.KernelIdeal Cert.KernelIdeal.Facts₀ Cert.KernelIdeal.Facts

theorem region0 (V : KV) (c : Dev nD) (x : IVec S50000x9 32) (emb : FVec Ideal S9x119x128 .f32)
    (hx : V c main_arg0 = x) (hpad : V c main_v0 = padEmb emb) (hr : InRange x) :
    (Gen.dat0 V c).arrAt 2 cfg0.N = Cert.Spec.enc x emb := by
  have hr' : ∀ i : S50000x9.Idx, (x i).toNat < 128 := fun i => by
    obtain ⟨h0, h1⟩ := hr i
    have := (Reg0Spec.toNat_of_range _ h0 h1).2
    omega
  rw [Reg0.arr_eq V c x (padEmb emb) hx hpad hr']
  funext i
  obtain ⟨n, q, rfl⟩ : ∃ (n : Fin 50000) (q : Fin 128), i = ix2 n q := ⟨i 0, i 1, eq_ix2 i⟩
  rw [Reg0Spec.enc_apply x emb hr n q]
  show Reg0.rowSum x (padEmb emb) n q = _
  unfold Reg0.rowSum
  refine Finset.sum_congr rfl fun f _ => ?_
  obtain ⟨h0, h1⟩ := hr (ix2 n f)
  have hlt := (Reg0Spec.toNat_of_range _ h0 h1).2
  exact Reg0.padEmb_apply emb f _ _ (by show _ % 128 = _ % 119; omega) q

end Cert.KVal

end
-- ==== Proof.KFold0.lean ====
import proofs.«424614_j7395933684274_1_alg».proof.Proof.KDefs
import proofs.«424614_j7395933684274_1_alg».proof.Proof.KReg0

noncomputable section

namespace Cert.KVal

open Idealize.ShloMosaic Idealize.ShloMosaic.TcCoe Idealize.SL.Sem
open Cert.KernelIdeal Cert.KernelIdeal.Facts₀ Cert.KernelIdeal.Facts

variable (m : (ℓ : Loc nD τ sig) → Buf (Elt Ideal) ℓ) (ρ : Dev nD → PrngReg) (c : Dev nD)

private theorem W2_of_ne (b : Ref sig .tc) (h1 : b ≠ main_c) (h2 : b ≠ main_call0_v0) (h3 : b ≠ main_v0) :
    Gen.W2 m ρ c (Proc.devRef .tc b) = m ((c.tc : Thread nD τ).loc b) :=
  calc Gen.W2 m ρ c (Proc.devRef .tc b)
    _ = Gen.W1 m ρ c (Proc.devRef .tc b) :=
        StableHlo.after_of_forall_not_mem (b := Proc.devRef .tc b) _ _ (List.forall_iff_forall_mem.mp (by
          simp only [Gen.hostOps0_1, List.Forall, StableHlo.unary_writes, StableHlo.binary_writes, Finset.mem_singleton]
          exact ⟨StableHlo.devRef_ne_of_ne h2, StableHlo.devRef_ne_of_ne h3⟩))
    _ = Gen.W0 m ρ c (Proc.devRef .tc b) :=
        StableHlo.after_of_forall_not_mem (b := Proc.devRef .tc b) _ _ (List.forall_iff_forall_mem.mp (by
          simp only [Gen.hostOps0, List.Forall, StableHlo.nullary_writes, Finset.mem_singleton]
          exact StableHlo.devRef_ne_of_ne h1))
    _ = m ((c.tc : Thread nD τ).loc b) := rfl

private theorem W2_main_v0 :
    Gen.W2 m ρ c main_v0 = padEmb (m ((c.tc : Thread nD τ).loc main_arg3)) := by
  show StableHlo.after Gen.hostOps0_1 (StableHlo.after Gen.hostOps0 (Gen.W0 m ρ c)) main_v0 = _
  simp only [Gen.hostOps0_1, Gen.hostOps0]
  after_results_simp
  rfl

private theorem W3_of_ne_all (b : Ref sig .tc) (h1 : b ≠ main_c) (h2 : b ≠ main_call0_v0) (h3 : b ≠ main_v0)
    (hb : ∀ w, Pipeline.arrRef spec0 w ≠ b) :
    Gen.W3 m ρ c (Proc.devRef .tc b) = m ((c.tc : Thread nD τ).loc b) :=
  (Gen.W3_of_ne m ρ c b hb).trans (W2_of_ne m ρ c b h1 h2 h3)

theorem stage0 (hr : InRange (m ((c.tc : Thread nD τ).loc main_arg0))) :
    (Gen.W3 m ρ c main_v1 = Cert.Spec.h0 (F := Ideal) (m ((c.tc : Thread nD τ).loc main_arg0)) (m ((c.tc : Thread nD τ).loc main_arg3)))
      ∧ (Gen.W3 m ρ c main_arg1 = m ((c.tc : Thread nD τ).loc main_arg1))
      ∧ (Gen.W3 m ρ c main_arg2 = m ((c.tc : Thread nD τ).loc main_arg2))
      ∧ (Gen.W3 m ρ c main_arg4 = m ((c.tc : Thread nD τ).loc main_arg4))
      ∧ (Gen.W3 m ρ c main_arg5 = m ((c.tc : Thread nD τ).loc main_arg5))
      ∧ (Gen.W3 m ρ c main_arg6 = m ((c.tc : Thread nD τ).loc main_arg6))
      ∧ (Gen.W3 m ρ c main_arg7 = m ((c.tc : Thread nD τ).loc main_arg7))
      ∧ (Gen.W3 m ρ c main_arg8 = m ((c.tc : Thread nD τ).loc main_arg8))
      ∧ (Gen.W3 m ρ c main_arg9 = m ((c.tc : Thread nD τ).loc main_arg9)) := by
  refine ⟨?_, W3_of_ne_all m ρ c main_arg1 (by decide) (by decide) (by decide) (by decide),
    W3_of_ne_all m ρ c main_arg2 (by decide) (by decide) (by decide) (by decide),
    W3_of_ne_all m ρ c main_arg4 (by decide) (by decide) (by decide) (by decide),
    W3_of_ne_all m ρ c main_arg5 (by decide) (by decide) (by decide) (by decide),
    W3_of_ne_all m ρ c main_arg6 (by decide) (by decide) (by decide) (by decide),
    W3_of_ne_all m ρ c main_arg7 (by decide) (by decide) (by decide) (by decide),
    W3_of_ne_all m ρ c main_arg8 (by decide) (by decide) (by decide) (by decide),
    W3_of_ne_all m ρ c main_arg9 (by decide) (by decide) (by decide) (by decide)⟩
  have hx : Gen.V2 m ρ c main_arg0 = m ((c.tc : Thread nD τ).loc main_arg0) :=
    W2_of_ne m ρ c main_arg0 (by decide) (by decide) (by decide)
  have hpad : Gen.V2 m ρ c main_v0 = padEmb (m ((c.tc : Thread nD τ).loc main_arg3)) :=
    W2_main_v0 m ρ c
  exact (Gen.W3_arr m ρ c 2).trans
    (region0 (Gen.V2 m ρ) c (m ((c.tc : Thread nD τ).loc main_arg0)) (m ((c.tc : Thread nD τ).loc main_arg3)) hx hpad hr)

end Cert.KVal

end
-- ==== Proof.KFold1.lean ====
import proofs.«424614_j7395933684274_1_alg».proof.Proof.KDefs
import proofs.«424614_j7395933684274_1_alg».proof.Proof.KMm

noncomputable section

namespace Cert.KVal

open Idealize.ShloMosaic Idealize.ShloMosaic.TcCoe Idealize.SL.Sem
open Cert.KernelIdeal Cert.KernelIdeal.Facts₀ Cert.KernelIdeal.Facts

namespace Fold1

section Host
variable {F : FTy → Type} [FloatOps F] (V : Valuation τ sig (Elt F))

abbrev aft : Valuation τ sig (Elt F) :=
  StableHlo.after (Gen.hostOps1_2 (F := F)) (StableHlo.after (Gen.hostOps1_1 (F := F)) (StableHlo.after (Gen.hostOps1 (F := F)) V))

theorem aft_v5 : aft V main_v5 = Cert.Spec.src (V main_arg1) := by
  simp only [aft, Gen.hostOps1, Gen.hostOps1_1, Gen.hostOps1_2]
  after_results_simp
  rfl

theorem aft_v8 : aft V main_v8 = Cert.Spec.dst (V main_arg1) := by
  simp only [aft, Gen.hostOps1, Gen.hostOps1_1, Gen.hostOps1_2]
  after_results_simp
  rfl

theorem aft_v36 : aft V main_v36 = Cert.Spec.sliceW0 (V main_arg4) := by
  simp only [aft, Gen.hostOps1, Gen.hostOps1_1, Gen.hostOps1_2]
  after_results_simp
  rfl

set_option maxHeartbeats 2000000 in
theorem aft_v34 : aft V main_v34 = Cert.Spec.norm (V main_arg1) := by
  simp only [aft, Gen.hostOps1, Gen.hostOps1_1, Gen.hostOps1_2]
  after_results_simp
  rfl

end Host

end Fold1

variable (m : (ℓ : Loc nD τ sig) → Buf (Elt Ideal) ℓ) (ρ : Dev nD → PrngReg) (c : Dev nD)

set_option hygiene false in
/-- A literal buffer none of the three stretches writes holds at the region's entry what it held before them. -/
local macro "kept " b:ident : term =>
  `(((by host_keeps Gen.hostOps1_2 : Gen.W6 m ρ c $b = Gen.W5 m ρ c $b).trans
      ((by host_keeps Gen.hostOps1_1 : Gen.W5 m ρ c $b = Gen.W4 m ρ c $b).trans
        (by host_keeps Gen.hostOps1 : Gen.W4 m ρ c $b = Gen.W3 m ρ c $b))))

set_option hygiene false in
local macro "kept' " b:ident : term => `((Gen.W7_of_ne m ρ c $b (by decide)).trans (kept $b))

theorem stage1 :
    (Gen.W7 m ρ c main_v37 = Cert.Spec.mm (F := Ideal) (Gen.W3 m ρ c main_v1) (Cert.Spec.sliceW0 (Gen.W3 m ρ c main_arg4)))
      ∧ (Gen.W7 m ρ c main_v5 = Cert.Spec.src (Gen.W3 m ρ c main_arg1))
      ∧ (Gen.W7 m ρ c main_v8 = Cert.Spec.dst (Gen.W3 m ρ c main_arg1))
      ∧ (Gen.W7 m ρ c main_v34 = Cert.Spec.norm (F := Ideal) (Gen.W3 m ρ c main_arg1))
      ∧ (Gen.W7 m ρ c main_v1 = Gen.W3 m ρ c main_v1)
      ∧ (Gen.W7 m ρ c main_arg2 = Gen.W3 m ρ c main_arg2)
      ∧ (Gen.W7 m ρ c main_arg4 = Gen.W3 m ρ c main_arg4)
      ∧ (Gen.W7 m ρ c main_arg5 = Gen.W3 m ρ c main_arg5)
      ∧ (Gen.W7 m ρ c main_arg6 = Gen.W3 m ρ c main_arg6)
      ∧ (Gen.W7 m ρ c main_arg7 = Gen.W3 m ρ c main_arg7)
      ∧ (Gen.W7 m ρ c main_arg8 = Gen.W3 m ρ c main_arg8)
      ∧ (Gen.W7 m ρ c main_arg9 = Gen.W3 m ρ c main_arg9) := by
  have h1 : Gen.W6 m ρ c main_v1 = Gen.W3 m ρ c main_v1 := kept main_v1
  have h36 : Gen.W6 m ρ c main_v36 = Cert.Spec.sliceW0 (F := Ideal) (Gen.W3 m ρ c main_arg4) :=
    Fold1.aft_v36 (F := Ideal) (Gen.W3 m ρ c)
  refine ⟨?_, ?_, ?_, ?_, ?_, kept' main_arg2, kept' main_arg4, kept' main_arg5, kept' main_arg6, kept' main_arg7, kept' main_arg8, kept' main_arg9⟩
  · refine (Gen.W7_arr m ρ c 2).trans ((region1 (Gen.V6 m ρ) c).trans ?_)
    exact congrArg₂ (Cert.Spec.mm (F := Ideal)) h1 h36
  · exact (Gen.W7_of_ne m ρ c main_v5 (by decide)).trans (Fold1.aft_v5 (F := Ideal) (Gen.W3 m ρ c))
  · exact (Gen.W7_of_ne m ρ c main_v8 (by decide)).trans (Fold1.aft_v8 (F := Ideal) (Gen.W3 m ρ c))
  · exact (Gen.W7_of_ne m ρ c main_v34 (by decide)).trans (Fold1.aft_v34 (F := Ideal) (Gen.W3 m ρ c))
  · exact ((Gen.W7_arr m ρ c 0).trans (((Gen.dat1 (Gen.V6 m ρ) c).arrAt_in 0 rfl _).trans
      (Gen.A_eq1 (Gen.V6 m ρ) c 0))).trans h1

end Cert.KVal

end
-- ==== Proof.KBn.lean ====
import proofs.«424614_j7395933684274_1_alg».proof.Proof.KDefs
import Idealize.ShloMosaic.Lib.ValueIdx
import Idealize.ShloMosaic.Lib.Pipeline.Value

noncomputable section

namespace Cert.KVal

open Idealize.ShloMosaic Idealize.ShloMosaic.TcCoe Idealize.SL.Sem
open Idealize.ShloMosaic.ValueIdx
open Cert.KernelIdeal Cert.KernelIdeal.Facts₀ Cert.KernelIdeal.Facts

namespace region2

def bnEntry (g b x m v r : Ideal .f32) : Ideal .f32 :=
  max ((g * (x - m)) * Ideal.rsqrt (v + Ideal.ofBits .f32 0x3727C5AC#32) + b) (Ideal.ofBits .f32 0x00000000#32) + r

theorem rowSpread_apply (x : FVec Ideal S1x128 .f32) (h : S1x128.Broadcasts S2000x128) (p : Fin 2000) (q : Fin 128) :
    broadcastTo S2000x128 x h (ix2 p q) = x (ix2 (0 : Fin 1) q) :=
  broadcastTo_apply x h (ix2 p q) (ix2 (0 : Fin 1) q) (fun a => by
    match a with
    | ⟨0, _⟩ => rfl
    | ⟨1, _⟩ => rfl)

theorem payload_apply (x0 x1 : Vec Ideal S2000x128 .f32) (g b m v : Vec Ideal S1x128 .f32) (p : Fin 2000) (q : Fin 128) :
    Gen.k2_pay1 (F := Ideal) x0 g b m v x1 (ix2 p q)
      = bnEntry (g (ix2 (0 : Fin 1) q)) (b (ix2 (0 : Fin 1) q)) (x0 (ix2 p q)) (m (ix2 (0 : Fin 1) q)) (v (ix2 (0 : Fin 1) q)) (x1 (ix2 p q)) := by
  unfold Gen.k2_pay1
  simp only [shapeCast_self]
  simp only [addf_apply, maximumf_apply, mulf_apply, subf_apply, broadcast_apply, rowSpread_apply]
  rfl

theorem hostSpread_apply (x : FVec Ideal Cert.ReferenceIdeal.S128 .f32)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S50000x128 (![0, 1] : Fin 2 → Fin Cert.ReferenceIdeal.S50000x128.rank))
    (n : Fin 50000) (q : Fin 128) :
    broadcastInDim Cert.ReferenceIdeal.S50000x128 ![0, 1] h2 (broadcastInDim Cert.ReferenceIdeal.S1x128 ![1] h1 x) (ix2 n q) = x (ix1 q) := by
  rw [broadcastInDim_apply ![0, 1] h2 _ (ix2 n q) (ix2 (0 : Fin 1) q) (fun a => by
    match a with
    | ⟨0, _⟩ => rfl
    | ⟨1, _⟩ => rfl)]
  exact broadcastInDim_apply ![1] h1 x (ix2 (0 : Fin 1) q) (ix1 q) (fun a => by
    match a with
    | ⟨0, _⟩ => rfl)

theorem bnres_apply (gl btl mu vr : FVec Ideal S128 .f32) (a res : FVec Ideal S50000x128 .f32) (n : Fin 50000) (q : Fin 128) :
    Cert.Spec.bnres gl btl a mu vr res (ix2 n q)
      = bnEntry (gl (ix1 q)) (btl (ix1 q)) (a (ix2 n q)) (mu (ix1 q)) (vr (ix1 q)) (res (ix2 n q)) := by
  unfold Cert.Spec.bnres
  simp only [addf_apply, maximumf_apply, mulf_apply, subf_apply]
  rw [hostSpread_apply gl, hostSpread_apply mu, hostSpread_apply btl, hostSpread_apply (Host.rsqrt _)]
  rfl

theorem zeroOff : (![0, 0] : Fin 2 → Nat) = fun _ => 0 := funext fun a => by
  match a with
  | ⟨0, _⟩ => rfl
  | ⟨1, _⟩ => rfl

theorem row_apply (x : FVec Ideal S128 .f32) (h : S128.ShapeCasts S1x128) (k : S1x128.Idx) (q : Fin 128) (hk : (k 1).val = q.val) :
    shapeCast S1x128 x h k = x (ix1 q) := by
  refine shapeCast_apply x h k (ix1 q) ?_
  rw [Shape.rowMajor_val_one, Shape.rowMajor_val_two]
  have h0 : (k 0).val < 1 := (k 0).isLt
  show q.val = (k 0).val * 128 + (k 1).val
  omega

theorem blockIndex : ∀ t : Fin cfg2.N,
    win2_0.index t (0 : Fin 2) = t.val ∧ win2_0.index t (1 : Fin 2) = 0
    ∧ win2_6.index t (0 : Fin 2) = t.val ∧ win2_6.index t (1 : Fin 2) = 0
    ∧ win2_2.index t (1 : Fin 2) = 0 :=
  (by decide +kernel : ∀ t : Fin grid2.N, _)

/-- Input and output blocks of 2000 rows cover the same rows: an element has the same place in both arrays. -/
theorem big_blk (t : Fin cfg2.N) (A : FVec Ideal S50000x128 .f32) (j : S2000x128.Idx) :
    A (((cfg2.win 0).blk t).view.emb j) = A (((cfg2.win 6).blk t).view.emb j) := by
  obtain ⟨e00, e01, e60, e61, -⟩ := blockIndex t
  refine congrArg A (funext fun a => Fin.ext ?_)
  match a with
  | ⟨0, _⟩ => show win2_0.index t (0 : Fin 2) * 2000 + 1 * (j 0).val = win2_6.index t (0 : Fin 2) * 2000 + 1 * (j 0).val; rw [e00, e60]
  | ⟨1, _⟩ => show win2_0.index t (1 : Fin 2) * 128 + 1 * (j 1).val = win2_6.index t (1 : Fin 2) * 128 + 1 * (j 1).val; rw [e01, e61]

/-- The block of a 1×128 array is the array: its column `q` is entry `q` of the vector it was laid out from. -/
theorem row_blk (t : Fin cfg2.N) (G : FVec Ideal S1x128 .f32) (gl : FVec Ideal S128 .f32)
    (hg : G = shapeCast S1x128 gl shapeCasts_S128_S1x128) (q : Fin 128) :
    G (((cfg2.win 2).blk t).view.emb (ix2 (0 : Fin 1) q)) = gl (ix1 q) := by
  obtain ⟨-, -, -, -, e21⟩ := blockIndex t
  rw [hg]
  refine row_apply gl _ _ q ?_
  show win2_2.index t (1 : Fin 2) * 128 + 1 * q.val = q.val
  rw [e21]; omega

/-- The stored block at `j` is the reference's entry at `i` once every block read holds the array entry it stands for. -/
theorem out_eq (x0 x1 : Vec Ideal S2000x128 .f32) (g b m v : Vec Ideal S1x128 .f32)
    (a res : FVec Ideal S50000x128 .f32) (gl btl mu vr : FVec Ideal S128 .f32)
    (j : S2000x128.Idx) (i : S50000x128.Idx) (hq : (i 1).val = (j 1).val)
    (h0 : x0 j = a i) (h1 : x1 j = res i)
    (hg : ∀ q : Fin 128, g (ix2 (0 : Fin 1) q) = gl (ix1 q)) (hb : ∀ q : Fin 128, b (ix2 (0 : Fin 1) q) = btl (ix1 q))
    (hm : ∀ q : Fin 128, m (ix2 (0 : Fin 1) q) = mu (ix1 q)) (hv : ∀ q : Fin 128, v (ix2 (0 : Fin 1) q) = vr (ix1 q)) :
    Gen.out2_6 (F := Ideal) x0 x1 g b m v j = Cert.Spec.bnres gl btl a mu vr res i := by
  unfold Gen.out2_6
  rw [View.canon_unit_zero zeroOff]
  simp only [View.ld_unit_zero (S := S2000x128) zeroOff, View.ld_unit_zero (S := S1x128) zeroOff]
  obtain ⟨p, q, rfl⟩ : ∃ (p : Fin 2000) (q : Fin 128), j = ix2 p q := ⟨j 0, j 1, eq_ix2 j⟩
  obtain ⟨n, q', rfl⟩ : ∃ (n : Fin 50000) (q' : Fin 128), i = ix2 n q' := ⟨i 0, i 1, eq_ix2 i⟩
  obtain rfl : q' = q := Fin.ext hq
  rw [payload_apply, bnres_apply, ← h0, ← h1, hg, hb, hm, hv]

/-- Block `t` of the result is block `t` of the reference's chain of whatever arrays stand at the six input windows. -/
theorem point_eq (A R : FVec Ideal S50000x128 .f32) (G B M Vr : FVec Ideal S1x128 .f32) (gl btl mu vr : FVec Ideal S128 .f32)
    (hg : G = shapeCast S1x128 gl shapeCasts_S128_S1x128) (hb : B = shapeCast S1x128 btl shapeCasts_S128_S1x128)
    (hmu : M = shapeCast S1x128 mu shapeCasts_S128_S1x128) (hvr : Vr = shapeCast S1x128 vr shapeCasts_S128_S1x128)
    (t : Fin cfg2.N) :
    (cfg2.win 6).cut (grid2.coords t)
        (Gen.out2_6 (F := Ideal) (((cfg2.win 0).blk t).view.read (Elt Ideal) A) (((cfg2.win 1).blk t).view.read (Elt Ideal) R)
          (((cfg2.win 2).blk t).view.read (Elt Ideal) G) (((cfg2.win 3).blk t).view.read (Elt Ideal) B)
          (((cfg2.win 4).blk t).view.read (Elt Ideal) M) (((cfg2.win 5).blk t).view.read (Elt Ideal) Vr))
      = ((cfg2.win 6).blk t).view.read (Elt Ideal) (Cert.Spec.bnres gl btl A mu vr R) := by
  funext j
  refine out_eq _ _ _ _ _ _ A R gl btl mu vr ((cfg2.win 6).xinj (grid2.coords t) j) (((cfg2.win 6).blk t).view.emb j) ?_
    (big_blk t A j) (big_blk t R j) (row_blk t G gl hg) (row_blk t B btl hb) (row_blk t M mu hmu) (row_blk t Vr vr hvr)
  obtain ⟨-, -, -, e61, -⟩ := blockIndex t
  show win2_6.index t (1 : Fin 2) * 128 + 1 * (j 1).val = (j 1).val
  rw [e61]; omega

/-- Row `r` of the array lies in the output block of grid point `r / 2000`. -/
theorem covered (i : S50000x128.Idx) : ∃ t : Fin cfg2.N, i ∈ ((cfg2.win 6).blk t).view.set := by
  have hi0 : (i 0).val < 50000 := (i 0).isLt
  have hi1 : (i 1).val < 128 := (i 1).isLt
  have ht : (i 0).val / 2000 < cfg2.N := by rw [show cfg2.N = 25 from Gen.N_2]; omega
  refine ⟨⟨(i 0).val / 2000, ht⟩, ?_⟩
  show i ∈ ((View.whole main_v68).slice (win2_6.rect ⟨(i 0).val / 2000, ht⟩)).set
  rw [View.set_slice_whole, Rect.mem_set_unit]
  obtain ⟨-, -, e60, e61, -⟩ := blockIndex ⟨(i 0).val / 2000, ht⟩
  intro a
  match a with
  | ⟨0, _⟩ =>
    show win2_6.index ⟨(i 0).val / 2000, ht⟩ (0 : Fin 2) * 2000 ≤ (i 0).val
      ∧ (i 0).val < win2_6.index ⟨(i 0).val / 2000, ht⟩ (0 : Fin 2) * 2000 + 2000
    rw [e60]
    show (i 0).val / 2000 * 2000 ≤ (i 0).val ∧ (i 0).val < (i 0).val / 2000 * 2000 + 2000
    omega
  | ⟨1, _⟩ =>
    show win2_6.index ⟨(i 0).val / 2000, ht⟩ (1 : Fin 2) * 128 ≤ (i 1).val
      ∧ (i 1).val < win2_6.index ⟨(i 0).val / 2000, ht⟩ (1 : Fin 2) * 128 + 128
    rw [e61]
    omega

end region2

theorem region2 (V : KV) (c : Dev nD) (gl btl mu vr : FVec Ideal S128 .f32)
    (hg : V c main_v62 = shapeCast S1x128 gl shapeCasts_S128_S1x128) (hb : V c main_v65 = shapeCast S1x128 btl shapeCasts_S128_S1x128)
    (hmu : V c main_v66 = shapeCast S1x128 mu shapeCasts_S128_S1x128) (hvr : V c main_v67 = shapeCast S1x128 vr shapeCasts_S128_S1x128) :
    (Gen.dat2 (F := Ideal) V c).arrAt 6 cfg2.N = Cert.Spec.bnres gl btl (V c main_v55) mu vr (V c main_v1) :=
  (Gen.dat2 (F := Ideal) V c).arrAt_eq_of_cover 6 _
    (fun t _ => (congrArg ((cfg2.win 6).cut (grid2.coords t)) (Gen.after2_6 V c t)).trans
      (region2.point_eq (V c main_v55) (V c main_v1) _ _ _ _ gl btl mu vr hg hb hmu hvr t))
    (fun i => (region2.covered i).imp fun t h => ⟨Gen.flush2_6 t, h⟩)

theorem region4 (V : KV) (c : Dev nD) (gl btl mu vr : FVec Ideal S128 .f32)
    (hg : V c main_v96 = shapeCast S1x128 gl shapeCasts_S128_S1x128) (hb : V c main_v99 = shapeCast S1x128 btl shapeCasts_S128_S1x128)
    (hmu : V c main_v100 = shapeCast S1x128 mu shapeCasts_S128_S1x128) (hvr : V c main_v101 = shapeCast S1x128 vr shapeCasts_S128_S1x128) :
    (Gen.dat4 (F := Ideal) V c).arrAt 6 cfg4.N = Cert.Spec.bnres gl btl (V c main_v89) mu vr (V c main_v68) :=
  (Gen.dat4 (F := Ideal) V c).arrAt_eq_of_cover 6 _
    (fun t _ => (congrArg ((cfg4.win 6).cut (grid4.coords t)) (Gen.after4_6 V c t)).trans
      (region2.point_eq (V c main_v89) (V c main_v68) _ _ _ _ gl btl mu vr hg hb hmu hvr t))
    (fun i => (region2.covered i).imp fun t h => ⟨Gen.flush4_6 t, h⟩)

theorem region6 (V : KV) (c : Dev nD) (gl btl mu vr : FVec Ideal S128 .f32)
    (hg : V c main_v130 = shapeCast S1x128 gl shapeCasts_S128_S1x128) (hb : V c main_v133 = shapeCast S1x128 btl shapeCasts_S128_S1x128)
    (hmu : V c main_v134 = shapeCast S1x128 mu shapeCasts_S128_S1x128) (hvr : V c main_v135 = shapeCast S1x128 vr shapeCasts_S128_S1x128) :
    (Gen.dat6 (F := Ideal) V c).arrAt 6 cfg6.N = Cert.Spec.bnres gl btl (V c main_v123) mu vr (V c main_v102) :=
  (Gen.dat6 (F := Ideal) V c).arrAt_eq_of_cover 6 _
    (fun t _ => (congrArg ((cfg6.win 6).cut (grid6.coords t)) (Gen.after6_6 V c t)).trans
      (region2.point_eq (V c main_v123) (V c main_v102) _ _ _ _ gl btl mu vr hg hb hmu hvr t))
    (fun i => (region2.covered i).imp fun t h => ⟨Gen.flush6_6 t, h⟩)

theorem region8 (V : KV) (c : Dev nD) (gl btl mu vr : FVec Ideal S128 .f32)
    (hg : V c main_v164 = shapeCast S1x128 gl shapeCasts_S128_S1x128) (hb : V c main_v167 = shapeCast S1x128 btl shapeCasts_S128_S1x128)
    (hmu : V c main_v168 = shapeCast S1x128 mu shapeCasts_S128_S1x128) (hvr : V c main_v169 = shapeCast S1x128 vr shapeCasts_S128_S1x128) :
    (Gen.dat8 (F := Ideal) V c).arrAt 6 cfg8.N = Cert.Spec.bnres gl btl (V c main_v157) mu vr (V c main_v136) :=
  (Gen.dat8 (F := Ideal) V c).arrAt_eq_of_cover 6 _
    (fun t _ => (congrArg ((cfg8.win 6).cut (grid8.coords t)) (Gen.after8_6 V c t)).trans
      (region2.point_eq (V c main_v157) (V c main_v136) _ _ _ _ gl btl mu vr hg hb hmu hvr t))
    (fun i => (region2.covered i).imp fun t h => ⟨Gen.flush8_6 t, h⟩)

end Cert.KVal

end
-- ==== Proof.KFold2.lean ====
import proofs.«424614_j7395933684274_1_alg».proof.Proof.KDefs
import proofs.«424614_j7395933684274_1_alg».proof.Proof.KBn

noncomputable section

namespace Cert.KVal

open Idealize.ShloMosaic Idealize.ShloMosaic.TcCoe Idealize.SL.Sem
open Cert.KernelIdeal Cert.KernelIdeal.Facts₀ Cert.KernelIdeal.Facts

section Host

variable {F : FTy → Type} [FloatOps F] (V : Valuation τ sig (Elt F))

set_option maxHeartbeats 2000000 in
private theorem hostAgg :
    StableHlo.after Gen.hostOps2_1 (StableHlo.after Gen.hostOps2 V) main_v55
      = Cert.Spec.agg (F := F) (V main_v37) (Cert.Spec.sliceb0 (V main_arg5))
          (V main_v5) (V main_v8) (V main_v34) := by
  simp only [Gen.hostOps2_1, Gen.hostOps2]
  after_results_simp
  rfl

set_option maxHeartbeats 2000000 in
private theorem hostMean :
    StableHlo.after Gen.hostOps2_2 V main_v58 = Cert.Spec.mean (F := F) (V main_v55) := by
  simp only [Gen.hostOps2_2]
  after_results_simp
  rfl

set_option maxHeartbeats 2000000 in
private theorem hostVar :
    StableHlo.after Gen.hostOps2_3 (StableHlo.after Gen.hostOps2_2 V) main_v59
      = Cert.Spec.var (F := F) (V main_v55) := by
  simp only [Gen.hostOps2_3, Gen.hostOps2_2]
  after_results_simp
  rfl

private theorem hostRowScale :
    StableHlo.after Gen.hostOps2_4 V main_v62
      = shapeCast S1x128 (Cert.Spec.sliceg0 (F := F) (V main_arg6)) shapeCasts_S128_S1x128 := by
  simp only [Gen.hostOps2_4]
  after_results_simp
  rfl

private theorem hostRowShift :
    StableHlo.after Gen.hostOps2_4 V main_v65
      = shapeCast S1x128 (Cert.Spec.slicebeta0 (F := F) (V main_arg7)) shapeCasts_S128_S1x128 := by
  simp only [Gen.hostOps2_4]
  after_results_simp
  rfl

private theorem hostRowMean :
    StableHlo.after Gen.hostOps2_4 V main_v66
      = shapeCast S1x128 (V main_v58 : FVec F S128 .f32) shapeCasts_S128_S1x128 := by
  simp only [Gen.hostOps2_4]
  after_results_simp
  rfl

private theorem hostRowVar :
    StableHlo.after Gen.hostOps2_4 V main_v67
      = shapeCast S1x128 (V main_v59 : FVec F S128 .f32) shapeCasts_S128_S1x128 := by
  simp only [Gen.hostOps2_4]
  after_results_simp
  rfl

end Host

variable (m : (ℓ : Loc nD τ sig) → Buf (Elt Ideal) ℓ) (ρ : Dev nD → PrngReg) (c : Dev nD)

/-- A buffer the five stretches keep and the region leaves as entered holds, at the later boundaries, what it held before the stretches. -/
private theorem keeps_of (b : Ref sig .tc)
    (hA : ∀ V : Valuation τ sig (Elt Ideal), StableHlo.after Gen.hostOps2 V (Proc.devRef .tc b) = V (Proc.devRef .tc b))
    (hB : ∀ V : Valuation τ sig (Elt Ideal), StableHlo.after Gen.hostOps2_1 V (Proc.devRef .tc b) = V (Proc.devRef .tc b))
    (hC : ∀ V : Valuation τ sig (Elt Ideal), StableHlo.after Gen.hostOps2_2 V (Proc.devRef .tc b) = V (Proc.devRef .tc b))
    (hD : ∀ V : Valuation τ sig (Elt Ideal), StableHlo.after Gen.hostOps2_3 V (Proc.devRef .tc b) = V (Proc.devRef .tc b))
    (hE : ∀ V : Valuation τ sig (Elt Ideal), StableHlo.after Gen.hostOps2_4 V (Proc.devRef .tc b) = V (Proc.devRef .tc b))
    (hQ : Gen.W13 m ρ c (Proc.devRef .tc b) = Gen.W12 m ρ c (Proc.devRef .tc b)) :
    (Gen.W11 m ρ c (Proc.devRef .tc b) = Gen.W7 m ρ c (Proc.devRef .tc b))
      ∧ (Gen.W12 m ρ c (Proc.devRef .tc b) = Gen.W7 m ρ c (Proc.devRef .tc b))
      ∧ (Gen.W13 m ρ c (Proc.devRef .tc b) = Gen.W7 m ρ c (Proc.devRef .tc b)) := by
  have eA : Gen.W8 m ρ c (Proc.devRef .tc b) = Gen.W7 m ρ c (Proc.devRef .tc b) := hA _
  have eB : Gen.W9 m ρ c (Proc.devRef .tc b) = Gen.W7 m ρ c (Proc.devRef .tc b) := (hB _).trans eA
  have eC : Gen.W10 m ρ c (Proc.devRef .tc b) = Gen.W7 m ρ c (Proc.devRef .tc b) := (hC _).trans eB
  have eD : Gen.W11 m ρ c (Proc.devRef .tc b) = Gen.W7 m ρ c (Proc.devRef .tc b) := (hD _).trans eC
  have eE : Gen.W12 m ρ c (Proc.devRef .tc b) = Gen.W7 m ρ c (Proc.devRef .tc b) := (hE _).trans eD
  exact ⟨eD, eE, hQ.trans eE⟩

set_option hygiene false in
local macro "layer_keeps " b:ident : term =>
  `(keeps_of m ρ c $b (fun _ => by host_keeps Gen.hostOps2) (fun _ => by host_keeps Gen.hostOps2_1) (fun _ => by host_keeps Gen.hostOps2_2)
      (fun _ => by host_keeps Gen.hostOps2_3) (fun _ => by host_keeps Gen.hostOps2_4) (Gen.W13_of_ne m ρ c $b (by decide)))

private theorem keeps_res : Gen.W12 m ρ c main_v1 = Gen.W7 m ρ c main_v1 :=
  (keeps_of m ρ c main_v1 (fun _ => by host_keeps Gen.hostOps2) (fun _ => by host_keeps Gen.hostOps2_1) (fun _ => by host_keeps Gen.hostOps2_2)
    (fun _ => by host_keeps Gen.hostOps2_3) (fun _ => by host_keeps Gen.hostOps2_4)
    ((Gen.W13_arr m ρ c 1).trans (((Gen.dat2 (Gen.V12 m ρ) c).arrAt_in 1 rfl _).trans (Gen.A_eq2 (Gen.V12 m ρ) c 1)))).2.1

private theorem keeps_agg : Gen.W12 m ρ c main_v55 = Gen.W9 m ρ c main_v55 :=
  have eC : Gen.W10 m ρ c main_v55 = Gen.W9 m ρ c main_v55 := by host_keeps Gen.hostOps2_2
  have eD : Gen.W11 m ρ c main_v55 = Gen.W10 m ρ c main_v55 := by host_keeps Gen.hostOps2_3
  have eE : Gen.W12 m ρ c main_v55 = Gen.W11 m ρ c main_v55 := by host_keeps Gen.hostOps2_4
  eE.trans (eD.trans eC)

set_option maxHeartbeats 2000000 in
theorem stage2 :
    (Gen.W13 m ρ c main_v68 =
        Cert.Spec.bnres (F := Ideal) (Cert.Spec.sliceg0 (Gen.W7 m ρ c main_arg6)) (Cert.Spec.slicebeta0 (Gen.W7 m ρ c main_arg7))
          (Cert.Spec.agg (Gen.W7 m ρ c main_v37) (Cert.Spec.sliceb0 (Gen.W7 m ρ c main_arg5)) (Gen.W7 m ρ c main_v5) (Gen.W7 m ρ c main_v8) (Gen.W7 m ρ c main_v34))
          (Cert.Spec.mean (Cert.Spec.agg (Gen.W7 m ρ c main_v37) (Cert.Spec.sliceb0 (Gen.W7 m ρ c main_arg5)) (Gen.W7 m ρ c main_v5) (Gen.W7 m ρ c main_v8) (Gen.W7 m ρ c main_v34)))
          (Cert.Spec.var (Cert.Spec.agg (Gen.W7 m ρ c main_v37) (Cert.Spec.sliceb0 (Gen.W7 m ρ c main_arg5)) (Gen.W7 m ρ c main_v5) (Gen.W7 m ρ c main_v8) (Gen.W7 m ρ c main_v34)))
          (Gen.W7 m ρ c main_v1))
      ∧ (Gen.W13 m ρ c main_v5 = Gen.W7 m ρ c main_v5)
      ∧ (Gen.W13 m ρ c main_v8 = Gen.W7 m ρ c main_v8)
      ∧ (Gen.W13 m ρ c main_v34 = Gen.W7 m ρ c main_v34)
      ∧ (Gen.W13 m ρ c main_arg2 = Gen.W7 m ρ c main_arg2)
      ∧ (Gen.W13 m ρ c main_arg4 = Gen.W7 m ρ c main_arg4)
      ∧ (Gen.W13 m ρ c main_arg5 = Gen.W7 m ρ c main_arg5)
      ∧ (Gen.W13 m ρ c main_arg6 = Gen.W7 m ρ c main_arg6)
      ∧ (Gen.W13 m ρ c main_arg7 = Gen.W7 m ρ c main_arg7)
      ∧ (Gen.W13 m ρ c main_arg8 = Gen.W7 m ρ c main_arg8)
      ∧ (Gen.W13 m ρ c main_arg9 = Gen.W7 m ρ c main_arg9) := by
  have kSrc := layer_keeps main_v5
  have kDst := layer_keeps main_v8
  have kNrm := layer_keeps main_v34
  have kBat := layer_keeps main_arg2
  have kW := layer_keeps main_arg4
  have kBias := layer_keeps main_arg5
  have kScale := layer_keeps main_arg6
  have kShift := layer_keeps main_arg7
  have kLw := layer_keeps main_arg8
  have kLb := layer_keeps main_arg9
  refine ⟨?_, kSrc.2.2, kDst.2.2, kNrm.2.2, kBat.2.2, kW.2.2, kBias.2.2, kScale.2.2, kShift.2.2, kLw.2.2, kLb.2.2⟩
  have eAgg : Gen.W9 m ρ c main_v55 = Cert.Spec.agg (F := Ideal) (Gen.W7 m ρ c main_v37) (Cert.Spec.sliceb0 (Gen.W7 m ρ c main_arg5))
      (Gen.W7 m ρ c main_v5) (Gen.W7 m ρ c main_v8) (Gen.W7 m ρ c main_v34) := hostAgg _
  have eMean : Gen.W10 m ρ c main_v58 = Cert.Spec.mean (F := Ideal) (Gen.W9 m ρ c main_v55) := hostMean _
  have eVar : Gen.W11 m ρ c main_v59 = Cert.Spec.var (F := Ideal) (Gen.W9 m ρ c main_v55) := hostVar _
  have kMean : Gen.W11 m ρ c main_v58 = Gen.W10 m ρ c main_v58 := by host_keeps Gen.hostOps2_3
  refine (Gen.W13_arr m ρ c 6).trans ((region2 (Gen.V12 m ρ) c _ _ _ _ (hostRowScale (Gen.W11 m ρ c)) (hostRowShift (Gen.W11 m ρ c))
    (hostRowMean (Gen.W11 m ρ c)) (hostRowVar (Gen.W11 m ρ c))).trans ?_)
  show Cert.Spec.bnres (F := Ideal) _ _ (Gen.W12 m ρ c main_v55) _ _ (Gen.W12 m ρ c main_v1) = _
  rw [keeps_agg m ρ c, keeps_res m ρ c, kMean, eMean, eVar, eAgg, kScale.1, kShift.1]

end Cert.KVal

end
-- ==== Proof.KFoldL1.lean ====
import proofs.«424614_j7395933684274_1_alg».proof.Proof.KDefs
import proofs.«424614_j7395933684274_1_alg».proof.Proof.KMm
import proofs.«424614_j7395933684274_1_alg».proof.Proof.KBn

noncomputable section

namespace Cert.KVal

open Idealize.ShloMosaic Idealize.ShloMosaic.TcCoe Idealize.SL.Sem
open Cert.KernelIdeal Cert.KernelIdeal.Facts₀ Cert.KernelIdeal.Facts

section Host

variable {F : FTy → Type} [FloatOps F] (V : Valuation τ sig (Elt F))

private theorem hostWeight :
    StableHlo.after Gen.hostOps3 V main_v70 = Cert.Spec.sliceW1 (F := F) (V main_arg4) := by
  simp only [Gen.hostOps3]
  after_results_simp
  rfl

set_option maxHeartbeats 2000000 in
private theorem hostAgg :
    StableHlo.after Gen.hostOps4_1 (StableHlo.after Gen.hostOps4 V) main_v89
      = Cert.Spec.agg (F := F) (V main_v71) (Cert.Spec.sliceb1 (V main_arg5))
          (V main_v5) (V main_v8) (V main_v34) := by
  simp only [Gen.hostOps4_1, Gen.hostOps4]
  after_results_simp
  rfl

set_option maxHeartbeats 2000000 in
private theorem hostMean :
    StableHlo.after Gen.hostOps4_3 (StableHlo.after Gen.hostOps4_2 V) main_v92
      = Cert.Spec.mean (F := F) (V main_v89) := by
  simp only [Gen.hostOps4_3, Gen.hostOps4_2]
  after_results_simp
  rfl

set_option maxHeartbeats 2000000 in
private theorem hostVar :
    StableHlo.after Gen.hostOps4_3 (StableHlo.after Gen.hostOps4_2 V) main_v93
      = Cert.Spec.var (F := F) (V main_v89) := by
  simp only [Gen.hostOps4_3, Gen.hostOps4_2]
  after_results_simp
  rfl

private theorem hostRowScale :
    StableHlo.after Gen.hostOps4_4 V main_v96
      = shapeCast S1x128 (Cert.Spec.sliceg1 (F := F) (V main_arg6)) shapeCasts_S128_S1x128 := by
  simp only [Gen.hostOps4_4]
  after_results_simp
  rfl

private theorem hostRowShift :
    StableHlo.after Gen.hostOps4_4 V main_v99
      = shapeCast S1x128 (Cert.Spec.slicebeta1 (F := F) (V main_arg7)) shapeCasts_S128_S1x128 := by
  simp only [Gen.hostOps4_4]
  after_results_simp
  rfl

private theorem hostRowMean :
    StableHlo.after Gen.hostOps4_4 V main_v100
      = shapeCast S1x128 (V main_v92 : FVec F S128 .f32) shapeCasts_S128_S1x128 := by
  simp only [Gen.hostOps4_4]
  after_results_simp
  rfl

private theorem hostRowVar :
    StableHlo.after Gen.hostOps4_4 V main_v101
      = shapeCast S1x128 (V main_v93 : FVec F S128 .f32) shapeCasts_S128_S1x128 := by
  simp only [Gen.hostOps4_4]
  after_results_simp
  rfl

end Host

variable (m : (ℓ : Loc nD τ sig) → Buf (Elt Ideal) ℓ) (ρ : Dev nD → PrngReg) (c : Dev nD)

private theorem keeps_of (b : Ref sig .tc)
    (hS : ∀ V : Valuation τ sig (Elt Ideal), StableHlo.after Gen.hostOps3 V (Proc.devRef .tc b) = V (Proc.devRef .tc b))
    (hP : Gen.W15 m ρ c (Proc.devRef .tc b) = Gen.W14 m ρ c (Proc.devRef .tc b))
    (hA : ∀ V : Valuation τ sig (Elt Ideal), StableHlo.after Gen.hostOps4 V (Proc.devRef .tc b) = V (Proc.devRef .tc b))
    (hB : ∀ V : Valuation τ sig (Elt Ideal), StableHlo.after Gen.hostOps4_1 V (Proc.devRef .tc b) = V (Proc.devRef .tc b))
    (hC : ∀ V : Valuation τ sig (Elt Ideal), StableHlo.after Gen.hostOps4_2 V (Proc.devRef .tc b) = V (Proc.devRef .tc b))
    (hD : ∀ V : Valuation τ sig (Elt Ideal), StableHlo.after Gen.hostOps4_3 V (Proc.devRef .tc b) = V (Proc.devRef .tc b))
    (hE : ∀ V : Valuation τ sig (Elt Ideal), StableHlo.after Gen.hostOps4_4 V (Proc.devRef .tc b) = V (Proc.devRef .tc b))
    (hQ : Gen.W21 m ρ c (Proc.devRef .tc b) = Gen.W20 m ρ c (Proc.devRef .tc b)) :
    (Gen.W14 m ρ c (Proc.devRef .tc b) = Gen.W13 m ρ c (Proc.devRef .tc b))
      ∧ (Gen.W15 m ρ c (Proc.devRef .tc b) = Gen.W13 m ρ c (Proc.devRef .tc b))
      ∧ (Gen.W17 m ρ c (Proc.devRef .tc b) = Gen.W13 m ρ c (Proc.devRef .tc b))
      ∧ (Gen.W19 m ρ c (Proc.devRef .tc b) = Gen.W13 m ρ c (Proc.devRef .tc b))
      ∧ (Gen.W20 m ρ c (Proc.devRef .tc b) = Gen.W13 m ρ c (Proc.devRef .tc b))
      ∧ (Gen.W21 m ρ c (Proc.devRef .tc b) = Gen.W13 m ρ c (Proc.devRef .tc b)) := by
  have eS : Gen.W14 m ρ c (Proc.devRef .tc b) = Gen.W13 m ρ c (Proc.devRef .tc b) := hS _
  have eP := hP.trans eS
  have eA : Gen.W16 m ρ c (Proc.devRef .tc b) = Gen.W13 m ρ c (Proc.devRef .tc b) := (hA _).trans eP
  have eB : Gen.W17 m ρ c (Proc.devRef .tc b) = Gen.W13 m ρ c (Proc.devRef .tc b) := (hB _).trans eA
  have eC : Gen.W18 m ρ c (Proc.devRef .tc b) = Gen.W13 m ρ c (Proc.devRef .tc b) := (hC _).trans eB
  have eD : Gen.W19 m ρ c (Proc.devRef .tc b) = Gen.W13 m ρ c (Proc.devRef .tc b) := (hD _).trans eC
  have eE : Gen.W20 m ρ c (Proc.devRef .tc b) = Gen.W13 m ρ c (Proc.devRef .tc b) := (hE _).trans eD
  exact ⟨eS, eP, eB, eD, eE, hQ.trans eE⟩

set_option hygiene false in
local macro "layer_keeps " b:ident : term =>
  `(keeps_of m ρ c $b (fun _ => by host_keeps Gen.hostOps3) (Gen.W15_of_ne m ρ c $b (by decide))
      (fun _ => by host_keeps Gen.hostOps4) (fun _ => by host_keeps Gen.hostOps4_1) (fun _ => by host_keeps Gen.hostOps4_2)
      (fun _ => by host_keeps Gen.hostOps4_3) (fun _ => by host_keeps Gen.hostOps4_4)
      (Gen.W21_of_ne m ρ c $b (by decide)))

private theorem keeps_feat :
    (Gen.W14 m ρ c main_v68 = Gen.W13 m ρ c main_v68)
      ∧ (Gen.W20 m ρ c main_v68 = Gen.W13 m ρ c main_v68) :=
  have h := keeps_of m ρ c main_v68 (fun _ => by host_keeps Gen.hostOps3)
    ((Gen.W15_arr m ρ c 0).trans (((Gen.dat3 (Gen.V14 m ρ) c).arrAt_in 0 rfl _).trans (Gen.A_eq3 (Gen.V14 m ρ) c 0)))
    (fun _ => by host_keeps Gen.hostOps4) (fun _ => by host_keeps Gen.hostOps4_1) (fun _ => by host_keeps Gen.hostOps4_2)
    (fun _ => by host_keeps Gen.hostOps4_3) (fun _ => by host_keeps Gen.hostOps4_4)
    ((Gen.W21_arr m ρ c 1).trans (((Gen.dat4 (Gen.V20 m ρ) c).arrAt_in 1 rfl _).trans (Gen.A_eq4 (Gen.V20 m ρ) c 1)))
  ⟨h.1, h.2.2.2.2.1⟩

private theorem keeps_agg :
    Gen.W20 m ρ c main_v89 = Gen.W17 m ρ c main_v89 :=
  have eC : Gen.W18 m ρ c main_v89 = Gen.W17 m ρ c main_v89 := by
    host_keeps Gen.hostOps4_2
  have eD : Gen.W19 m ρ c main_v89 = Gen.W18 m ρ c main_v89 := by
    host_keeps Gen.hostOps4_3
  have eE : Gen.W20 m ρ c main_v89 = Gen.W19 m ρ c main_v89 := by
    host_keeps Gen.hostOps4_4
  eE.trans (eD.trans eC)

set_option maxHeartbeats 2000000 in
theorem stageL1 :
    (Gen.W21 m ρ c main_v102 =
        Cert.Spec.layer (F := Ideal) (Cert.Spec.sliceW1 (Gen.W13 m ρ c main_arg4)) (Cert.Spec.sliceb1 (Gen.W13 m ρ c main_arg5)) (Cert.Spec.sliceg1 (Gen.W13 m ρ c main_arg6))
          (Cert.Spec.slicebeta1 (Gen.W13 m ρ c main_arg7)) (Gen.W13 m ρ c main_v5) (Gen.W13 m ρ c main_v8) (Gen.W13 m ρ c main_v34) (Gen.W13 m ρ c main_v68))
      ∧ (Gen.W21 m ρ c main_v5 = Gen.W13 m ρ c main_v5)
      ∧ (Gen.W21 m ρ c main_v8 = Gen.W13 m ρ c main_v8)
      ∧ (Gen.W21 m ρ c main_v34 = Gen.W13 m ρ c main_v34)
      ∧ (Gen.W21 m ρ c main_arg2 = Gen.W13 m ρ c main_arg2)
      ∧ (Gen.W21 m ρ c main_arg4 = Gen.W13 m ρ c main_arg4)
      ∧ (Gen.W21 m ρ c main_arg5 = Gen.W13 m ρ c main_arg5)
      ∧ (Gen.W21 m ρ c main_arg6 = Gen.W13 m ρ c main_arg6)
      ∧ (Gen.W21 m ρ c main_arg7 = Gen.W13 m ρ c main_arg7)
      ∧ (Gen.W21 m ρ c main_arg8 = Gen.W13 m ρ c main_arg8)
      ∧ (Gen.W21 m ρ c main_arg9 = Gen.W13 m ρ c main_arg9) := by
  have kSrc := layer_keeps main_v5
  have kDst := layer_keeps main_v8
  have kNrm := layer_keeps main_v34
  have kBat := layer_keeps main_arg2
  have kW := layer_keeps main_arg4
  have kBias := layer_keeps main_arg5
  have kScale := layer_keeps main_arg6
  have kShift := layer_keeps main_arg7
  have kLw := layer_keeps main_arg8
  have kLb := layer_keeps main_arg9
  have kFeat := keeps_feat m ρ c
  refine ⟨?_, kSrc.2.2.2.2.2, kDst.2.2.2.2.2, kNrm.2.2.2.2.2, kBat.2.2.2.2.2, kW.2.2.2.2.2, kBias.2.2.2.2.2, kScale.2.2.2.2.2,
    kShift.2.2.2.2.2, kLw.2.2.2.2.2, kLb.2.2.2.2.2⟩
  have eW : Gen.W14 m ρ c main_v70 = Cert.Spec.sliceW1 (F := Ideal) (Gen.W13 m ρ c main_arg4) := hostWeight _
  have eMm : Gen.W15 m ρ c main_v71 = Cert.Spec.mm (F := Ideal) (Gen.W14 m ρ c main_v68) (Gen.W14 m ρ c main_v70) :=
    (Gen.W15_arr m ρ c 2).trans (region3 (Gen.V14 m ρ) c)
  have eAgg : Gen.W17 m ρ c main_v89 = Cert.Spec.agg (F := Ideal) (Gen.W15 m ρ c main_v71) (Cert.Spec.sliceb1 (Gen.W15 m ρ c main_arg5))
      (Gen.W15 m ρ c main_v5) (Gen.W15 m ρ c main_v8) (Gen.W15 m ρ c main_v34) := hostAgg _
  have eMean : Gen.W19 m ρ c main_v92 = Cert.Spec.mean (F := Ideal) (Gen.W17 m ρ c main_v89) := hostMean _
  have eVar : Gen.W19 m ρ c main_v93 = Cert.Spec.var (F := Ideal) (Gen.W17 m ρ c main_v89) := hostVar _
  refine (Gen.W21_arr m ρ c 6).trans ((region4 (Gen.V20 m ρ) c _ _ _ _ (hostRowScale (Gen.W19 m ρ c)) (hostRowShift (Gen.W19 m ρ c))
    (hostRowMean (Gen.W19 m ρ c)) (hostRowVar (Gen.W19 m ρ c))).trans ?_)
  show Cert.Spec.bnres (F := Ideal) _ _ (Gen.W20 m ρ c main_v89) _ _ (Gen.W20 m ρ c main_v68) = _
  rw [keeps_agg m ρ c, kFeat.2, eMean, eVar, eAgg, eMm, kFeat.1, eW, kScale.2.2.2.1, kShift.2.2.2.1, kBias.2.1, kSrc.2.1, kDst.2.1, kNrm.2.1]
  rfl

end Cert.KVal

end
-- ==== Proof.KFoldL2.lean ====
import proofs.«424614_j7395933684274_1_alg».proof.Proof.KDefs
import proofs.«424614_j7395933684274_1_alg».proof.Proof.KMm
import proofs.«424614_j7395933684274_1_alg».proof.Proof.KBn

noncomputable section

namespace Cert.KVal

open Idealize.ShloMosaic Idealize.ShloMosaic.TcCoe Idealize.SL.Sem
open Cert.KernelIdeal Cert.KernelIdeal.Facts₀ Cert.KernelIdeal.Facts

section Host

variable {F : FTy → Type} [FloatOps F] (V : Valuation τ sig (Elt F))

private theorem hostWeight :
    StableHlo.after Gen.hostOps5 V main_v104 = Cert.Spec.sliceW2 (F := F) (V main_arg4) := by
  simp only [Gen.hostOps5]
  after_results_simp
  rfl

set_option maxHeartbeats 2000000 in
private theorem hostAgg :
    StableHlo.after Gen.hostOps6_1 (StableHlo.after Gen.hostOps6 V) main_v123
      = Cert.Spec.agg (F := F) (V main_v105) (Cert.Spec.sliceb2 (V main_arg5))
          (V main_v5) (V main_v8) (V main_v34) := by
  simp only [Gen.hostOps6_1, Gen.hostOps6]
  after_results_simp
  rfl

set_option maxHeartbeats 2000000 in
private theorem hostMean :
    StableHlo.after Gen.hostOps6_3 (StableHlo.after Gen.hostOps6_2 V) main_v126
      = Cert.Spec.mean (F := F) (V main_v123) := by
  simp only [Gen.hostOps6_3, Gen.hostOps6_2]
  after_results_simp
  rfl

set_option maxHeartbeats 2000000 in
private theorem hostVar :
    StableHlo.after Gen.hostOps6_3 (StableHlo.after Gen.hostOps6_2 V) main_v127
      = Cert.Spec.var (F := F) (V main_v123) := by
  simp only [Gen.hostOps6_3, Gen.hostOps6_2]
  after_results_simp
  rfl

private theorem hostRowScale :
    StableHlo.after Gen.hostOps6_4 V main_v130
      = shapeCast S1x128 (Cert.Spec.sliceg2 (F := F) (V main_arg6)) shapeCasts_S128_S1x128 := by
  simp only [Gen.hostOps6_4]
  after_results_simp
  rfl

private theorem hostRowShift :
    StableHlo.after Gen.hostOps6_4 V main_v133
      = shapeCast S1x128 (Cert.Spec.slicebeta2 (F := F) (V main_arg7)) shapeCasts_S128_S1x128 := by
  simp only [Gen.hostOps6_4]
  after_results_simp
  rfl

private theorem hostRowMean :
    StableHlo.after Gen.hostOps6_4 V main_v134
      = shapeCast S1x128 (V main_v126 : FVec F S128 .f32) shapeCasts_S128_S1x128 := by
  simp only [Gen.hostOps6_4]
  after_results_simp
  rfl

private theorem hostRowVar :
    StableHlo.after Gen.hostOps6_4 V main_v135
      = shapeCast S1x128 (V main_v127 : FVec F S128 .f32) shapeCasts_S128_S1x128 := by
  simp only [Gen.hostOps6_4]
  after_results_simp
  rfl

end Host

variable (m : (ℓ : Loc nD τ sig) → Buf (Elt Ideal) ℓ) (ρ : Dev nD → PrngReg) (c : Dev nD)

private theorem keeps_of (b : Ref sig .tc)
    (hS : ∀ V : Valuation τ sig (Elt Ideal), StableHlo.after Gen.hostOps5 V (Proc.devRef .tc b) = V (Proc.devRef .tc b))
    (hP : Gen.W23 m ρ c (Proc.devRef .tc b) = Gen.W22 m ρ c (Proc.devRef .tc b))
    (hA : ∀ V : Valuation τ sig (Elt Ideal), StableHlo.after Gen.hostOps6 V (Proc.devRef .tc b) = V (Proc.devRef .tc b))
    (hB : ∀ V : Valuation τ sig (Elt Ideal), StableHlo.after Gen.hostOps6_1 V (Proc.devRef .tc b) = V (Proc.devRef .tc b))
    (hC : ∀ V : Valuation τ sig (Elt Ideal), StableHlo.after Gen.hostOps6_2 V (Proc.devRef .tc b) = V (Proc.devRef .tc b))
    (hD : ∀ V : Valuation τ sig (Elt Ideal), StableHlo.after Gen.hostOps6_3 V (Proc.devRef .tc b) = V (Proc.devRef .tc b))
    (hE : ∀ V : Valuation τ sig (Elt Ideal), StableHlo.after Gen.hostOps6_4 V (Proc.devRef .tc b) = V (Proc.devRef .tc b))
    (hQ : Gen.W29 m ρ c (Proc.devRef .tc b) = Gen.W28 m ρ c (Proc.devRef .tc b)) :
    (Gen.W22 m ρ c (Proc.devRef .tc b) = Gen.W21 m ρ c (Proc.devRef .tc b))
      ∧ (Gen.W23 m ρ c (Proc.devRef .tc b) = Gen.W21 m ρ c (Proc.devRef .tc b))
      ∧ (Gen.W25 m ρ c (Proc.devRef .tc b) = Gen.W21 m ρ c (Proc.devRef .tc b))
      ∧ (Gen.W27 m ρ c (Proc.devRef .tc b) = Gen.W21 m ρ c (Proc.devRef .tc b))
      ∧ (Gen.W28 m ρ c (Proc.devRef .tc b) = Gen.W21 m ρ c (Proc.devRef .tc b))
      ∧ (Gen.W29 m ρ c (Proc.devRef .tc b) = Gen.W21 m ρ c (Proc.devRef .tc b)) := by
  have eS : Gen.W22 m ρ c (Proc.devRef .tc b) = Gen.W21 m ρ c (Proc.devRef .tc b) := hS _
  have eP := hP.trans eS
  have eA : Gen.W24 m ρ c (Proc.devRef .tc b) = Gen.W21 m ρ c (Proc.devRef .tc b) := (hA _).trans eP
  have eB : Gen.W25 m ρ c (Proc.devRef .tc b) = Gen.W21 m ρ c (Proc.devRef .tc b) := (hB _).trans eA
  have eC : Gen.W26 m ρ c (Proc.devRef .tc b) = Gen.W21 m ρ c (Proc.devRef .tc b) := (hC _).trans eB
  have eD : Gen.W27 m ρ c (Proc.devRef .tc b) = Gen.W21 m ρ c (Proc.devRef .tc b) := (hD _).trans eC
  have eE : Gen.W28 m ρ c (Proc.devRef .tc b) = Gen.W21 m ρ c (Proc.devRef .tc b) := (hE _).trans eD
  exact ⟨eS, eP, eB, eD, eE, hQ.trans eE⟩

set_option hygiene false in
local macro "layer_keeps " b:ident : term =>
  `(keeps_of m ρ c $b (fun _ => by host_keeps Gen.hostOps5) (Gen.W23_of_ne m ρ c $b (by decide))
      (fun _ => by host_keeps Gen.hostOps6) (fun _ => by host_keeps Gen.hostOps6_1) (fun _ => by host_keeps Gen.hostOps6_2)
      (fun _ => by host_keeps Gen.hostOps6_3) (fun _ => by host_keeps Gen.hostOps6_4)
      (Gen.W29_of_ne m ρ c $b (by decide)))

private theorem keeps_feat :
    (Gen.W22 m ρ c main_v102 = Gen.W21 m ρ c main_v102)
      ∧ (Gen.W28 m ρ c main_v102 = Gen.W21 m ρ c main_v102) :=
  have h := keeps_of m ρ c main_v102 (fun _ => by host_keeps Gen.hostOps5)
    ((Gen.W23_arr m ρ c 0).trans (((Gen.dat5 (Gen.V22 m ρ) c).arrAt_in 0 rfl _).trans (Gen.A_eq5 (Gen.V22 m ρ) c 0)))
    (fun _ => by host_keeps Gen.hostOps6) (fun _ => by host_keeps Gen.hostOps6_1) (fun _ => by host_keeps Gen.hostOps6_2)
    (fun _ => by host_keeps Gen.hostOps6_3) (fun _ => by host_keeps Gen.hostOps6_4)
    ((Gen.W29_arr m ρ c 1).trans (((Gen.dat6 (Gen.V28 m ρ) c).arrAt_in 1 rfl _).trans (Gen.A_eq6 (Gen.V28 m ρ) c 1)))
  ⟨h.1, h.2.2.2.2.1⟩

private theorem keeps_agg :
    Gen.W28 m ρ c main_v123 = Gen.W25 m ρ c main_v123 :=
  have eC : Gen.W26 m ρ c main_v123 = Gen.W25 m ρ c main_v123 := by
    host_keeps Gen.hostOps6_2
  have eD : Gen.W27 m ρ c main_v123 = Gen.W26 m ρ c main_v123 := by
    host_keeps Gen.hostOps6_3
  have eE : Gen.W28 m ρ c main_v123 = Gen.W27 m ρ c main_v123 := by
    host_keeps Gen.hostOps6_4
  eE.trans (eD.trans eC)

set_option maxHeartbeats 2000000 in
theorem stageL2 :
    (Gen.W29 m ρ c main_v136 =
        Cert.Spec.layer (F := Ideal) (Cert.Spec.sliceW2 (Gen.W21 m ρ c main_arg4)) (Cert.Spec.sliceb2 (Gen.W21 m ρ c main_arg5)) (Cert.Spec.sliceg2 (Gen.W21 m ρ c main_arg6))
          (Cert.Spec.slicebeta2 (Gen.W21 m ρ c main_arg7)) (Gen.W21 m ρ c main_v5) (Gen.W21 m ρ c main_v8) (Gen.W21 m ρ c main_v34) (Gen.W21 m ρ c main_v102))
      ∧ (Gen.W29 m ρ c main_v5 = Gen.W21 m ρ c main_v5)
      ∧ (Gen.W29 m ρ c main_v8 = Gen.W21 m ρ c main_v8)
      ∧ (Gen.W29 m ρ c main_v34 = Gen.W21 m ρ c main_v34)
      ∧ (Gen.W29 m ρ c main_arg2 = Gen.W21 m ρ c main_arg2)
      ∧ (Gen.W29 m ρ c main_arg4 = Gen.W21 m ρ c main_arg4)
      ∧ (Gen.W29 m ρ c main_arg5 = Gen.W21 m ρ c main_arg5)
      ∧ (Gen.W29 m ρ c main_arg6 = Gen.W21 m ρ c main_arg6)
      ∧ (Gen.W29 m ρ c main_arg7 = Gen.W21 m ρ c main_arg7)
      ∧ (Gen.W29 m ρ c main_arg8 = Gen.W21 m ρ c main_arg8)
      ∧ (Gen.W29 m ρ c main_arg9 = Gen.W21 m ρ c main_arg9) := by
  have kSrc := layer_keeps main_v5
  have kDst := layer_keeps main_v8
  have kNrm := layer_keeps main_v34
  have kBat := layer_keeps main_arg2
  have kW := layer_keeps main_arg4
  have kBias := layer_keeps main_arg5
  have kScale := layer_keeps main_arg6
  have kShift := layer_keeps main_arg7
  have kLw := layer_keeps main_arg8
  have kLb := layer_keeps main_arg9
  have kFeat := keeps_feat m ρ c
  refine ⟨?_, kSrc.2.2.2.2.2, kDst.2.2.2.2.2, kNrm.2.2.2.2.2, kBat.2.2.2.2.2, kW.2.2.2.2.2, kBias.2.2.2.2.2, kScale.2.2.2.2.2,
    kShift.2.2.2.2.2, kLw.2.2.2.2.2, kLb.2.2.2.2.2⟩
  have eW : Gen.W22 m ρ c main_v104 = Cert.Spec.sliceW2 (F := Ideal) (Gen.W21 m ρ c main_arg4) := hostWeight _
  have eMm : Gen.W23 m ρ c main_v105 = Cert.Spec.mm (F := Ideal) (Gen.W22 m ρ c main_v102) (Gen.W22 m ρ c main_v104) :=
    (Gen.W23_arr m ρ c 2).trans (region5 (Gen.V22 m ρ) c)
  have eAgg : Gen.W25 m ρ c main_v123 = Cert.Spec.agg (F := Ideal) (Gen.W23 m ρ c main_v105) (Cert.Spec.sliceb2 (Gen.W23 m ρ c main_arg5))
      (Gen.W23 m ρ c main_v5) (Gen.W23 m ρ c main_v8) (Gen.W23 m ρ c main_v34) := hostAgg _
  have eMean : Gen.W27 m ρ c main_v126 = Cert.Spec.mean (F := Ideal) (Gen.W25 m ρ c main_v123) := hostMean _
  have eVar : Gen.W27 m ρ c main_v127 = Cert.Spec.var (F := Ideal) (Gen.W25 m ρ c main_v123) := hostVar _
  refine (Gen.W29_arr m ρ c 6).trans ((region6 (Gen.V28 m ρ) c _ _ _ _ (hostRowScale (Gen.W27 m ρ c)) (hostRowShift (Gen.W27 m ρ c))
    (hostRowMean (Gen.W27 m ρ c)) (hostRowVar (Gen.W27 m ρ c))).trans ?_)
  show Cert.Spec.bnres (F := Ideal) _ _ (Gen.W28 m ρ c main_v123) _ _ (Gen.W28 m ρ c main_v102) = _
  rw [keeps_agg m ρ c, kFeat.2, eMean, eVar, eAgg, eMm, kFeat.1, eW, kScale.2.2.2.1, kShift.2.2.2.1, kBias.2.1, kSrc.2.1, kDst.2.1, kNrm.2.1]
  rfl

end Cert.KVal

end
-- ==== Proof.KFoldL3.lean ====
import proofs.«424614_j7395933684274_1_alg».proof.Proof.KDefs
import proofs.«424614_j7395933684274_1_alg».proof.Proof.KMm
import proofs.«424614_j7395933684274_1_alg».proof.Proof.KBn

noncomputable section

namespace Cert.KVal

open Idealize.ShloMosaic Idealize.ShloMosaic.TcCoe Idealize.SL.Sem
open Cert.KernelIdeal Cert.KernelIdeal.Facts₀ Cert.KernelIdeal.Facts

section Host

variable {F : FTy → Type} [FloatOps F] (V : Valuation τ sig (Elt F))

private theorem hostWeight :
    StableHlo.after Gen.hostOps7 V main_v138 = Cert.Spec.sliceW3 (F := F) (V main_arg4) := by
  simp only [Gen.hostOps7]
  after_results_simp
  rfl

set_option maxHeartbeats 2000000 in
private theorem hostAgg :
    StableHlo.after Gen.hostOps8_1 (StableHlo.after Gen.hostOps8 V) main_v157
      = Cert.Spec.agg (F := F) (V main_v139) (Cert.Spec.sliceb3 (V main_arg5))
          (V main_v5) (V main_v8) (V main_v34) := by
  simp only [Gen.hostOps8_1, Gen.hostOps8]
  after_results_simp
  rfl

set_option maxHeartbeats 2000000 in
private theorem hostMean :
    StableHlo.after Gen.hostOps8_3 (StableHlo.after Gen.hostOps8_2 V) main_v160
      = Cert.Spec.mean (F := F) (V main_v157) := by
  simp only [Gen.hostOps8_3, Gen.hostOps8_2]
  after_results_simp
  rfl

set_option maxHeartbeats 2000000 in
private theorem hostVar :
    StableHlo.after Gen.hostOps8_3 (StableHlo.after Gen.hostOps8_2 V) main_v161
      = Cert.Spec.var (F := F) (V main_v157) := by
  simp only [Gen.hostOps8_3, Gen.hostOps8_2]
  after_results_simp
  rfl

private theorem hostRowScale :
    StableHlo.after Gen.hostOps8_4 V main_v164
      = shapeCast S1x128 (Cert.Spec.sliceg3 (F := F) (V main_arg6)) shapeCasts_S128_S1x128 := by
  simp only [Gen.hostOps8_4]
  after_results_simp
  rfl

private theorem hostRowShift :
    StableHlo.after Gen.hostOps8_4 V main_v167
      = shapeCast S1x128 (Cert.Spec.slicebeta3 (F := F) (V main_arg7)) shapeCasts_S128_S1x128 := by
  simp only [Gen.hostOps8_4]
  after_results_simp
  rfl

private theorem hostRowMean :
    StableHlo.after Gen.hostOps8_4 V main_v168
      = shapeCast S1x128 (V main_v160 : FVec F S128 .f32) shapeCasts_S128_S1x128 := by
  simp only [Gen.hostOps8_4]
  after_results_simp
  rfl

private theorem hostRowVar :
    StableHlo.after Gen.hostOps8_4 V main_v169
      = shapeCast S1x128 (V main_v161 : FVec F S128 .f32) shapeCasts_S128_S1x128 := by
  simp only [Gen.hostOps8_4]
  after_results_simp
  rfl

end Host

variable (m : (ℓ : Loc nD τ sig) → Buf (Elt Ideal) ℓ) (ρ : Dev nD → PrngReg) (c : Dev nD)

private theorem keeps_of (b : Ref sig .tc)
    (hS : ∀ V : Valuation τ sig (Elt Ideal), StableHlo.after Gen.hostOps7 V (Proc.devRef .tc b) = V (Proc.devRef .tc b))
    (hP : Gen.W31 m ρ c (Proc.devRef .tc b) = Gen.W30 m ρ c (Proc.devRef .tc b))
    (hA : ∀ V : Valuation τ sig (Elt Ideal), StableHlo.after Gen.hostOps8 V (Proc.devRef .tc b) = V (Proc.devRef .tc b))
    (hB : ∀ V : Valuation τ sig (Elt Ideal), StableHlo.after Gen.hostOps8_1 V (Proc.devRef .tc b) = V (Proc.devRef .tc b))
    (hC : ∀ V : Valuation τ sig (Elt Ideal), StableHlo.after Gen.hostOps8_2 V (Proc.devRef .tc b) = V (Proc.devRef .tc b))
    (hD : ∀ V : Valuation τ sig (Elt Ideal), StableHlo.after Gen.hostOps8_3 V (Proc.devRef .tc b) = V (Proc.devRef .tc b))
    (hE : ∀ V : Valuation τ sig (Elt Ideal), StableHlo.after Gen.hostOps8_4 V (Proc.devRef .tc b) = V (Proc.devRef .tc b))
    (hQ : Gen.W37 m ρ c (Proc.devRef .tc b) = Gen.W36 m ρ c (Proc.devRef .tc b)) :
    (Gen.W30 m ρ c (Proc.devRef .tc b) = Gen.W29 m ρ c (Proc.devRef .tc b))
      ∧ (Gen.W31 m ρ c (Proc.devRef .tc b) = Gen.W29 m ρ c (Proc.devRef .tc b))
      ∧ (Gen.W33 m ρ c (Proc.devRef .tc b) = Gen.W29 m ρ c (Proc.devRef .tc b))
      ∧ (Gen.W35 m ρ c (Proc.devRef .tc b) = Gen.W29 m ρ c (Proc.devRef .tc b))
      ∧ (Gen.W36 m ρ c (Proc.devRef .tc b) = Gen.W29 m ρ c (Proc.devRef .tc b))
      ∧ (Gen.W37 m ρ c (Proc.devRef .tc b) = Gen.W29 m ρ c (Proc.devRef .tc b)) := by
  have eS : Gen.W30 m ρ c (Proc.devRef .tc b) = Gen.W29 m ρ c (Proc.devRef .tc b) := hS _
  have eP := hP.trans eS
  have eA : Gen.W32 m ρ c (Proc.devRef .tc b) = Gen.W29 m ρ c (Proc.devRef .tc b) := (hA _).trans eP
  have eB : Gen.W33 m ρ c (Proc.devRef .tc b) = Gen.W29 m ρ c (Proc.devRef .tc b) := (hB _).trans eA
  have eC : Gen.W34 m ρ c (Proc.devRef .tc b) = Gen.W29 m ρ c (Proc.devRef .tc b) := (hC _).trans eB
  have eD : Gen.W35 m ρ c (Proc.devRef .tc b) = Gen.W29 m ρ c (Proc.devRef .tc b) := (hD _).trans eC
  have eE : Gen.W36 m ρ c (Proc.devRef .tc b) = Gen.W29 m ρ c (Proc.devRef .tc b) := (hE _).trans eD
  exact ⟨eS, eP, eB, eD, eE, hQ.trans eE⟩

set_option hygiene false in
local macro "layer_keeps " b:ident : term =>
  `(keeps_of m ρ c $b (fun _ => by host_keeps Gen.hostOps7) (Gen.W31_of_ne m ρ c $b (by decide))
      (fun _ => by host_keeps Gen.hostOps8) (fun _ => by host_keeps Gen.hostOps8_1) (fun _ => by host_keeps Gen.hostOps8_2)
      (fun _ => by host_keeps Gen.hostOps8_3) (fun _ => by host_keeps Gen.hostOps8_4)
      (Gen.W37_of_ne m ρ c $b (by decide)))

private theorem keeps_feat :
    (Gen.W30 m ρ c main_v136 = Gen.W29 m ρ c main_v136)
      ∧ (Gen.W36 m ρ c main_v136 = Gen.W29 m ρ c main_v136) :=
  have h := keeps_of m ρ c main_v136 (fun _ => by host_keeps Gen.hostOps7)
    ((Gen.W31_arr m ρ c 0).trans (((Gen.dat7 (Gen.V30 m ρ) c).arrAt_in 0 rfl _).trans (Gen.A_eq7 (Gen.V30 m ρ) c 0)))
    (fun _ => by host_keeps Gen.hostOps8) (fun _ => by host_keeps Gen.hostOps8_1) (fun _ => by host_keeps Gen.hostOps8_2)
    (fun _ => by host_keeps Gen.hostOps8_3) (fun _ => by host_keeps Gen.hostOps8_4)
    ((Gen.W37_arr m ρ c 1).trans (((Gen.dat8 (Gen.V36 m ρ) c).arrAt_in 1 rfl _).trans (Gen.A_eq8 (Gen.V36 m ρ) c 1)))
  ⟨h.1, h.2.2.2.2.1⟩

private theorem keeps_agg :
    Gen.W36 m ρ c main_v157 = Gen.W33 m ρ c main_v157 :=
  have eC : Gen.W34 m ρ c main_v157 = Gen.W33 m ρ c main_v157 := by
    host_keeps Gen.hostOps8_2
  have eD : Gen.W35 m ρ c main_v157 = Gen.W34 m ρ c main_v157 := by
    host_keeps Gen.hostOps8_3
  have eE : Gen.W36 m ρ c main_v157 = Gen.W35 m ρ c main_v157 := by
    host_keeps Gen.hostOps8_4
  eE.trans (eD.trans eC)

set_option maxHeartbeats 2000000 in
theorem stageL3 :
    (Gen.W37 m ρ c main_v170 =
        Cert.Spec.layer (F := Ideal) (Cert.Spec.sliceW3 (Gen.W29 m ρ c main_arg4)) (Cert.Spec.sliceb3 (Gen.W29 m ρ c main_arg5)) (Cert.Spec.sliceg3 (Gen.W29 m ρ c main_arg6))
          (Cert.Spec.slicebeta3 (Gen.W29 m ρ c main_arg7)) (Gen.W29 m ρ c main_v5) (Gen.W29 m ρ c main_v8) (Gen.W29 m ρ c main_v34) (Gen.W29 m ρ c main_v136))
      ∧ (Gen.W37 m ρ c main_v5 = Gen.W29 m ρ c main_v5)
      ∧ (Gen.W37 m ρ c main_v8 = Gen.W29 m ρ c main_v8)
      ∧ (Gen.W37 m ρ c main_v34 = Gen.W29 m ρ c main_v34)
      ∧ (Gen.W37 m ρ c main_arg2 = Gen.W29 m ρ c main_arg2)
      ∧ (Gen.W37 m ρ c main_arg4 = Gen.W29 m ρ c main_arg4)
      ∧ (Gen.W37 m ρ c main_arg5 = Gen.W29 m ρ c main_arg5)
      ∧ (Gen.W37 m ρ c main_arg6 = Gen.W29 m ρ c main_arg6)
      ∧ (Gen.W37 m ρ c main_arg7 = Gen.W29 m ρ c main_arg7)
      ∧ (Gen.W37 m ρ c main_arg8 = Gen.W29 m ρ c main_arg8)
      ∧ (Gen.W37 m ρ c main_arg9 = Gen.W29 m ρ c main_arg9) := by
  have kSrc := layer_keeps main_v5
  have kDst := layer_keeps main_v8
  have kNrm := layer_keeps main_v34
  have kBat := layer_keeps main_arg2
  have kW := layer_keeps main_arg4
  have kBias := layer_keeps main_arg5
  have kScale := layer_keeps main_arg6
  have kShift := layer_keeps main_arg7
  have kLw := layer_keeps main_arg8
  have kLb := layer_keeps main_arg9
  have kFeat := keeps_feat m ρ c
  refine ⟨?_, kSrc.2.2.2.2.2, kDst.2.2.2.2.2, kNrm.2.2.2.2.2, kBat.2.2.2.2.2, kW.2.2.2.2.2, kBias.2.2.2.2.2, kScale.2.2.2.2.2,
    kShift.2.2.2.2.2, kLw.2.2.2.2.2, kLb.2.2.2.2.2⟩
  have eW : Gen.W30 m ρ c main_v138 = Cert.Spec.sliceW3 (F := Ideal) (Gen.W29 m ρ c main_arg4) := hostWeight _
  have eMm : Gen.W31 m ρ c main_v139 = Cert.Spec.mm (F := Ideal) (Gen.W30 m ρ c main_v136) (Gen.W30 m ρ c main_v138) :=
    (Gen.W31_arr m ρ c 2).trans (region7 (Gen.V30 m ρ) c)
  have eAgg : Gen.W33 m ρ c main_v157 = Cert.Spec.agg (F := Ideal) (Gen.W31 m ρ c main_v139) (Cert.Spec.sliceb3 (Gen.W31 m ρ c main_arg5))
      (Gen.W31 m ρ c main_v5) (Gen.W31 m ρ c main_v8) (Gen.W31 m ρ c main_v34) := hostAgg _
  have eMean : Gen.W35 m ρ c main_v160 = Cert.Spec.mean (F := Ideal) (Gen.W33 m ρ c main_v157) := hostMean _
  have eVar : Gen.W35 m ρ c main_v161 = Cert.Spec.var (F := Ideal) (Gen.W33 m ρ c main_v157) := hostVar _
  refine (Gen.W37_arr m ρ c 6).trans ((region8 (Gen.V36 m ρ) c _ _ _ _ (hostRowScale (Gen.W35 m ρ c)) (hostRowShift (Gen.W35 m ρ c))
    (hostRowMean (Gen.W35 m ρ c)) (hostRowVar (Gen.W35 m ρ c))).trans ?_)
  show Cert.Spec.bnres (F := Ideal) _ _ (Gen.W36 m ρ c main_v157) _ _ (Gen.W36 m ρ c main_v136) = _
  rw [keeps_agg m ρ c, kFeat.2, eMean, eVar, eAgg, eMm, kFeat.1, eW, kScale.2.2.2.1, kShift.2.2.2.1, kBias.2.1, kSrc.2.1, kDst.2.1, kNrm.2.1]
  rfl

end Cert.KVal

end
-- ==== Proof.KReg9.lean ====
import proofs.«424614_j7395933684274_1_alg».proof.Proof.KDefs
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal.Laws

noncomputable section

namespace Cert.KVal.Reg9

open Idealize.ShloMosaic Idealize.ShloMosaic.TcCoe Idealize.SL.Sem
open Cert.KernelIdeal Cert.KernelIdeal.Facts₀ Cert.KernelIdeal.Facts
open Idealize.ShloMosaic.ValueIdx

theorem idx_S1_eq (a b : S1.Idx) : a = b := by
  funext d
  match d with
  | ⟨0, _⟩ =>
    have ha : (a 0).val < 1 := (a 0).isLt
    have hb : (b 0).val < 1 := (b 0).isLt
    exact Fin.ext (by show (a 0).val = (b 0).val; omega)

theorem product (p : FVec Ideal S1000x128 .f32) (w : FVec Ideal S128x1 .f32) :
    matmul dot_S1000x128_S128x1_S1000x1_1_0_0_1_n_n none
        (truncf .bf16 (shapeCast S1000x128 p shapeCasts_S1000x128_S1000x128) Gen.bitsLt_bf16_f32)
        (truncf .bf16 w Gen.bitsLt_bf16_f32) (constant (F := Ideal) S1000x1 .f32 0x00000000#32)
      = Host.dotGeneral Cert.ReferenceIdeal.dot_S1000x128_S128x1_S1000x1_1_0_0_1_n_n none p w := by
  rw [shapeCast_self]
  refine (matmul_zero_eq_dotGeneral _ _ _ _).trans ?_
  funext j
  show FloatOps.dotGeneral _ _ _ _ _ j = FloatOps.dotGeneral _ _ _ _ _ j
  rw [Ideal.dotGeneral_apply, Ideal.dotGeneral_apply]
  rfl

theorem bias (lb : FVec Ideal S1 .f32) :
    broadcastTo S1000x1 (shapeCast S1x1 (shapeCast S1x1 lb shapeCasts_S1_S1x1) shapeCasts_S1x1_S1x1) broadcasts_S1x1_S1000x1
      = broadcastInDim Cert.ReferenceIdeal.S1000x1 ![0, 1] Cert.ReferenceIdeal.Facts₀.bcast_S1x1_S1000x1_0_1
          (broadcastInDim Cert.ReferenceIdeal.S1x1 ![1] Cert.ReferenceIdeal.Facts₀.bcast_S1_S1x1_1 lb) := by
  funext j
  rw [shapeCast_self]
  unfold broadcastTo broadcastInDim shapeCast
  exact congrArg lb (idx_S1_eq _ _)

theorem logistic_spelled (z : FVec Ideal S1000x1 .f32) :
    logistic z = Host.divf (broadcastInDim Cert.ReferenceIdeal.S1000x1 ![] Cert.ReferenceIdeal.Facts₀.bcast_S_S1000x1 (constant (F := Ideal) Cert.ReferenceIdeal.S_ .f32 0x3F800000#32))
      (addf (broadcastInDim Cert.ReferenceIdeal.S1000x1 ![] Cert.ReferenceIdeal.Facts₀.bcast_S_S1000x1 (constant (F := Ideal) Cert.ReferenceIdeal.S_ .f32 0x3F800000#32))
        (Host.exp (Host.negf z))) := by
  funext j
  show Ideal.logistic (z j) = Ideal.div (broadcastInDim _ _ _ _ j) (broadcastInDim _ _ _ _ j + Ideal.exp (-(z j)))
  rw [broadcastInDim_scalar_apply, constant_apply, Ideal.ofBits_one_f32]
  rfl

theorem payload (p : FVec Ideal S1000x128 .f32) (w : FVec Ideal S128x1 .f32) (lb : FVec Ideal S1 .f32) :
    Gen.k9_pay1 p w (shapeCast S1x1 lb shapeCasts_S1_S1x1) = Cert.Spec.out p w lb := by
  unfold Gen.k9_pay1 Cert.Spec.out
  dsimp only
  rw [product, bias, ← logistic_spelled]

theorem origin : (![0, 0] : Fin 2 → Nat) = fun _ => 0 := funext fun a => by fin_cases a <;> rfl

theorem blockIndex_zero : ∀ t : Fin cfg9.N, win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0 :=
  (by decide +kernel : ∀ t : Fin grid9.N, _)

theorem pooledBlock (V : KV) (c : Dev nD) (t : Fin cfg9.N) : (Gen.iblk9 V c 0 t : Vec Ideal S1000x128 .f32) = V c main_v182 := by
  obtain ⟨e0, e1, -⟩ := blockIndex_zero t
  funext y
  show V c main_v182 (((cfg9.win 0).blk t).view.emb y) = V c main_v182 y
  refine congrArg (V c main_v182) (funext fun a => Fin.ext ?_)
  match a with
  | ⟨0, _⟩ => show win9_0.index t (0 : Fin 2) * 1000 + 1 * (y 0).val = (y 0).val; omega
  | ⟨1, _⟩ => show win9_0.index t (1 : Fin 2) * 128 + 1 * (y 1).val = (y 1).val; omega

theorem weightBlock (V : KV) (c : Dev nD) (t : Fin cfg9.N) : (Gen.iblk9 V c 1 t : Vec Ideal S128x1 .f32) = V c main_arg8 := by
  obtain ⟨-, -, e0, e1, -⟩ := blockIndex_zero t
  funext y
  show V c main_arg8 (((cfg9.win 1).blk t).view.emb y) = V c main_arg8 y
  refine congrArg (V c main_arg8) (funext fun a => Fin.ext ?_)
  match a with
  | ⟨0, _⟩ => show win9_1.index t (0 : Fin 2) * 128 + 1 * (y 0).val = (y 0).val; omega
  | ⟨1, _⟩ => show win9_1.index t (1 : Fin 2) * 1 + 1 * (y 1).val = (y 1).val; omega

theorem biasBlock (V : KV) (c : Dev nD) (t : Fin cfg9.N) : (Gen.iblk9 V c 2 t : Vec Ideal S1x1 .f32) = V c main_v183 := by
  obtain ⟨-, -, -, -, e0, e1, -⟩ := blockIndex_zero t
  funext y
  show V c main_v183 (((cfg9.win 2).blk t).view.emb y) = V c main_v183 y
  refine congrArg (V c main_v183) (funext fun a => Fin.ext ?_)
  match a with
  | ⟨0, _⟩ => show win9_2.index t (0 : Fin 2) * 1 + 1 * (y 0).val = (y 0).val; omega
  | ⟨1, _⟩ => show win9_2.index t (1 : Fin 2) * 1 + 1 * (y 1).val = (y 1).val; omega

theorem outputBlock (G : FVec Ideal S1000x1 .f32) (t : Fin cfg9.N) :
    (cfg9.win 3).cut (grid9.coords t) G = ((cfg9.win 3).blk t).view.read (Elt Ideal) G := by
  obtain ⟨-, -, -, -, -, -, e0, e1⟩ := blockIndex_zero t
  funext y
  show G y = G (((cfg9.win 3).blk t).view.emb y)
  refine congrArg G (funext fun a => Fin.ext ?_)
  match a with
  | ⟨0, _⟩ => show (y 0).val = win9_3.index t (0 : Fin 2) * 1000 + 1 * (y 0).val; omega
  | ⟨1, _⟩ => show (y 1).val = win9_3.index t (1 : Fin 2) * 1 + 1 * (y 1).val; omega

theorem written (V : KV) (c : Dev nD) (lb : FVec Ideal S1 .f32) (hlb : V c main_v183 = shapeCast S1x1 lb shapeCasts_S1_S1x1) (t : Fin cfg9.N) :
    (Gen.dat9 V c).flushed 3 t = ((cfg9.win 3).blk t).view.read (Elt Ideal) (Cert.Spec.out (V c main_v182) (V c main_arg8) lb) := by
  show (cfg9.win 3).cut (grid9.coords t) ((Gen.dat9 V c).after 3 t) = _
  rw [Gen.after9_3]
  unfold Gen.out9_3
  rw [View.canon_unit_zero origin]
  simp only [View.ld_unit_zero (S := S1000x128) origin, View.ld_unit_zero (S := S128x1) origin, View.ld_unit_zero (S := S1x1) origin]
  rw [pooledBlock V c t, weightBlock V c t, biasBlock V c t, hlb, payload]
  exact outputBlock _ t

theorem covered (i : S1000x1.Idx) : ∃ t : Fin cfg9.N, (cfg9.win 3).flush t = true ∧ i ∈ ((cfg9.win 3).blk t).view.set := by
  refine ⟨Gen.t9_0, Gen.flush9_3 Gen.t9_0, ?_⟩
  obtain ⟨-, -, -, -, -, -, e0, e1⟩ := blockIndex_zero Gen.t9_0
  show i ∈ ((View.whole main_v184).slice (win9_3.rect Gen.t9_0)).set
  rw [View.set_slice_whole, Rect.mem_set_unit]
  intro a
  match a with
  | ⟨0, _⟩ =>
    have h : (i 0).val < 1000 := (i 0).isLt
    show win9_3.index Gen.t9_0 (0 : Fin 2) * 1000 ≤ (i 0).val ∧ (i 0).val < win9_3.index Gen.t9_0 (0 : Fin 2) * 1000 + 1000
    omega
  | ⟨1, _⟩ =>
    have h : (i 1).val < 1 := (i 1).isLt
    show win9_3.index Gen.t9_0 (1 : Fin 2) * 1 ≤ (i 1).val ∧ (i 1).val < win9_3.index Gen.t9_0 (1 : Fin 2) * 1 + 1
    omega

end Cert.KVal.Reg9

namespace Cert.KVal

open Idealize.ShloMosaic Idealize.ShloMosaic.TcCoe Idealize.SL.Sem
open Cert.KernelIdeal Cert.KernelIdeal.Facts₀ Cert.KernelIdeal.Facts

theorem region9 (V : KV) (c : Dev nD) (lb : FVec Ideal S1 .f32) (hlb : V c main_v183 = shapeCast S1x1 lb shapeCasts_S1_S1x1) :
    (Gen.dat9 V c).arrAt 3 cfg9.N = Cert.Spec.out (V c main_v182) (V c main_arg8) lb := by
  have h := (Gen.dat9 V c).arrAt_eq_of_cover 3 (Cert.Spec.out (V c main_v182) (V c main_arg8) lb)
  have h1 := h (fun t _ => Reg9.written V c lb hlb t)
  exact h1 (fun i => Reg9.covered i)

end Cert.KVal

end
-- ==== Proof.KFold9.lean ====
import proofs.«424614_j7395933684274_1_alg».proof.Proof.KDefs
import proofs.«424614_j7395933684274_1_alg».proof.Proof.KReg9

noncomputable section

namespace Cert.KVal

open Idealize.ShloMosaic Idealize.ShloMosaic.TcCoe Idealize.SL.Sem
open Cert.KernelIdeal Cert.KernelIdeal.Facts₀ Cert.KernelIdeal.Facts

variable (m : (ℓ : Loc nD τ sig) → Buf (Elt Ideal) ℓ) (ρ : Dev nD → PrngReg) (c : Dev nD)

theorem W38_main_arg8 :
    Gen.W38 m ρ c main_arg8 = Gen.W37 m ρ c main_arg8 :=
  StableHlo.after_of_forall_not_mem (b := Proc.devRef .tc main_arg8) _ _ (List.forall_iff_forall_mem.mp (by
    simp only [Gen.hostOps9, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

theorem W38_main_v183 :
    Gen.W38 m ρ c main_v183 =
      shapeCast S1x1 (Gen.W37 m ρ c main_arg9) shapeCasts_S1_S1x1 := by
  show StableHlo.after Gen.hostOps9 (Gen.W37 m ρ c) main_v183 = _
  generalize Gen.W37 m ρ c = V
  simp only [Gen.hostOps9]
  after_results_simp
  rfl

theorem W38_main_v182 :
    Gen.W38 m ρ c main_v182 =
      Cert.Spec.pool (F := Ideal) (Gen.W37 m ρ c main_arg2) (Gen.W37 m ρ c main_v170) := by
  show StableHlo.after Gen.hostOps9 (Gen.W37 m ρ c) main_v182 = _
  generalize Gen.W37 m ρ c = V
  simp only [Gen.hostOps9]
  after_results_simp
  rfl

theorem stage9 :
    Gen.W39 m ρ c main_v184 =
      Cert.Spec.out (F := Ideal) (Cert.Spec.pool (Gen.W37 m ρ c main_arg2) (Gen.W37 m ρ c main_v170)) (Gen.W37 m ρ c main_arg8) (Gen.W37 m ρ c main_arg9) := by
  have h := region9 (Gen.V38 m ρ) c (Gen.W37 m ρ c main_arg9) (W38_main_v183 m ρ c)
  have h182 : Gen.V38 m ρ c main_v182 = _ := W38_main_v182 m ρ c
  have h8 : Gen.V38 m ρ c main_arg8 = _ := W38_main_arg8 m ρ c
  rw [h182, h8] at h
  exact (Gen.W39_arr m ρ c 3).trans h

end Cert.KVal

end
-- ==== Proof.ROps.lean ====
import proofs.«424614_j7395933684274_1_alg».proof.Proof.Gen.ReferenceIdeal
import Idealize.ShloMosaic.Lib.StableHlo.Run

noncomputable section

namespace Cert.RVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- The 23 operations of the node encoding. -/
abbrev opsEnc : List (HloOp τ sig (Elt F)) :=
  [ StableHlo.nullary main_v0 (iotaInDim S9 32 0),
    StableHlo.unary main_v0 main_v1 (broadcastInDim S1x9 ![1] bcast_S9_S1x9_1 : (⟨S9, .i32⟩ : BufTy).Contents (Elt F) → (⟨S1x9, .i32⟩ : BufTy).Contents (Elt F)),
    StableHlo.nullary main_c (constantI S_ 32 0#32),
    StableHlo.unary main_c main_v2 (broadcastInDim S1x9 ![] bcast_S_S1x9 : (⟨S_, .i32⟩ : BufTy).Contents (Elt F) → (⟨S1x9, .i32⟩ : BufTy).Contents (Elt F)),
    StableHlo.binary main_v1 main_v2 main_v3 (cmpi .slt : (⟨S1x9, .i32⟩ : BufTy).Contents (Elt F) → (⟨S1x9, .i32⟩ : BufTy).Contents (Elt F) → (⟨S1x9, .i1⟩ : BufTy).Contents (Elt F)),
    StableHlo.nullary main_c_0 (constantI S_ 32 9#32),
    StableHlo.unary main_c_0 main_v4 (broadcastInDim S1x9 ![] bcast_S_S1x9 : (⟨S_, .i32⟩ : BufTy).Contents (Elt F) → (⟨S1x9, .i32⟩ : BufTy).Contents (Elt F)),
    StableHlo.binary main_v1 main_v4 main_v5 (addi : (⟨S1x9, .i32⟩ : BufTy).Contents (Elt F) → (⟨S1x9, .i32⟩ : BufTy).Contents (Elt F) → (⟨S1x9, .i32⟩ : BufTy).Contents (Elt F)),
    StableHlo.ternary main_v3 main_v5 main_v1 main_v6 (select : (⟨S1x9, .i1⟩ : BufTy).Contents (Elt F) → (⟨S1x9, .i32⟩ : BufTy).Contents (Elt F) → (⟨S1x9, .i32⟩ : BufTy).Contents (Elt F) → (⟨S1x9, .i32⟩ : BufTy).Contents (Elt F)),
    StableHlo.nullary main_c_1 (constantI S_ 32 0#32),
    StableHlo.unary main_c_1 main_v7 (broadcastInDim S50000x9 ![] bcast_S_S50000x9 : (⟨S_, .i32⟩ : BufTy).Contents (Elt F) → (⟨S50000x9, .i32⟩ : BufTy).Contents (Elt F)),
    StableHlo.binary main_arg0 main_v7 main_v8 (cmpi .slt : (⟨S50000x9, .i32⟩ : BufTy).Contents (Elt F) → (⟨S50000x9, .i32⟩ : BufTy).Contents (Elt F) → (⟨S50000x9, .i1⟩ : BufTy).Contents (Elt F)),
    StableHlo.nullary main_c_2 (constantI S_ 32 119#32),
    StableHlo.unary main_c_2 main_v9 (broadcastInDim S50000x9 ![] bcast_S_S50000x9 : (⟨S_, .i32⟩ : BufTy).Contents (Elt F) → (⟨S50000x9, .i32⟩ : BufTy).Contents (Elt F)),
    StableHlo.binary main_arg0 main_v9 main_v10 (addi : (⟨S50000x9, .i32⟩ : BufTy).Contents (Elt F) → (⟨S50000x9, .i32⟩ : BufTy).Contents (Elt F) → (⟨S50000x9, .i32⟩ : BufTy).Contents (Elt F)),
    StableHlo.ternary main_v8 main_v10 main_arg0 main_v11 (select : (⟨S50000x9, .i1⟩ : BufTy).Contents (Elt F) → (⟨S50000x9, .i32⟩ : BufTy).Contents (Elt F) → (⟨S50000x9, .i32⟩ : BufTy).Contents (Elt F) → (⟨S50000x9, .i32⟩ : BufTy).Contents (Elt F)),
    StableHlo.unary main_v6 main_v12 (broadcastInDim S50000x9 ![0, 1] bcast_S1x9_S50000x9_0_1 : (⟨S1x9, .i32⟩ : BufTy).Contents (Elt F) → (⟨S50000x9, .i32⟩ : BufTy).Contents (Elt F)),
    StableHlo.unary main_v12 main_v13 (broadcastInDim S50000x9x1 ![0, 1] bcast_S50000x9_S50000x9x1_0_1 : (⟨S50000x9, .i32⟩ : BufTy).Contents (Elt F) → (⟨S50000x9x1, .i32⟩ : BufTy).Contents (Elt F)),
    StableHlo.unary main_v11 main_v14 (broadcastInDim S50000x9x1 ![0, 1] bcast_S50000x9_S50000x9x1_0_1 : (⟨S50000x9, .i32⟩ : BufTy).Contents (Elt F) → (⟨S50000x9x1, .i32⟩ : BufTy).Contents (Elt F)),
    StableHlo.binary main_v13 main_v14 main_v15 ((fun a b => concatenate S50000x9x2 2 [⟨S50000x9x1, a⟩, ⟨S50000x9x1, b⟩] concatenates_S50000x9x1_S50000x9x1_S50000x9x2_d2) : (⟨S50000x9x1, .i32⟩ : BufTy).Contents (Elt F) → (⟨S50000x9x1, .i32⟩ : BufTy).Contents (Elt F) → (⟨S50000x9x2, .i32⟩ : BufTy).Contents (Elt F)),
    StableHlo.binary main_arg3 main_v15 main_v16 ((fun x i => Host.gather gather_S9x119x128_S50000x9x2_S50000x9x128_2_01_n_n_01_2_11128 x i) : (⟨S9x119x128, .f32⟩ : BufTy).Contents (Elt F) → (⟨S50000x9x2, .i32⟩ : BufTy).Contents (Elt F) → (⟨S50000x9x128, .f32⟩ : BufTy).Contents (Elt F)),
    StableHlo.nullary main_cst (constant S_ .f32 0x00000000#32),
    StableHlo.binary main_v16 main_cst main_v17 ((fun x v => Host.reduceAdd x v reducesTo_S50000x9x128_S50000x128_d1 h_S_) : (⟨S50000x9x128, .f32⟩ : BufTy).Contents (Elt F) → (⟨S_, .f32⟩ : BufTy).Contents (Elt F) → (⟨S50000x128, .f32⟩ : BufTy).Contents (Elt F)) ]
theorem opsEnc_sub : (opsEnc : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., binary_bufs_sub ..⟩
/-- The buffers these operations write. -/
abbrev opsEnc_W : List (Ref sig .tc) := [main_v0, main_v1, main_c, main_v2, main_v3, main_c_0, main_v4, main_v5, main_v6, main_c_1, main_v7, main_v8, main_c_2, main_v9, main_v10, main_v11, main_v12, main_v13, main_v14, main_v15, main_v16, main_cst, main_v17]

/-- The 44 operations of the edge lists with self-loops and the edge normalisation. -/
abbrev opsNorm : List (HloOp τ sig (Elt F)) :=
  [ StableHlo.nullary main_v18 (iotaInDim S50000 32 0),
    StableHlo.unary main_arg1 main_v19 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v19 main_v20 rfl shapeCasts_S1x800000_S800000,
    StableHlo.binary main_v20 main_v18 main_v21 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v22 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v22 main_v23 rfl shapeCasts_S1x800000_S800000,
    StableHlo.binary main_v23 main_v18 main_v24 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_3 (constant S_ .f32 0x3F800000#32),
    StableHlo.unary main_cst_3 main_v25 (broadcastInDim S850000 ![] bcast_S_S850000 : (⟨S_, .f32⟩ : BufTy).Contents (Elt F) → (⟨S850000, .f32⟩ : BufTy).Contents (Elt F)),
    StableHlo.nullary main_cst_4 (constant S_ .f32 0x00000000#32),
    StableHlo.unary main_cst_4 main_v26 (broadcastInDim S50000 ![] bcast_S_S50000 : (⟨S_, .f32⟩ : BufTy).Contents (Elt F) → (⟨S50000, .f32⟩ : BufTy).Contents (Elt F)),
    StableHlo.unary main_v24 main_v27 (broadcastInDim S850000x1 ![0] bcast_S850000_S850000x1_0 : (⟨S850000, .i32⟩ : BufTy).Contents (Elt F) → (⟨S850000x1, .i32⟩ : BufTy).Contents (Elt F)),
    StableHlo.ternary main_v26 main_v27 main_v25 main_v28 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_5 (constant S_ .f32 0x00000000#32),
    StableHlo.unary main_cst_5 main_v29 (broadcastInDim S50000 ![] bcast_S_S50000 : (⟨S_, .f32⟩ : BufTy).Contents (Elt F) → (⟨S50000, .f32⟩ : BufTy).Contents (Elt F)),
    StableHlo.binary main_v28 main_v29 main_v30 (cmpf .ogt : (⟨S50000, .f32⟩ : BufTy).Contents (Elt F) → (⟨S50000, .f32⟩ : BufTy).Contents (Elt F) → (⟨S50000, .i1⟩ : BufTy).Contents (Elt F)),
    StableHlo.unary main_v28 main_v31 (Host.sqrt : (⟨S50000, .f32⟩ : BufTy).Contents (Elt F) → (⟨S50000, .f32⟩ : BufTy).Contents (Elt F)),
    StableHlo.nullary main_cst_6 (constant S_ .f32 0x3F800000#32),
    StableHlo.unary main_cst_6 main_v32 (broadcastInDim S50000 ![] bcast_S_S50000 : (⟨S_, .f32⟩ : BufTy).Contents (Elt F) → (⟨S50000, .f32⟩ : BufTy).Contents (Elt F)),
    StableHlo.binary main_v32 main_v31 main_v33 (Host.divf : (⟨S50000, .f32⟩ : BufTy).Contents (Elt F) → (⟨S50000, .f32⟩ : BufTy).Contents (Elt F) → (⟨S50000, .f32⟩ : BufTy).Contents (Elt F)),
    StableHlo.nullary main_cst_7 (constant S_ .f32 0x00000000#32),
    StableHlo.TRef.unary (.of main_cst_7 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v30 : StableHlo.TRef sig ⟨S50000, .i1⟩) (.of main_v33 : StableHlo.TRef sig ⟨S50000, .f32⟩) (.of main_call0_v1 : StableHlo.TRef sig ⟨S50000, .f32⟩) (.of main_v34 : StableHlo.TRef sig ⟨S50000, .f32⟩) select,
    StableHlo.nullary main_c_8 (constantI S_ 32 0#32),
    StableHlo.unary main_c_8 main_v35 (broadcastInDim S850000 ![] bcast_S_S850000 : (⟨S_, .i32⟩ : BufTy).Contents (Elt F) → (⟨S850000, .i32⟩ : BufTy).Contents (Elt F)),
    StableHlo.binary main_v21 main_v35 main_v36 (cmpi .slt : (⟨S850000, .i32⟩ : BufTy).Contents (Elt F) → (⟨S850000, .i32⟩ : BufTy).Contents (Elt F) → (⟨S850000, .i1⟩ : BufTy).Contents (Elt F)),
    StableHlo.nullary main_c_9 (constantI S_ 32 50000#32),
    StableHlo.unary main_c_9 main_v37 (broadcastInDim S850000 ![] bcast_S_S850000 : (⟨S_, .i32⟩ : BufTy).Contents (Elt F) → (⟨S850000, .i32⟩ : BufTy).Contents (Elt F)),
    StableHlo.binary main_v21 main_v37 main_v38 (addi : (⟨S850000, .i32⟩ : BufTy).Contents (Elt F) → (⟨S850000, .i32⟩ : BufTy).Contents (Elt F) → (⟨S850000, .i32⟩ : BufTy).Contents (Elt F)),
    StableHlo.ternary main_v36 main_v38 main_v21 main_v39 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v39 main_v40 (broadcastInDim S850000x1 ![0] bcast_S850000_S850000x1_0 : (⟨S850000, .i32⟩ : BufTy).Contents (Elt F) → (⟨S850000x1, .i32⟩ : BufTy).Contents (Elt F)),
    StableHlo.binary main_v34 main_v40 main_v41 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_10 (constantI S_ 32 0#32),
    StableHlo.unary main_c_10 main_v42 (broadcastInDim S850000 ![] bcast_S_S850000 : (⟨S_, .i32⟩ : BufTy).Contents (Elt F) → (⟨S850000, .i32⟩ : BufTy).Contents (Elt F)),
    StableHlo.binary main_v24 main_v42 main_v43 (cmpi .slt : (⟨S850000, .i32⟩ : BufTy).Contents (Elt F) → (⟨S850000, .i32⟩ : BufTy).Contents (Elt F) → (⟨S850000, .i1⟩ : BufTy).Contents (Elt F)),
    StableHlo.nullary main_c_11 (constantI S_ 32 50000#32),
    StableHlo.unary main_c_11 main_v44 (broadcastInDim S850000 ![] bcast_S_S850000 : (⟨S_, .i32⟩ : BufTy).Contents (Elt F) → (⟨S850000, .i32⟩ : BufTy).Contents (Elt F)),
    StableHlo.binary main_v24 main_v44 main_v45 (addi : (⟨S850000, .i32⟩ : BufTy).Contents (Elt F) → (⟨S850000, .i32⟩ : BufTy).Contents (Elt F) → (⟨S850000, .i32⟩ : BufTy).Contents (Elt F)),
    StableHlo.ternary main_v43 main_v45 main_v24 main_v46 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v46 main_v47 (broadcastInDim S850000x1 ![0] bcast_S850000_S850000x1_0 : (⟨S850000, .i32⟩ : BufTy).Contents (Elt F) → (⟨S850000x1, .i32⟩ : BufTy).Contents (Elt F)),
    StableHlo.binary main_v34 main_v47 main_v48 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v41 main_v48 main_v49 (mulf : (⟨S850000, .f32⟩ : BufTy).Contents (Elt F) → (⟨S850000, .f32⟩ : BufTy).Contents (Elt F) → (⟨S850000, .f32⟩ : BufTy).Contents (Elt F)),
    StableHlo.unary main_v49 main_v50 (broadcastInDim S850000x1 ![0] bcast_S850000_S850000x1_0 : (⟨S850000, .f32⟩ : BufTy).Contents (Elt F) → (⟨S850000x1, .f32⟩ : BufTy).Contents (Elt F)) ]
theorem opsNorm_sub : (opsNorm : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub ..⟩
/-- The buffers these operations write. -/
abbrev opsNorm_W : List (Ref sig .tc) := [main_v18, main_v19, main_v20, main_v21, main_v22, main_v23, main_v24, main_cst_3, main_v25, main_cst_4, main_v26, main_v27, main_v28, main_cst_5, main_v29, main_v30, main_v31, main_cst_6, main_v32, main_v33, main_cst_7, main_call0_v0, main_call0_v1, main_v34, main_c_8, main_v35, main_v36, main_c_9, main_v37, main_v38, main_v39, main_v40, main_v41, main_c_10, main_v42, main_v43, main_c_11, main_v44, main_v45, main_v46, main_v47, main_v48, main_v49, main_v50]

/-- The 26 operations of layer 0: the dense product, the aggregation over edges, bias and rectification. -/
abbrev opsAgg0 : List (HloOp τ sig (Elt F)) :=
  [ StableHlo.unary main_arg4 main_v51 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v51 main_v52 rfl shapeCasts_S1x128x128_S128x128,
    StableHlo.binary main_v17 main_v52 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_12 (constantI S_ 32 0#32),
    StableHlo.unary main_c_12 main_v54 (broadcastInDim S850000 ![] bcast_S_S850000 : (⟨S_, .i32⟩ : BufTy).Contents (Elt F) → (⟨S850000, .i32⟩ : BufTy).Contents (Elt F)),
    StableHlo.binary main_v21 main_v54 main_v55 (cmpi .slt : (⟨S850000, .i32⟩ : BufTy).Contents (Elt F) → (⟨S850000, .i32⟩ : BufTy).Contents (Elt F) → (⟨S850000, .i1⟩ : BufTy).Contents (Elt F)),
    StableHlo.nullary main_c_13 (constantI S_ 32 50000#32),
    StableHlo.unary main_c_13 main_v56 (broadcastInDim S850000 ![] bcast_S_S850000 : (⟨S_, .i32⟩ : BufTy).Contents (Elt F) → (⟨S850000, .i32⟩ : BufTy).Contents (Elt F)),
    StableHlo.binary main_v21 main_v56 main_v57 (addi : (⟨S850000, .i32⟩ : BufTy).Contents (Elt F) → (⟨S850000, .i32⟩ : BufTy).Contents (Elt F) → (⟨S850000, .i32⟩ : BufTy).Contents (Elt F)),
    StableHlo.ternary main_v55 main_v57 main_v21 main_v58 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v58 main_v59 (broadcastInDim S850000x1 ![0] bcast_S850000_S850000x1_0 : (⟨S850000, .i32⟩ : BufTy).Contents (Elt F) → (⟨S850000x1, .i32⟩ : BufTy).Contents (Elt F)),
    StableHlo.binary main_v53 main_v59 main_v60 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v50 main_v61 (broadcastInDim S850000x128 ![0, 1] bcast_S850000x1_S850000x128_0_1 : (⟨S850000x1, .f32⟩ : BufTy).Contents (Elt F) → (⟨S850000x128, .f32⟩ : BufTy).Contents (Elt F)),
    StableHlo.binary main_v60 main_v61 main_v62 (mulf : (⟨S850000x128, .f32⟩ : BufTy).Contents (Elt F) → (⟨S850000x128, .f32⟩ : BufTy).Contents (Elt F) → (⟨S850000x128, .f32⟩ : BufTy).Contents (Elt F)),
    StableHlo.nullary main_cst_14 (constant S_ .f32 0x00000000#32),
    StableHlo.unary main_cst_14 main_v63 (broadcastInDim S50000x128 ![] bcast_S_S50000x128 : (⟨S_, .f32⟩ : BufTy).Contents (Elt F) → (⟨S50000x128, .f32⟩ : BufTy).Contents (Elt F)),
    StableHlo.unary main_v24 main_v64 (broadcastInDim S850000x1 ![0] bcast_S850000_S850000x1_0 : (⟨S850000, .i32⟩ : BufTy).Contents (Elt F) → (⟨S850000x1, .i32⟩ : BufTy).Contents (Elt F)),
    StableHlo.ternary main_v63 main_v64 main_v62 main_v65 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v66 ((extractStridedSlice S1x128 ![0, 0] · slices_S4x128_S1x128_0_0) : (⟨S4x128, .f32⟩ : BufTy).Contents (Elt F) → (⟨S1x128, .f32⟩ : BufTy).Contents (Elt F)),
    StableHlo.reshape main_v66 main_v67 rfl shapeCasts_S1x128_S128,
    StableHlo.unary main_v67 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v69 main_v70 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v70 : StableHlo.TRef sig ⟨S50000x128, .f32⟩) (.of main_call1_v0 : StableHlo.TRef sig ⟨S50000x128, .f32⟩) (.of main_v71 : StableHlo.TRef sig ⟨S50000x128, .f32⟩) maximumf ]
theorem opsAgg0_sub : (opsAgg0 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub ..⟩
/-- The buffers these operations write. -/
abbrev opsAgg0_W : List (Ref sig .tc) := [main_v51, main_v52, main_v53, main_c_12, main_v54, main_v55, main_c_13, main_v56, main_v57, main_v58, main_v59, main_v60, main_v61, main_v62, main_cst_14, main_v63, main_v64, main_v65, main_v66, main_v67, main_v68, main_v69, main_v70, main_call1_cst, main_call1_v0, main_v71]

/-- The 52 operations of layer 0: the batch statistics, the normalisation and the residual. -/
abbrev opsBn0 : List (HloOp τ sig (Elt F)) :=
  [ StableHlo.nullary main_cst_15 (constant S_ .f32 0x00000000#32),
    StableHlo.binary main_v71 main_cst_15 main_v72 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v73 (broadcastInDim S128 ![] bcast_S_S128 : (⟨S_, .f32⟩ : BufTy).Contents (Elt F) → (⟨S128, .f32⟩ : BufTy).Contents (Elt F)),
    StableHlo.binary main_v72 main_v73 main_v74 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary (.of main_call2_cst : StableHlo.TRef sig ⟨S_, .f32⟩) (constant S_ .f32 0x00000000#32),
    StableHlo.TRef.binary (.of main_v71 : StableHlo.TRef sig ⟨S50000x128, .f32⟩) (.of main_call2_cst : StableHlo.TRef sig ⟨S_, .f32⟩) (.of main_call2_v0 : StableHlo.TRef sig ⟨S128, .f32⟩) (fun x v => Host.reduceAdd x v reducesTo_S50000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S50000x128, .f32⟩) (broadcastInDim S50000x128 ![0, 1] bcast_S1x128_S50000x128_0_1),
    StableHlo.TRef.binary (.of main_v71 : StableHlo.TRef sig ⟨S50000x128, .f32⟩) (.of main_call2_v4 : StableHlo.TRef sig ⟨S50000x128, .f32⟩) (.of main_call2_v5 : StableHlo.TRef sig ⟨S50000x128, .f32⟩) subf,
    StableHlo.TRef.binary (.of main_call2_v5 : StableHlo.TRef sig ⟨S50000x128, .f32⟩) (.of main_call2_v5 : StableHlo.TRef sig ⟨S50000x128, .f32⟩) (.of main_call2_v6 : StableHlo.TRef sig ⟨S50000x128, .f32⟩) mulf,
    StableHlo.TRef.unary (.of main_c_17 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x128, .f32⟩) (.of main_call2_cst_2 : StableHlo.TRef sig ⟨S_, .f32⟩) (.of main_call2_v9 : StableHlo.TRef sig ⟨S128, .f32⟩) (fun x v => Host.reduceAdd x v reducesTo_S50000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v75 : StableHlo.TRef sig ⟨S128, .f32⟩) (fun p a b => select (broadcastInDim S128 ![] bcast_S_S128 p) a b),
    StableHlo.unary main_arg6 main_v76 ((extractStridedSlice S1x128 ![0, 0] · slices_S4x128_S1x128_0_0) : (⟨S4x128, .f32⟩ : BufTy).Contents (Elt F) → (⟨S1x128, .f32⟩ : BufTy).Contents (Elt F)),
    StableHlo.reshape main_v76 main_v77 rfl shapeCasts_S1x128_S128,
    StableHlo.unary main_v74 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v79 main_v80 (subf : (⟨S50000x128, .f32⟩ : BufTy).Contents (Elt F) → (⟨S50000x128, .f32⟩ : BufTy).Contents (Elt F) → (⟨S50000x128, .f32⟩ : BufTy).Contents (Elt F)),
    StableHlo.unary main_v77 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v80 main_v83 (mulf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v84 (broadcastInDim S128 ![] bcast_S_S128 : (⟨S_, .f32⟩ : BufTy).Contents (Elt F) → (⟨S128, .f32⟩ : BufTy).Contents (Elt F)),
    StableHlo.binary main_v75 main_v84 main_v85 (addf : (⟨S128, .f32⟩ : BufTy).Contents (Elt F) → (⟨S128, .f32⟩ : BufTy).Contents (Elt F) → (⟨S128, .f32⟩ : BufTy).Contents (Elt F)),
    StableHlo.unary main_v85 main_v86 (Host.rsqrt : (⟨S128, .f32⟩ : BufTy).Contents (Elt F) → (⟨S128, .f32⟩ : BufTy).Contents (Elt F)),
    StableHlo.unary main_v86 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v88 main_v89 (mulf : (⟨S50000x128, .f32⟩ : BufTy).Contents (Elt F) → (⟨S50000x128, .f32⟩ : BufTy).Contents (Elt F) → (⟨S50000x128, .f32⟩ : BufTy).Contents (Elt F)),
    StableHlo.unary main_arg7 main_v90 ((extractStridedSlice S1x128 ![0, 0] · slices_S4x128_S1x128_0_0) : (⟨S4x128, .f32⟩ : BufTy).Contents (Elt F) → (⟨S1x128, .f32⟩ : BufTy).Contents (Elt F)),
    StableHlo.reshape main_v90 main_v91 rfl shapeCasts_S1x128_S128,
    StableHlo.unary main_v91 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v89 main_v93 main_v94 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x128, .f32⟩) (broadcastInDim S50000x128 ![] bcast_S_S50000x128),
    StableHlo.TRef.binary (.of main_v94 : StableHlo.TRef sig ⟨S50000x128, .f32⟩) (.of main_call3_v0 : StableHlo.TRef sig ⟨S50000x128, .f32⟩) (.of main_v95 : StableHlo.TRef sig ⟨S50000x128, .f32⟩) maximumf,
    StableHlo.binary main_v95 main_v17 main_v96 (addf : (⟨S50000x128, .f32⟩ : BufTy).Contents (Elt F) → (⟨S50000x128, .f32⟩ : BufTy).Contents (Elt F) → (⟨S50000x128, .f32⟩ : BufTy).Contents (Elt F)) ]
theorem opsBn0_sub : (opsBn0 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩
/-- The buffers these operations write. -/
abbrev opsBn0_W : List (Ref sig .tc) := [main_cst_15, main_v72, main_cst_16, main_v73, main_v74, main_c_17, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v75, main_v76, main_v77, main_v78, main_v79, main_v80, main_v81, main_v82, main_v83, main_cst_18, main_v84, main_v85, main_v86, main_v87, main_v88, main_v89, main_v90, main_v91, main_v92, main_v93, main_v94, main_call3_cst, main_call3_v0, main_v95, main_v96]

/-- The 26 operations of layer 1: the dense product, the aggregation over edges, bias and rectification. -/
abbrev opsAgg1 : List (HloOp τ sig (Elt F)) :=
  [ StableHlo.unary main_arg4 main_v97 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v97 main_v98 rfl shapeCasts_S1x128x128_S128x128,
    StableHlo.binary main_v96 main_v98 main_v99 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_19 (constantI S_ 32 0#32),
    StableHlo.unary main_c_19 main_v100 (broadcastInDim S850000 ![] bcast_S_S850000 : (⟨S_, .i32⟩ : BufTy).Contents (Elt F) → (⟨S850000, .i32⟩ : BufTy).Contents (Elt F)),
    StableHlo.binary main_v21 main_v100 main_v101 (cmpi .slt : (⟨S850000, .i32⟩ : BufTy).Contents (Elt F) → (⟨S850000, .i32⟩ : BufTy).Contents (Elt F) → (⟨S850000, .i1⟩ : BufTy).Contents (Elt F)),
    StableHlo.nullary main_c_20 (constantI S_ 32 50000#32),
    StableHlo.unary main_c_20 main_v102 (broadcastInDim S850000 ![] bcast_S_S850000 : (⟨S_, .i32⟩ : BufTy).Contents (Elt F) → (⟨S850000, .i32⟩ : BufTy).Contents (Elt F)),
    StableHlo.binary main_v21 main_v102 main_v103 (addi : (⟨S850000, .i32⟩ : BufTy).Contents (Elt F) → (⟨S850000, .i32⟩ : BufTy).Contents (Elt F) → (⟨S850000, .i32⟩ : BufTy).Contents (Elt F)),
    StableHlo.ternary main_v101 main_v103 main_v21 main_v104 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v104 main_v105 (broadcastInDim S850000x1 ![0] bcast_S850000_S850000x1_0 : (⟨S850000, .i32⟩ : BufTy).Contents (Elt F) → (⟨S850000x1, .i32⟩ : BufTy).Contents (Elt F)),
    StableHlo.binary main_v99 main_v105 main_v106 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v50 main_v107 (broadcastInDim S850000x128 ![0, 1] bcast_S850000x1_S850000x128_0_1 : (⟨S850000x1, .f32⟩ : BufTy).Contents (Elt F) → (⟨S850000x128, .f32⟩ : BufTy).Contents (Elt F)),
    StableHlo.binary main_v106 main_v107 main_v108 (mulf : (⟨S850000x128, .f32⟩ : BufTy).Contents (Elt F) → (⟨S850000x128, .f32⟩ : BufTy).Contents (Elt F) → (⟨S850000x128, .f32⟩ : BufTy).Contents (Elt F)),
    StableHlo.nullary main_cst_21 (constant S_ .f32 0x00000000#32),
    StableHlo.unary main_cst_21 main_v109 (broadcastInDim S50000x128 ![] bcast_S_S50000x128 : (⟨S_, .f32⟩ : BufTy).Contents (Elt F) → (⟨S50000x128, .f32⟩ : BufTy).Contents (Elt F)),
    StableHlo.unary main_v24 main_v110 (broadcastInDim S850000x1 ![0] bcast_S850000_S850000x1_0 : (⟨S850000, .i32⟩ : BufTy).Contents (Elt F) → (⟨S850000x1, .i32⟩ : BufTy).Contents (Elt F)),
    StableHlo.ternary main_v109 main_v110 main_v108 main_v111 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v112 ((extractStridedSlice S1x128 ![1, 0] · slices_S4x128_S1x128_1_0) : (⟨S4x128, .f32⟩ : BufTy).Contents (Elt F) → (⟨S1x128, .f32⟩ : BufTy).Contents (Elt F)),
    StableHlo.reshape main_v112 main_v113 rfl shapeCasts_S1x128_S128,
    StableHlo.unary main_v113 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S50000x128 ![0, 1] bcast_S1x128_S50000x128_0_1 : (⟨S1x128, .f32⟩ : BufTy).Contents (Elt F) → (⟨S50000x128, .f32⟩ : BufTy).Contents (Elt F)),
    StableHlo.binary main_v111 main_v115 main_v116 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S50000x128, .f32⟩) (broadcastInDim S50000x128 ![] bcast_S_S50000x128),
    StableHlo.TRef.binary (.of main_v116 : StableHlo.TRef sig ⟨S50000x128, .f32⟩) (.of main_call4_v0 : StableHlo.TRef sig ⟨S50000x128, .f32⟩) (.of main_v117 : StableHlo.TRef sig ⟨S50000x128, .f32⟩) maximumf ]
theorem opsAgg1_sub : (opsAgg1 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub ..⟩
/-- The buffers these operations write. -/
abbrev opsAgg1_W : List (Ref sig .tc) := [main_v97, main_v98, main_v99, main_c_19, main_v100, main_v101, main_c_20, main_v102, main_v103, main_v104, main_v105, main_v106, main_v107, main_v108, main_cst_21, main_v109, main_v110, main_v111, main_v112, main_v113, main_v114, main_v115, main_v116, main_call4_cst, main_call4_v0, main_v117]

/-- The 52 operations of layer 1: the batch statistics, the normalisation and the residual. -/
abbrev opsBn1 : List (HloOp τ sig (Elt F)) :=
  [ StableHlo.nullary main_cst_22 (constant S_ .f32 0x00000000#32),
    StableHlo.binary main_v117 main_cst_22 main_v118 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_23 (constant S_ .f32 0x47435000#32),
    StableHlo.unary main_cst_23 main_v119 (broadcastInDim S128 ![] bcast_S_S128 : (⟨S_, .f32⟩ : BufTy).Contents (Elt F) → (⟨S128, .f32⟩ : BufTy).Contents (Elt F)),
    StableHlo.binary main_v118 main_v119 main_v120 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary (.of main_call5_cst : StableHlo.TRef sig ⟨S_, .f32⟩) (constant S_ .f32 0x00000000#32),
    StableHlo.TRef.binary (.of main_v117 : StableHlo.TRef sig ⟨S50000x128, .f32⟩) (.of main_call5_cst : StableHlo.TRef sig ⟨S_, .f32⟩) (.of main_call5_v0 : StableHlo.TRef sig ⟨S128, .f32⟩) (fun x v => Host.reduceAdd x v reducesTo_S50000x128_S128_d0 h_S_),
    StableHlo.TRef.unary (.of main_call5_v0 : StableHlo.TRef sig ⟨S128, .f32⟩) (.of main_call5_v1 : StableHlo.TRef sig ⟨S1x128, .f32⟩) (broadcastInDim S1x128 ![1] bcast_S128_S1x128_1),
    StableHlo.TRef.nullary (.of main_call5_cst_0 : StableHlo.TRef sig ⟨S_, .f32⟩) (constant S_ .f32 0x47435000#32),
    StableHlo.TRef.unary (.of main_call5_cst_0 : StableHlo.TRef sig ⟨S_, .f32⟩) (.of main_call5_v2 : StableHlo.TRef sig ⟨S1x128, .f32⟩) (broadcastInDim S1x128 ![] bcast_S_S1x128),
    StableHlo.TRef.binary (.of main_call5_v1 : StableHlo.TRef sig ⟨S1x128, .f32⟩) (.of main_call5_v2 : StableHlo.TRef sig ⟨S1x128, .f32⟩) (.of main_call5_v3 : StableHlo.TRef sig ⟨S1x128, .f32⟩) Host.divf,
    StableHlo.TRef.unary (.of main_call5_v3 : StableHlo.TRef sig ⟨S1x128, .f32⟩) (.of main_call5_v4 : StableHlo.TRef sig ⟨S50000x128, .f32⟩) (broadcastInDim S50000x128 ![0, 1] bcast_S1x128_S50000x128_0_1),
    StableHlo.TRef.binary (.of main_v117 : StableHlo.TRef sig ⟨S50000x128, .f32⟩) (.of main_call5_v4 : StableHlo.TRef sig ⟨S50000x128, .f32⟩) (.of main_call5_v5 : StableHlo.TRef sig ⟨S50000x128, .f32⟩) subf,
    StableHlo.TRef.binary (.of main_call5_v5 : StableHlo.TRef sig ⟨S50000x128, .f32⟩) (.of main_call5_v5 : StableHlo.TRef sig ⟨S50000x128, .f32⟩) (.of main_call5_v6 : StableHlo.TRef sig ⟨S50000x128, .f32⟩) mulf,
    StableHlo.TRef.unary (.of main_c_24 : StableHlo.TRef sig ⟨S_, .i32⟩) (.of main_call5_v7 : StableHlo.TRef sig ⟨S_, .f32⟩) (sitofp .f32),
    StableHlo.TRef.nullary (.of main_call5_cst_1 : StableHlo.TRef sig ⟨S_, .f32⟩) (constant S_ .f32 0x47435000#32),
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,
    StableHlo.TRef.nullary (.of main_call5_cst_2 : StableHlo.TRef sig ⟨S_, .f32⟩) (constant S_ .f32 0x00000000#32),
    StableHlo.TRef.binary (.of main_call5_v6 : StableHlo.TRef sig ⟨S50000x128, .f32⟩) (.of main_call5_cst_2 : StableHlo.TRef sig ⟨S_, .f32⟩) (.of main_call5_v9 : StableHlo.TRef sig ⟨S128, .f32⟩) (fun x v => Host.reduceAdd x v reducesTo_S50000x128_S128_d0 h_S_),
    StableHlo.TRef.unary (.of main_call5_v8 : StableHlo.TRef sig ⟨S_, .f32⟩) (.of main_call5_v10 : StableHlo.TRef sig ⟨S128, .f32⟩) (broadcastInDim S128 ![] bcast_S_S128),
    StableHlo.TRef.binary (.of main_call5_v9 : StableHlo.TRef sig ⟨S128, .f32⟩) (.of main_call5_v10 : StableHlo.TRef sig ⟨S128, .f32⟩) (.of main_call5_v11 : StableHlo.TRef sig ⟨S128, .f32⟩) Host.divf,
    StableHlo.TRef.nullary (.of main_call5_cst_3 : StableHlo.TRef sig ⟨S_, .f32⟩) (constant S_ .f32 0x00000000#32),
    StableHlo.TRef.binary (.of main_call5_v8 : StableHlo.TRef sig ⟨S_, .f32⟩) (.of main_call5_cst_3 : StableHlo.TRef sig ⟨S_, .f32⟩) (.of main_call5_v12 : StableHlo.TRef sig ⟨S_, .i1⟩) (cmpf .ogt),
    StableHlo.TRef.nullary (.of main_call5_cst_4 : StableHlo.TRef sig ⟨S_, .f32⟩) (constant S_ .f32 0x7FC00000#32),
    StableHlo.TRef.unary (.of main_call5_cst_4 : StableHlo.TRef sig ⟨S_, .f32⟩) (.of main_call5_call0_v0 : StableHlo.TRef sig ⟨S_, .f32⟩) id,
    StableHlo.TRef.unary (.of main_call5_call0_v0 : StableHlo.TRef sig ⟨S_, .f32⟩) (.of main_call5_call0_v1 : StableHlo.TRef sig ⟨S128, .f32⟩) (broadcastInDim S128 ![] bcast_S_S128),
    StableHlo.TRef.ternary (.of main_call5_v12 : StableHlo.TRef sig ⟨S_, .i1⟩) (.of main_call5_v11 : StableHlo.TRef sig ⟨S128, .f32⟩) (.of main_call5_call0_v1 : StableHlo.TRef sig ⟨S128, .f32⟩) (.of main_v121 : StableHlo.TRef sig ⟨S128, .f32⟩) (fun p a b => select (broadcastInDim S128 ![] bcast_S_S128 p) a b),
    StableHlo.unary main_arg6 main_v122 ((extractStridedSlice S1x128 ![1, 0] · slices_S4x128_S1x128_1_0) : (⟨S4x128, .f32⟩ : BufTy).Contents (Elt F) → (⟨S1x128, .f32⟩ : BufTy).Contents (Elt F)),
    StableHlo.reshape main_v122 main_v123 rfl shapeCasts_S1x128_S128,
    StableHlo.unary main_v120 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v125 main_v126 (subf : (⟨S50000x128, .f32⟩ : BufTy).Contents (Elt F) → (⟨S50000x128, .f32⟩ : BufTy).Contents (Elt F) → (⟨S50000x128, .f32⟩ : BufTy).Contents (Elt F)),
    StableHlo.unary main_v123 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v128 main_v126 main_v129 (mulf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x3727C5AC#32),
    StableHlo.unary main_cst_25 main_v130 (broadcastInDim S128 ![] bcast_S_S128 : (⟨S_, .f32⟩ : BufTy).Contents (Elt F) → (⟨S128, .f32⟩ : BufTy).Contents (Elt F)),
    StableHlo.binary main_v121 main_v130 main_v131 (addf : (⟨S128, .f32⟩ : BufTy).Contents (Elt F) → (⟨S128, .f32⟩ : BufTy).Contents (Elt F) → (⟨S128, .f32⟩ : BufTy).Contents (Elt F)),
    StableHlo.unary main_v131 main_v132 (Host.rsqrt : (⟨S128, .f32⟩ : BufTy).Contents (Elt F) → (⟨S128, .f32⟩ : BufTy).Contents (Elt F)),
    StableHlo.unary main_v132 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S50000x128 ![0, 1] bcast_S1x128_S50000x128_0_1 : (⟨S1x128, .f32⟩ : BufTy).Contents (Elt F) → (⟨S50000x128, .f32⟩ : BufTy).Contents (Elt F)),
    StableHlo.binary main_v129 main_v134 main_v135 (mulf : (⟨S50000x128, .f32⟩ : BufTy).Contents (Elt F) → (⟨S50000x128, .f32⟩ : BufTy).Contents (Elt F) → (⟨S50000x128, .f32⟩ : BufTy).Contents (Elt F)),
    StableHlo.unary main_arg7 main_v136 ((extractStridedSlice S1x128 ![1, 0] · slices_S4x128_S1x128_1_0) : (⟨S4x128, .f32⟩ : BufTy).Contents (Elt F) → (⟨S1x128, .f32⟩ : BufTy).Contents (Elt F)),
    StableHlo.reshape main_v136 main_v137 rfl shapeCasts_S1x128_S128,
    StableHlo.unary main_v137 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v135 main_v139 main_v140 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S50000x128, .f32⟩) (broadcastInDim S50000x128 ![] bcast_S_S50000x128),
    StableHlo.TRef.binary (.of main_v140 : StableHlo.TRef sig ⟨S50000x128, .f32⟩) (.of main_call6_v0 : StableHlo.TRef sig ⟨S50000x128, .f32⟩) (.of main_v141 : StableHlo.TRef sig ⟨S50000x128, .f32⟩) maximumf,
    StableHlo.binary main_v141 main_v96 main_v142 (addf : (⟨S50000x128, .f32⟩ : BufTy).Contents (Elt F) → (⟨S50000x128, .f32⟩ : BufTy).Contents (Elt F) → (⟨S50000x128, .f32⟩ : BufTy).Contents (Elt F)) ]
theorem opsBn1_sub : (opsBn1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩
/-- The buffers these operations write. -/
abbrev opsBn1_W : List (Ref sig .tc) := [main_cst_22, main_v118, main_cst_23, main_v119, main_v120, main_c_24, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v121, main_v122, main_v123, main_v124, main_v125, main_v126, main_v127, main_v128, main_v129, main_cst_25, main_v130, main_v131, main_v132, main_v133, main_v134, main_v135, main_v136, main_v137, main_v138, main_v139, main_v140, main_call6_cst, main_call6_v0, main_v141, main_v142]

/-- The 26 operations of layer 2: the dense product, the aggregation over edges, bias and rectification. -/
abbrev opsAgg2 : List (HloOp τ sig (Elt F)) :=
  [ StableHlo.unary main_arg4 main_v143 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v143 main_v144 rfl shapeCasts_S1x128x128_S128x128,
    StableHlo.binary main_v142 main_v144 main_v145 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_26 (constantI S_ 32 0#32),
    StableHlo.unary main_c_26 main_v146 (broadcastInDim S850000 ![] bcast_S_S850000 : (⟨S_, .i32⟩ : BufTy).Contents (Elt F) → (⟨S850000, .i32⟩ : BufTy).Contents (Elt F)),
    StableHlo.binary main_v21 main_v146 main_v147 (cmpi .slt : (⟨S850000, .i32⟩ : BufTy).Contents (Elt F) → (⟨S850000, .i32⟩ : BufTy).Contents (Elt F) → (⟨S850000, .i1⟩ : BufTy).Contents (Elt F)),
    StableHlo.nullary main_c_27 (constantI S_ 32 50000#32),
    StableHlo.unary main_c_27 main_v148 (broadcastInDim S850000 ![] bcast_S_S850000 : (⟨S_, .i32⟩ : BufTy).Contents (Elt F) → (⟨S850000, .i32⟩ : BufTy).Contents (Elt F)),
    StableHlo.binary main_v21 main_v148 main_v149 (addi : (⟨S850000, .i32⟩ : BufTy).Contents (Elt F) → (⟨S850000, .i32⟩ : BufTy).Contents (Elt F) → (⟨S850000, .i32⟩ : BufTy).Contents (Elt F)),
    StableHlo.ternary main_v147 main_v149 main_v21 main_v150 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v150 main_v151 (broadcastInDim S850000x1 ![0] bcast_S850000_S850000x1_0 : (⟨S850000, .i32⟩ : BufTy).Contents (Elt F) → (⟨S850000x1, .i32⟩ : BufTy).Contents (Elt F)),
    StableHlo.binary main_v145 main_v151 main_v152 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v50 main_v153 (broadcastInDim S850000x128 ![0, 1] bcast_S850000x1_S850000x128_0_1 : (⟨S850000x1, .f32⟩ : BufTy).Contents (Elt F) → (⟨S850000x128, .f32⟩ : BufTy).Contents (Elt F)),
    StableHlo.binary main_v152 main_v153 main_v154 (mulf : (⟨S850000x128, .f32⟩ : BufTy).Contents (Elt F) → (⟨S850000x128, .f32⟩ : BufTy).Contents (Elt F) → (⟨S850000x128, .f32⟩ : BufTy).Contents (Elt F)),
    StableHlo.nullary main_cst_28 (constant S_ .f32 0x00000000#32),
    StableHlo.unary main_cst_28 main_v155 (broadcastInDim S50000x128 ![] bcast_S_S50000x128 : (⟨S_, .f32⟩ : BufTy).Contents (Elt F) → (⟨S50000x128, .f32⟩ : BufTy).Contents (Elt F)),
    StableHlo.unary main_v24 main_v156 (broadcastInDim S850000x1 ![0] bcast_S850000_S850000x1_0 : (⟨S850000, .i32⟩ : BufTy).Contents (Elt F) → (⟨S850000x1, .i32⟩ : BufTy).Contents (Elt F)),
    StableHlo.ternary main_v155 main_v156 main_v154 main_v157 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v158 ((extractStridedSlice S1x128 ![2, 0] · slices_S4x128_S1x128_2_0) : (⟨S4x128, .f32⟩ : BufTy).Contents (Elt F) → (⟨S1x128, .f32⟩ : BufTy).Contents (Elt F)),
    StableHlo.reshape main_v158 main_v159 rfl shapeCasts_S1x128_S128,
    StableHlo.unary main_v159 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S50000x128 ![0, 1] bcast_S1x128_S50000x128_0_1 : (⟨S1x128, .f32⟩ : BufTy).Contents (Elt F) → (⟨S50000x128, .f32⟩ : BufTy).Contents (Elt F)),
    StableHlo.binary main_v157 main_v161 main_v162 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S50000x128, .f32⟩) (broadcastInDim S50000x128 ![] bcast_S_S50000x128),
    StableHlo.TRef.binary (.of main_v162 : StableHlo.TRef sig ⟨S50000x128, .f32⟩) (.of main_call7_v0 : StableHlo.TRef sig ⟨S50000x128, .f32⟩) (.of main_v163 : StableHlo.TRef sig ⟨S50000x128, .f32⟩) maximumf ]
theorem opsAgg2_sub : (opsAgg2 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub ..⟩
/-- The buffers these operations write. -/
abbrev opsAgg2_W : List (Ref sig .tc) := [main_v143, main_v144, main_v145, main_c_26, main_v146, main_v147, main_c_27, main_v148, main_v149, main_v150, main_v151, main_v152, main_v153, main_v154, main_cst_28, main_v155, main_v156, main_v157, main_v158, main_v159, main_v160, main_v161, main_v162, main_call7_cst, main_call7_v0, main_v163]

/-- The 52 operations of layer 2: the batch statistics, the normalisation and the residual. -/
abbrev opsBn2 : List (HloOp τ sig (Elt F)) :=
  [ StableHlo.nullary main_cst_29 (constant S_ .f32 0x00000000#32),
    StableHlo.binary main_v163 main_cst_29 main_v164 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_30 (constant S_ .f32 0x47435000#32),
    StableHlo.unary main_cst_30 main_v165 (broadcastInDim S128 ![] bcast_S_S128 : (⟨S_, .f32⟩ : BufTy).Contents (Elt F) → (⟨S128, .f32⟩ : BufTy).Contents (Elt F)),
    StableHlo.binary main_v164 main_v165 main_v166 (Host.divf : (⟨S128, .f32⟩ : BufTy).Contents (Elt F) → (⟨S128, .f32⟩ : BufTy).Contents (Elt F) → (⟨S128, .f32⟩ : BufTy).Contents (Elt F)),
    StableHlo.nullary main_c_31 (constantI S_ 32 0#32),
    StableHlo.TRef.nullary (.of main_call8_cst : StableHlo.TRef sig ⟨S_, .f32⟩) (constant S_ .f32 0x00000000#32),
    StableHlo.TRef.binary (.of main_v163 : StableHlo.TRef sig ⟨S50000x128, .f32⟩) (.of main_call8_cst : StableHlo.TRef sig ⟨S_, .f32⟩) (.of main_call8_v0 : StableHlo.TRef sig ⟨S128, .f32⟩) (fun x v => Host.reduceAdd x v reducesTo_S50000x128_S128_d0 h_S_),
    StableHlo.TRef.unary (.of main_call8_v0 : StableHlo.TRef sig ⟨S128, .f32⟩) (.of main_call8_v1 : StableHlo.TRef sig ⟨S1x128, .f32⟩) (broadcastInDim S1x128 ![1] bcast_S128_S1x128_1),
    StableHlo.TRef.nullary (.of main_call8_cst_0 : StableHlo.TRef sig ⟨S_, .f32⟩) (constant S_ .f32 0x47435000#32),
    StableHlo.TRef.unary (.of main_call8_cst_0 : StableHlo.TRef sig ⟨S_, .f32⟩) (.of main_call8_v2 : StableHlo.TRef sig ⟨S1x128, .f32⟩) (broadcastInDim S1x128 ![] bcast_S_S1x128),
    StableHlo.TRef.binary (.of main_call8_v1 : StableHlo.TRef sig ⟨S1x128, .f32⟩) (.of main_call8_v2 : StableHlo.TRef sig ⟨S1x128, .f32⟩) (.of main_call8_v3 : StableHlo.TRef sig ⟨S1x128, .f32⟩) Host.divf,
    StableHlo.TRef.unary (.of main_call8_v3 : StableHlo.TRef sig ⟨S1x128, .f32⟩) (.of main_call8_v4 : StableHlo.TRef sig ⟨S50000x128, .f32⟩) (broadcastInDim S50000x128 ![0, 1] bcast_S1x128_S50000x128_0_1),
    StableHlo.TRef.binary (.of main_v163 : StableHlo.TRef sig ⟨S50000x128, .f32⟩) (.of main_call8_v4 : StableHlo.TRef sig ⟨S50000x128, .f32⟩) (.of main_call8_v5 : StableHlo.TRef sig ⟨S50000x128, .f32⟩) subf,
    StableHlo.TRef.binary (.of main_call8_v5 : StableHlo.TRef sig ⟨S50000x128, .f32⟩) (.of main_call8_v5 : StableHlo.TRef sig ⟨S50000x128, .f32⟩) (.of main_call8_v6 : StableHlo.TRef sig ⟨S50000x128, .f32⟩) mulf,
    StableHlo.TRef.unary (.of main_c_31 : StableHlo.TRef sig ⟨S_, .i32⟩) (.of main_call8_v7 : StableHlo.TRef sig ⟨S_, .f32⟩) (sitofp .f32),
    StableHlo.TRef.nullary (.of main_call8_cst_1 : StableHlo.TRef sig ⟨S_, .f32⟩) (constant S_ .f32 0x47435000#32),
    StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf,
    StableHlo.TRef.nullary (.of main_call8_cst_2 : StableHlo.TRef sig ⟨S_, .f32⟩) (constant S_ .f32 0x00000000#32),
    StableHlo.TRef.binary (.of main_call8_v6 : StableHlo.TRef sig ⟨S50000x128, .f32⟩) (.of main_call8_cst_2 : StableHlo.TRef sig ⟨S_, .f32⟩) (.of main_call8_v9 : StableHlo.TRef sig ⟨S128, .f32⟩) (fun x v => Host.reduceAdd x v reducesTo_S50000x128_S128_d0 h_S_),
    StableHlo.TRef.unary (.of main_call8_v8 : StableHlo.TRef sig ⟨S_, .f32⟩) (.of main_call8_v10 : StableHlo.TRef sig ⟨S128, .f32⟩) (broadcastInDim S128 ![] bcast_S_S128),
    StableHlo.TRef.binary (.of main_call8_v9 : StableHlo.TRef sig ⟨S128, .f32⟩) (.of main_call8_v10 : StableHlo.TRef sig ⟨S128, .f32⟩) (.of main_call8_v11 : StableHlo.TRef sig ⟨S128, .f32⟩) Host.divf,
    StableHlo.TRef.nullary (.of main_call8_cst_3 : StableHlo.TRef sig ⟨S_, .f32⟩) (constant S_ .f32 0x00000000#32),
    StableHlo.TRef.binary (.of main_call8_v8 : StableHlo.TRef sig ⟨S_, .f32⟩) (.of main_call8_cst_3 : StableHlo.TRef sig ⟨S_, .f32⟩) (.of main_call8_v12 : StableHlo.TRef sig ⟨S_, .i1⟩) (cmpf .ogt),
    StableHlo.TRef.nullary (.of main_call8_cst_4 : StableHlo.TRef sig ⟨S_, .f32⟩) (constant S_ .f32 0x7FC00000#32),
    StableHlo.TRef.unary (.of main_call8_cst_4 : StableHlo.TRef sig ⟨S_, .f32⟩) (.of main_call8_call0_v0 : StableHlo.TRef sig ⟨S_, .f32⟩) id,
    StableHlo.TRef.unary (.of main_call8_call0_v0 : StableHlo.TRef sig ⟨S_, .f32⟩) (.of main_call8_call0_v1 : StableHlo.TRef sig ⟨S128, .f32⟩) (broadcastInDim S128 ![] bcast_S_S128),
    StableHlo.TRef.ternary (.of main_call8_v12 : StableHlo.TRef sig ⟨S_, .i1⟩) (.of main_call8_v11 : StableHlo.TRef sig ⟨S128, .f32⟩) (.of main_call8_call0_v1 : StableHlo.TRef sig ⟨S128, .f32⟩) (.of main_v167 : StableHlo.TRef sig ⟨S128, .f32⟩) (fun p a b => select (broadcastInDim S128 ![] bcast_S_S128 p) a b),
    StableHlo.unary main_arg6 main_v168 ((extractStridedSlice S1x128 ![2, 0] · slices_S4x128_S1x128_2_0) : (⟨S4x128, .f32⟩ : BufTy).Contents (Elt F) → (⟨S1x128, .f32⟩ : BufTy).Contents (Elt F)),
    StableHlo.reshape main_v168 main_v169 rfl shapeCasts_S1x128_S128,
    StableHlo.unary main_v166 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S50000x128 ![0, 1] bcast_S1x128_S50000x128_0_1 : (⟨S1x128, .f32⟩ : BufTy).Contents (Elt F) → (⟨S50000x128, .f32⟩ : BufTy).Contents (Elt F)),
    StableHlo.binary main_v163 main_v171 main_v172 (subf : (⟨S50000x128, .f32⟩ : BufTy).Contents (Elt F) → (⟨S50000x128, .f32⟩ : BufTy).Contents (Elt F) → (⟨S50000x128, .f32⟩ : BufTy).Contents (Elt F)),
    StableHlo.unary main_v169 main_v173 (broadcastInDim S1x128 ![1] bcast_S128_S1x128_1 : (⟨S128, .f32⟩ : BufTy).Contents (Elt F) → (⟨S1x128, .f32⟩ : BufTy).Contents (Elt F)),
    StableHlo.unary main_v173 main_v174 (broadcastInDim S50000x128 ![0, 1] bcast_S1x128_S50000x128_0_1 : (⟨S1x128, .f32⟩ : BufTy).Contents (Elt F) → (⟨S50000x128, .f32⟩ : BufTy).Contents (Elt F)),
    StableHlo.binary main_v174 main_v172 main_v175 (mulf : (⟨S50000x128, .f32⟩ : BufTy).Contents (Elt F) → (⟨S50000x128, .f32⟩ : BufTy).Contents (Elt F) → (⟨S50000x128, .f32⟩ : BufTy).Contents (Elt F)),
    StableHlo.nullary main_cst_32 (constant S_ .f32 0x3727C5AC#32),
    StableHlo.unary main_cst_32 main_v176 (broadcastInDim S128 ![] bcast_S_S128 : (⟨S_, .f32⟩ : BufTy).Contents (Elt F) → (⟨S128, .f32⟩ : BufTy).Contents (Elt F)),
    StableHlo.binary main_v167 main_v176 main_v177 (addf : (⟨S128, .f32⟩ : BufTy).Contents (Elt F) → (⟨S128, .f32⟩ : BufTy).Contents (Elt F) → (⟨S128, .f32⟩ : BufTy).Contents (Elt F)),
    StableHlo.unary main_v177 main_v178 (Host.rsqrt : (⟨S128, .f32⟩ : BufTy).Contents (Elt F) → (⟨S128, .f32⟩ : BufTy).Contents (Elt F)),
    StableHlo.unary main_v178 main_v179 (broadcastInDim S1x128 ![1] bcast_S128_S1x128_1 : (⟨S128, .f32⟩ : BufTy).Contents (Elt F) → (⟨S1x128, .f32⟩ : BufTy).Contents (Elt F)),
    StableHlo.unary main_v179 main_v180 (broadcastInDim S50000x128 ![0, 1] bcast_S1x128_S50000x128_0_1 : (⟨S1x128, .f32⟩ : BufTy).Contents (Elt F) → (⟨S50000x128, .f32⟩ : BufTy).Contents (Elt F)),
    StableHlo.binary main_v175 main_v180 main_v181 (mulf : (⟨S50000x128, .f32⟩ : BufTy).Contents (Elt F) → (⟨S50000x128, .f32⟩ : BufTy).Contents (Elt F) → (⟨S50000x128, .f32⟩ : BufTy).Contents (Elt F)),
    StableHlo.unary main_arg7 main_v182 ((extractStridedSlice S1x128 ![2, 0] · slices_S4x128_S1x128_2_0) : (⟨S4x128, .f32⟩ : BufTy).Contents (Elt F) → (⟨S1x128, .f32⟩ : BufTy).Contents (Elt F)),
    StableHlo.reshape main_v182 main_v183 rfl shapeCasts_S1x128_S128,
    StableHlo.unary main_v183 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S50000x128 ![0, 1] bcast_S1x128_S50000x128_0_1 : (⟨S1x128, .f32⟩ : BufTy).Contents (Elt F) → (⟨S50000x128, .f32⟩ : BufTy).Contents (Elt F)),
    StableHlo.binary main_v181 main_v185 main_v186 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S50000x128, .f32⟩) (broadcastInDim S50000x128 ![] bcast_S_S50000x128),
    StableHlo.TRef.binary (.of main_v186 : StableHlo.TRef sig ⟨S50000x128, .f32⟩) (.of main_call9_v0 : StableHlo.TRef sig ⟨S50000x128, .f32⟩) (.of main_v187 : StableHlo.TRef sig ⟨S50000x128, .f32⟩) maximumf,
    StableHlo.binary main_v187 main_v142 main_v188 (addf : (⟨S50000x128, .f32⟩ : BufTy).Contents (Elt F) → (⟨S50000x128, .f32⟩ : BufTy).Contents (Elt F) → (⟨S50000x128, .f32⟩ : BufTy).Contents (Elt F)) ]
theorem opsBn2_sub : (opsBn2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩
/-- The buffers these operations write. -/
abbrev opsBn2_W : List (Ref sig .tc) := [main_cst_29, main_v164, main_cst_30, main_v165, main_v166, main_c_31, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v167, main_v168, main_v169, main_v170, main_v171, main_v172, main_v173, main_v174, main_v175, main_cst_32, main_v176, main_v177, main_v178, main_v179, main_v180, main_v181, main_v182, main_v183, main_v184, main_v185, main_v186, main_call9_cst, main_call9_v0, main_v187, main_v188]

/-- The 26 operations of layer 3: the dense product, the aggregation over edges, bias and rectification. -/
abbrev opsAgg3 : List (HloOp τ sig (Elt F)) :=
  [ StableHlo.unary main_arg4 main_v189 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v189 main_v190 rfl shapeCasts_S1x128x128_S128x128,
    StableHlo.binary main_v188 main_v190 main_v191 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_33 (constantI S_ 32 0#32),
    StableHlo.unary main_c_33 main_v192 (broadcastInDim S850000 ![] bcast_S_S850000 : (⟨S_, .i32⟩ : BufTy).Contents (Elt F) → (⟨S850000, .i32⟩ : BufTy).Contents (Elt F)),
    StableHlo.binary main_v21 main_v192 main_v193 (cmpi .slt : (⟨S850000, .i32⟩ : BufTy).Contents (Elt F) → (⟨S850000, .i32⟩ : BufTy).Contents (Elt F) → (⟨S850000, .i1⟩ : BufTy).Contents (Elt F)),
    StableHlo.nullary main_c_34 (constantI S_ 32 50000#32),
    StableHlo.unary main_c_34 main_v194 (broadcastInDim S850000 ![] bcast_S_S850000 : (⟨S_, .i32⟩ : BufTy).Contents (Elt F) → (⟨S850000, .i32⟩ : BufTy).Contents (Elt F)),
    StableHlo.binary main_v21 main_v194 main_v195 (addi : (⟨S850000, .i32⟩ : BufTy).Contents (Elt F) → (⟨S850000, .i32⟩ : BufTy).Contents (Elt F) → (⟨S850000, .i32⟩ : BufTy).Contents (Elt F)),
    StableHlo.ternary main_v193 main_v195 main_v21 main_v196 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v196 main_v197 (broadcastInDim S850000x1 ![0] bcast_S850000_S850000x1_0 : (⟨S850000, .i32⟩ : BufTy).Contents (Elt F) → (⟨S850000x1, .i32⟩ : BufTy).Contents (Elt F)),
    StableHlo.binary main_v191 main_v197 main_v198 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v50 main_v199 (broadcastInDim S850000x128 ![0, 1] bcast_S850000x1_S850000x128_0_1 : (⟨S850000x1, .f32⟩ : BufTy).Contents (Elt F) → (⟨S850000x128, .f32⟩ : BufTy).Contents (Elt F)),
    StableHlo.binary main_v198 main_v199 main_v200 (mulf : (⟨S850000x128, .f32⟩ : BufTy).Contents (Elt F) → (⟨S850000x128, .f32⟩ : BufTy).Contents (Elt F) → (⟨S850000x128, .f32⟩ : BufTy).Contents (Elt F)),
    StableHlo.nullary main_cst_35 (constant S_ .f32 0x00000000#32),
    StableHlo.unary main_cst_35 main_v201 (broadcastInDim S50000x128 ![] bcast_S_S50000x128 : (⟨S_, .f32⟩ : BufTy).Contents (Elt F) → (⟨S50000x128, .f32⟩ : BufTy).Contents (Elt F)),
    StableHlo.unary main_v24 main_v202 (broadcastInDim S850000x1 ![0] bcast_S850000_S850000x1_0 : (⟨S850000, .i32⟩ : BufTy).Contents (Elt F) → (⟨S850000x1, .i32⟩ : BufTy).Contents (Elt F)),
    StableHlo.ternary main_v201 main_v202 main_v200 main_v203 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v204 ((extractStridedSlice S1x128 ![3, 0] · slices_S4x128_S1x128_3_0) : (⟨S4x128, .f32⟩ : BufTy).Contents (Elt F) → (⟨S1x128, .f32⟩ : BufTy).Contents (Elt F)),
    StableHlo.reshape main_v204 main_v205 rfl shapeCasts_S1x128_S128,
    StableHlo.unary main_v205 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S50000x128 ![0, 1] bcast_S1x128_S50000x128_0_1 : (⟨S1x128, .f32⟩ : BufTy).Contents (Elt F) → (⟨S50000x128, .f32⟩ : BufTy).Contents (Elt F)),
    StableHlo.binary main_v203 main_v207 main_v208 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call10_cst : StableHlo.TRef sig ⟨S_, .f32⟩) (constant S_ .f32 0x00000000#32),
    StableHlo.TRef.unary (.of main_call10_cst : StableHlo.TRef sig ⟨S_, .f32⟩) (.of main_call10_v0 : StableHlo.TRef sig ⟨S50000x128, .f32⟩) (broadcastInDim S50000x128 ![] bcast_S_S50000x128),
    StableHlo.TRef.binary (.of main_v208 : StableHlo.TRef sig ⟨S50000x128, .f32⟩) (.of main_call10_v0 : StableHlo.TRef sig ⟨S50000x128, .f32⟩) (.of main_v209 : StableHlo.TRef sig ⟨S50000x128, .f32⟩) maximumf ]
theorem opsAgg3_sub : (opsAgg3 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub ..⟩
/-- The buffers these operations write. -/
abbrev opsAgg3_W : List (Ref sig .tc) := [main_v189, main_v190, main_v191, main_c_33, main_v192, main_v193, main_c_34, main_v194, main_v195, main_v196, main_v197, main_v198, main_v199, main_v200, main_cst_35, main_v201, main_v202, main_v203, main_v204, main_v205, main_v206, main_v207, main_v208, main_call10_cst, main_call10_v0, main_v209]

/-- The 52 operations of layer 3: the batch statistics, the normalisation and the residual. -/
abbrev opsBn3 : List (HloOp τ sig (Elt F)) :=
  [ StableHlo.nullary main_cst_36 (constant S_ .f32 0x00000000#32),
    StableHlo.binary main_v209 main_cst_36 main_v210 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_37 (constant S_ .f32 0x47435000#32),
    StableHlo.unary main_cst_37 main_v211 (broadcastInDim S128 ![] bcast_S_S128 : (⟨S_, .f32⟩ : BufTy).Contents (Elt F) → (⟨S128, .f32⟩ : BufTy).Contents (Elt F)),
    StableHlo.binary main_v210 main_v211 main_v212 (Host.divf : (⟨S128, .f32⟩ : BufTy).Contents (Elt F) → (⟨S128, .f32⟩ : BufTy).Contents (Elt F) → (⟨S128, .f32⟩ : BufTy).Contents (Elt F)),
    StableHlo.nullary main_c_38 (constantI S_ 32 0#32),
    StableHlo.TRef.nullary (.of main_call11_cst : StableHlo.TRef sig ⟨S_, .f32⟩) (constant S_ .f32 0x00000000#32),
    StableHlo.TRef.binary (.of main_v209 : StableHlo.TRef sig ⟨S50000x128, .f32⟩) (.of main_call11_cst : StableHlo.TRef sig ⟨S_, .f32⟩) (.of main_call11_v0 : StableHlo.TRef sig ⟨S128, .f32⟩) (fun x v => Host.reduceAdd x v reducesTo_S50000x128_S128_d0 h_S_),
    StableHlo.TRef.unary (.of main_call11_v0 : StableHlo.TRef sig ⟨S128, .f32⟩) (.of main_call11_v1 : StableHlo.TRef sig ⟨S1x128, .f32⟩) (broadcastInDim S1x128 ![1] bcast_S128_S1x128_1),
    StableHlo.TRef.nullary (.of main_call11_cst_0 : StableHlo.TRef sig ⟨S_, .f32⟩) (constant S_ .f32 0x47435000#32),
    StableHlo.TRef.unary (.of main_call11_cst_0 : StableHlo.TRef sig ⟨S_, .f32⟩) (.of main_call11_v2 : StableHlo.TRef sig ⟨S1x128, .f32⟩) (broadcastInDim S1x128 ![] bcast_S_S1x128),
    StableHlo.TRef.binary (.of main_call11_v1 : StableHlo.TRef sig ⟨S1x128, .f32⟩) (.of main_call11_v2 : StableHlo.TRef sig ⟨S1x128, .f32⟩) (.of main_call11_v3 : StableHlo.TRef sig ⟨S1x128, .f32⟩) Host.divf,
    StableHlo.TRef.unary (.of main_call11_v3 : StableHlo.TRef sig ⟨S1x128, .f32⟩) (.of main_call11_v4 : StableHlo.TRef sig ⟨S50000x128, .f32⟩) (broadcastInDim S50000x128 ![0, 1] bcast_S1x128_S50000x128_0_1),
    StableHlo.TRef.binary (.of main_v209 : StableHlo.TRef sig ⟨S50000x128, .f32⟩) (.of main_call11_v4 : StableHlo.TRef sig ⟨S50000x128, .f32⟩) (.of main_call11_v5 : StableHlo.TRef sig ⟨S50000x128, .f32⟩) subf,
    StableHlo.TRef.binary (.of main_call11_v5 : StableHlo.TRef sig ⟨S50000x128, .f32⟩) (.of main_call11_v5 : StableHlo.TRef sig ⟨S50000x128, .f32⟩) (.of main_call11_v6 : StableHlo.TRef sig ⟨S50000x128, .f32⟩) mulf,
    StableHlo.TRef.unary (.of main_c_38 : StableHlo.TRef sig ⟨S_, .i32⟩) (.of main_call11_v7 : StableHlo.TRef sig ⟨S_, .f32⟩) (sitofp .f32),
    StableHlo.TRef.nullary (.of main_call11_cst_1 : StableHlo.TRef sig ⟨S_, .f32⟩) (constant S_ .f32 0x47435000#32),
    StableHlo.TRef.binary (.of main_call11_cst_1 : StableHlo.TRef sig ⟨S_, .f32⟩) (.of main_call11_v7 : StableHlo.TRef sig ⟨S_, .f32⟩) (.of main_call11_v8 : StableHlo.TRef sig ⟨S_, .f32⟩) subf,
    StableHlo.TRef.nullary (.of main_call11_cst_2 : StableHlo.TRef sig ⟨S_, .f32⟩) (constant S_ .f32 0x00000000#32),
    StableHlo.TRef.binary (.of main_call11_v6 : StableHlo.TRef sig ⟨S50000x128, .f32⟩) (.of main_call11_cst_2 : StableHlo.TRef sig ⟨S_, .f32⟩) (.of main_call11_v9 : StableHlo.TRef sig ⟨S128, .f32⟩) (fun x v => Host.reduceAdd x v reducesTo_S50000x128_S128_d0 h_S_),
    StableHlo.TRef.unary (.of main_call11_v8 : StableHlo.TRef sig ⟨S_, .f32⟩) (.of main_call11_v10 : StableHlo.TRef sig ⟨S128, .f32⟩) (broadcastInDim S128 ![] bcast_S_S128),
    StableHlo.TRef.binary (.of main_call11_v9 : StableHlo.TRef sig ⟨S128, .f32⟩) (.of main_call11_v10 : StableHlo.TRef sig ⟨S128, .f32⟩) (.of main_call11_v11 : StableHlo.TRef sig ⟨S128, .f32⟩) Host.divf,
    StableHlo.TRef.nullary (.of main_call11_cst_3 : StableHlo.TRef sig ⟨S_, .f32⟩) (constant S_ .f32 0x00000000#32),
    StableHlo.TRef.binary (.of main_call11_v8 : StableHlo.TRef sig ⟨S_, .f32⟩) (.of main_call11_cst_3 : StableHlo.TRef sig ⟨S_, .f32⟩) (.of main_call11_v12 : StableHlo.TRef sig ⟨S_, .i1⟩) (cmpf .ogt),
    StableHlo.TRef.nullary (.of main_call11_cst_4 : StableHlo.TRef sig ⟨S_, .f32⟩) (constant S_ .f32 0x7FC00000#32),
    StableHlo.TRef.unary (.of main_call11_cst_4 : StableHlo.TRef sig ⟨S_, .f32⟩) (.of main_call11_call0_v0 : StableHlo.TRef sig ⟨S_, .f32⟩) id,
    StableHlo.TRef.unary (.of main_call11_call0_v0 : StableHlo.TRef sig ⟨S_, .f32⟩) (.of main_call11_call0_v1 : StableHlo.TRef sig ⟨S128, .f32⟩) (broadcastInDim S128 ![] bcast_S_S128),
    StableHlo.TRef.ternary (.of main_call11_v12 : StableHlo.TRef sig ⟨S_, .i1⟩) (.of main_call11_v11 : StableHlo.TRef sig ⟨S128, .f32⟩) (.of main_call11_call0_v1 : StableHlo.TRef sig ⟨S128, .f32⟩) (.of main_v213 : StableHlo.TRef sig ⟨S128, .f32⟩) (fun p a b => select (broadcastInDim S128 ![] bcast_S_S128 p) a b),
    StableHlo.unary main_arg6 main_v214 ((extractStridedSlice S1x128 ![3, 0] · slices_S4x128_S1x128_3_0) : (⟨S4x128, .f32⟩ : BufTy).Contents (Elt F) → (⟨S1x128, .f32⟩ : BufTy).Contents (Elt F)),
    StableHlo.reshape main_v214 main_v215 rfl shapeCasts_S1x128_S128,
    StableHlo.unary main_v212 main_v216 (broadcastInDim S1x128 ![1] bcast_S128_S1x128_1 : (⟨S128, .f32⟩ : BufTy).Contents (Elt F) → (⟨S1x128, .f32⟩ : BufTy).Contents (Elt F)),
    StableHlo.unary main_v216 main_v217 (broadcastInDim S50000x128 ![0, 1] bcast_S1x128_S50000x128_0_1 : (⟨S1x128, .f32⟩ : BufTy).Contents (Elt F) → (⟨S50000x128, .f32⟩ : BufTy).Contents (Elt F)),
    StableHlo.binary main_v209 main_v217 main_v218 (subf : (⟨S50000x128, .f32⟩ : BufTy).Contents (Elt F) → (⟨S50000x128, .f32⟩ : BufTy).Contents (Elt F) → (⟨S50000x128, .f32⟩ : BufTy).Contents (Elt F)),
    StableHlo.unary main_v215 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S50000x128 ![0, 1] bcast_S1x128_S50000x128_0_1 : (⟨S1x128, .f32⟩ : BufTy).Contents (Elt F) → (⟨S50000x128, .f32⟩ : BufTy).Contents (Elt F)),
    StableHlo.binary main_v220 main_v218 main_v221 (mulf : (⟨S50000x128, .f32⟩ : BufTy).Contents (Elt F) → (⟨S50000x128, .f32⟩ : BufTy).Contents (Elt F) → (⟨S50000x128, .f32⟩ : BufTy).Contents (Elt F)),
    StableHlo.nullary main_cst_39 (constant S_ .f32 0x3727C5AC#32),
    StableHlo.unary main_cst_39 main_v222 (broadcastInDim S128 ![] bcast_S_S128 : (⟨S_, .f32⟩ : BufTy).Contents (Elt F) → (⟨S128, .f32⟩ : BufTy).Contents (Elt F)),
    StableHlo.binary main_v213 main_v222 main_v223 (addf : (⟨S128, .f32⟩ : BufTy).Contents (Elt F) → (⟨S128, .f32⟩ : BufTy).Contents (Elt F) → (⟨S128, .f32⟩ : BufTy).Contents (Elt F)),
    StableHlo.unary main_v223 main_v224 (Host.rsqrt : (⟨S128, .f32⟩ : BufTy).Contents (Elt F) → (⟨S128, .f32⟩ : BufTy).Contents (Elt F)),
    StableHlo.unary main_v224 main_v225 (broadcastInDim S1x128 ![1] bcast_S128_S1x128_1 : (⟨S128, .f32⟩ : BufTy).Contents (Elt F) → (⟨S1x128, .f32⟩ : BufTy).Contents (Elt F)),
    StableHlo.unary main_v225 main_v226 (broadcastInDim S50000x128 ![0, 1] bcast_S1x128_S50000x128_0_1 : (⟨S1x128, .f32⟩ : BufTy).Contents (Elt F) → (⟨S50000x128, .f32⟩ : BufTy).Contents (Elt F)),
    StableHlo.binary main_v221 main_v226 main_v227 (mulf : (⟨S50000x128, .f32⟩ : BufTy).Contents (Elt F) → (⟨S50000x128, .f32⟩ : BufTy).Contents (Elt F) → (⟨S50000x128, .f32⟩ : BufTy).Contents (Elt F)),
    StableHlo.unary main_arg7 main_v228 ((extractStridedSlice S1x128 ![3, 0] · slices_S4x128_S1x128_3_0) : (⟨S4x128, .f32⟩ : BufTy).Contents (Elt F) → (⟨S1x128, .f32⟩ : BufTy).Contents (Elt F)),
    StableHlo.reshape main_v228 main_v229 rfl shapeCasts_S1x128_S128,
    StableHlo.unary main_v229 main_v230 (broadcastInDim S1x128 ![1] bcast_S128_S1x128_1 : (⟨S128, .f32⟩ : BufTy).Contents (Elt F) → (⟨S1x128, .f32⟩ : BufTy).Contents (Elt F)),
    StableHlo.unary main_v230 main_v231 (broadcastInDim S50000x128 ![0, 1] bcast_S1x128_S50000x128_0_1 : (⟨S1x128, .f32⟩ : BufTy).Contents (Elt F) → (⟨S50000x128, .f32⟩ : BufTy).Contents (Elt F)),
    StableHlo.binary main_v227 main_v231 main_v232 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call12_cst : StableHlo.TRef sig ⟨S_, .f32⟩) (constant S_ .f32 0x00000000#32),
    StableHlo.TRef.unary (.of main_call12_cst : StableHlo.TRef sig ⟨S_, .f32⟩) (.of main_call12_v0 : StableHlo.TRef sig ⟨S50000x128, .f32⟩) (broadcastInDim S50000x128 ![] bcast_S_S50000x128),
    StableHlo.TRef.binary (.of main_v232 : StableHlo.TRef sig ⟨S50000x128, .f32⟩) (.of main_call12_v0 : StableHlo.TRef sig ⟨S50000x128, .f32⟩) (.of main_v233 : StableHlo.TRef sig ⟨S50000x128, .f32⟩) maximumf,
    StableHlo.binary main_v233 main_v188 main_v234 (addf : (⟨S50000x128, .f32⟩ : BufTy).Contents (Elt F) → (⟨S50000x128, .f32⟩ : BufTy).Contents (Elt F) → (⟨S50000x128, .f32⟩ : BufTy).Contents (Elt F)) ]
theorem opsBn3_sub : (opsBn3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩
/-- The buffers these operations write. -/
abbrev opsBn3_W : List (Ref sig .tc) := [main_cst_36, main_v210, main_cst_37, main_v211, main_v212, main_c_38, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v213, main_v214, main_v215, main_v216, main_v217, main_v218, main_v219, main_v220, main_v221, main_cst_39, main_v222, main_v223, main_v224, main_v225, main_v226, main_v227, main_v228, main_v229, main_v230, main_v231, main_v232, main_call12_cst, main_call12_v0, main_v233, main_v234]

/-- The 28 operations of the per-graph mean and the logistic readout. -/
abbrev opsOut : List (HloOp τ sig (Elt F)) :=
  [ StableHlo.nullary main_cst_40 (constant S_ .f32 0x3F800000#32),
    StableHlo.unary main_cst_40 main_v235 (broadcastInDim S50000 ![] bcast_S_S50000 : (⟨S_, .f32⟩ : BufTy).Contents (Elt F) → (⟨S50000, .f32⟩ : BufTy).Contents (Elt F)),
    StableHlo.nullary main_cst_41 (constant S_ .f32 0x00000000#32),
    StableHlo.unary main_cst_41 main_v236 (broadcastInDim S1000 ![] bcast_S_S1000 : (⟨S_, .f32⟩ : BufTy).Contents (Elt F) → (⟨S1000, .f32⟩ : BufTy).Contents (Elt F)),
    StableHlo.unary main_arg2 main_v237 (broadcastInDim S50000x1 ![0] bcast_S50000_S50000x1_0 : (⟨S50000, .i32⟩ : BufTy).Contents (Elt F) → (⟨S50000x1, .i32⟩ : BufTy).Contents (Elt F)),
    StableHlo.ternary main_v236 main_v237 main_v235 main_v238 ((fun x i u => Host.scatterAdd scatter_S1000_S50000x1_S50000_n_0_0_1 x i u) : (⟨S1000, .f32⟩ : BufTy).Contents (Elt F) → (⟨S50000x1, .i32⟩ : BufTy).Contents (Elt F) → (⟨S50000, .f32⟩ : BufTy).Contents (Elt F) → (⟨S1000, .f32⟩ : BufTy).Contents (Elt F)),
    StableHlo.nullary main_cst_42 (constant S_ .f32 0x00000000#32),
    StableHlo.unary main_cst_42 main_v239 (broadcastInDim S1000x128 ![] bcast_S_S1000x128 : (⟨S_, .f32⟩ : BufTy).Contents (Elt F) → (⟨S1000x128, .f32⟩ : BufTy).Contents (Elt F)),
    StableHlo.unary main_arg2 main_v240 (broadcastInDim S50000x1 ![0] bcast_S50000_S50000x1_0 : (⟨S50000, .i32⟩ : BufTy).Contents (Elt F) → (⟨S50000x1, .i32⟩ : BufTy).Contents (Elt F)),
    StableHlo.ternary main_v239 main_v240 main_v234 main_v241 ((fun x i u => Host.scatterAdd scatter_S1000x128_S50000x1_S50000x128_1_0_0_1 x i u) : (⟨S1000x128, .f32⟩ : BufTy).Contents (Elt F) → (⟨S50000x1, .i32⟩ : BufTy).Contents (Elt F) → (⟨S50000x128, .f32⟩ : BufTy).Contents (Elt F) → (⟨S1000x128, .f32⟩ : BufTy).Contents (Elt F)),
    StableHlo.nullary main_cst_43 (constant S_ .f32 0x3F800000#32),
    StableHlo.unary main_cst_43 main_v242 (broadcastInDim S1000 ![] bcast_S_S1000 : (⟨S_, .f32⟩ : BufTy).Contents (Elt F) → (⟨S1000, .f32⟩ : BufTy).Contents (Elt F)),
    StableHlo.binary main_v238 main_v242 main_v243 (maximumf : (⟨S1000, .f32⟩ : BufTy).Contents (Elt F) → (⟨S1000, .f32⟩ : BufTy).Contents (Elt F) → (⟨S1000, .f32⟩ : BufTy).Contents (Elt F)),
    StableHlo.unary main_v243 main_v244 (broadcastInDim S1000x1 ![0] bcast_S1000_S1000x1_0 : (⟨S1000, .f32⟩ : BufTy).Contents (Elt F) → (⟨S1000x1, .f32⟩ : BufTy).Contents (Elt F)),
    StableHlo.unary main_v244 main_v245 (broadcastInDim S1000x128 ![0, 1] bcast_S1000x1_S1000x128_0_1 : (⟨S1000x1, .f32⟩ : BufTy).Contents (Elt F) → (⟨S1000x128, .f32⟩ : BufTy).Contents (Elt F)),
    StableHlo.binary main_v241 main_v245 main_v246 (Host.divf : (⟨S1000x128, .f32⟩ : BufTy).Contents (Elt F) → (⟨S1000x128, .f32⟩ : BufTy).Contents (Elt F) → (⟨S1000x128, .f32⟩ : BufTy).Contents (Elt F)),
    StableHlo.binary main_v246 main_arg8 main_v247 ((fun l r => Host.dotGeneral dot_S1000x128_S128x1_S1000x1_1_0_0_1_n_n none l r) : (⟨S1000x128, .f32⟩ : BufTy).Contents (Elt F) → (⟨S128x1, .f32⟩ : BufTy).Contents (Elt F) → (⟨S1000x1, .f32⟩ : BufTy).Contents (Elt F)),
    StableHlo.unary main_arg9 main_v248 (broadcastInDim S1x1 ![1] bcast_S1_S1x1_1 : (⟨S1, .f32⟩ : BufTy).Contents (Elt F) → (⟨S1x1, .f32⟩ : BufTy).Contents (Elt F)),
    StableHlo.unary main_v248 main_v249 (broadcastInDim S1000x1 ![0, 1] bcast_S1x1_S1000x1_0_1 : (⟨S1x1, .f32⟩ : BufTy).Contents (Elt F) → (⟨S1000x1, .f32⟩ : BufTy).Contents (Elt F)),
    StableHlo.binary main_v247 main_v249 main_v250 (addf : (⟨S1000x1, .f32⟩ : BufTy).Contents (Elt F) → (⟨S1000x1, .f32⟩ : BufTy).Contents (Elt F) → (⟨S1000x1, .f32⟩ : BufTy).Contents (Elt F)),
    StableHlo.unary main_v250 main_v251 (Host.negf : (⟨S1000x1, .f32⟩ : BufTy).Contents (Elt F) → (⟨S1000x1, .f32⟩ : BufTy).Contents (Elt F)),
    StableHlo.unary main_v251 main_v252 (Host.exp : (⟨S1000x1, .f32⟩ : BufTy).Contents (Elt F) → (⟨S1000x1, .f32⟩ : BufTy).Contents (Elt F)),
    StableHlo.nullary main_cst_44 (constant S_ .f32 0x3F800000#32),
    StableHlo.unary main_cst_44 main_v253 (broadcastInDim S1000x1 ![] bcast_S_S1000x1 : (⟨S_, .f32⟩ : BufTy).Contents (Elt F) → (⟨S1000x1, .f32⟩ : BufTy).Contents (Elt F)),
    StableHlo.binary main_v253 main_v252 main_v254 (addf : (⟨S1000x1, .f32⟩ : BufTy).Contents (Elt F) → (⟨S1000x1, .f32⟩ : BufTy).Contents (Elt F) → (⟨S1000x1, .f32⟩ : BufTy).Contents (Elt F)),
    StableHlo.nullary main_cst_45 (constant S_ .f32 0x3F800000#32),
    StableHlo.unary main_cst_45 main_v255 (broadcastInDim S1000x1 ![] bcast_S_S1000x1 : (⟨S_, .f32⟩ : BufTy).Contents (Elt F) → (⟨S1000x1, .f32⟩ : BufTy).Contents (Elt F)),
    StableHlo.binary main_v255 main_v254 main_v256 (Host.divf : (⟨S1000x1, .f32⟩ : BufTy).Contents (Elt F) → (⟨S1000x1, .f32⟩ : BufTy).Contents (Elt F) → (⟨S1000x1, .f32⟩ : BufTy).Contents (Elt F)) ]
theorem opsOut_sub : (opsOut : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
/-- The buffers these operations write. -/
abbrev opsOut_W : List (Ref sig .tc) := [main_cst_40, main_v235, main_cst_41, main_v236, main_v237, main_v238, main_cst_42, main_v239, main_v240, main_v241, main_cst_43, main_v242, main_v243, main_v244, main_v245, main_v246, main_v247, main_v248, main_v249, main_v250, main_v251, main_v252, main_cst_44, main_v253, main_v254, main_cst_45, main_v255, main_v256]

/-- @main's 407 operations, in order. -/
abbrev ops : List (HloOp τ sig (Elt F)) :=
  opsEnc ++ (opsNorm ++ (opsAgg0 ++ (opsBn0 ++ (opsAgg1 ++ (opsBn1 ++ (opsAgg2 ++ (opsBn2 ++ (opsAgg3 ++ (opsBn3 ++ (opsOut))))))))))

end Cert.RVal

end
-- ==== Proof.RRun.lean ====
import proofs.«424614_j7395933684274_1_alg».proof.Proof.ROps

noncomputable section

namespace Cert.RVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

set_option maxRecDepth 16384 in
theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp opsEnc_sub op h,
      List.forall_iff_forall_mem.mp opsNorm_sub op h,
      List.forall_iff_forall_mem.mp opsAgg0_sub op h,
      List.forall_iff_forall_mem.mp opsBn0_sub op h,
      List.forall_iff_forall_mem.mp opsAgg1_sub op h,
      List.forall_iff_forall_mem.mp opsBn1_sub op h,
      List.forall_iff_forall_mem.mp opsAgg2_sub op h,
      List.forall_iff_forall_mem.mp opsBn2_sub op h,
      List.forall_iff_forall_mem.mp opsAgg3_sub op h,
      List.forall_iff_forall_mem.mp opsBn3_sub op h,
      List.forall_iff_forall_mem.mp opsOut_sub op h]

local macro "fresh_by_cases" : tactic =>
  `(tactic| (intro _ h; (repeat (cases h with | head => rfl | tail _ h => ?_)); exact nomatch h))

theorem opsEnc_fresh : ∀ op ∈ (opsEnc : List (HloOp τ sig (Elt F))), op.fresh = ∅ := by fresh_by_cases
theorem opsNorm_fresh : ∀ op ∈ (opsNorm : List (HloOp τ sig (Elt F))), op.fresh = ∅ := by fresh_by_cases
theorem opsAgg0_fresh : ∀ op ∈ (opsAgg0 : List (HloOp τ sig (Elt F))), op.fresh = ∅ := by fresh_by_cases
theorem opsBn0_fresh : ∀ op ∈ (opsBn0 : List (HloOp τ sig (Elt F))), op.fresh = ∅ := by fresh_by_cases
theorem opsAgg1_fresh : ∀ op ∈ (opsAgg1 : List (HloOp τ sig (Elt F))), op.fresh = ∅ := by fresh_by_cases
theorem opsBn1_fresh : ∀ op ∈ (opsBn1 : List (HloOp τ sig (Elt F))), op.fresh = ∅ := by fresh_by_cases
theorem opsAgg2_fresh : ∀ op ∈ (opsAgg2 : List (HloOp τ sig (Elt F))), op.fresh = ∅ := by fresh_by_cases
theorem opsBn2_fresh : ∀ op ∈ (opsBn2 : List (HloOp τ sig (Elt F))), op.fresh = ∅ := by fresh_by_cases
theorem opsAgg3_fresh : ∀ op ∈ (opsAgg3 : List (HloOp τ sig (Elt F))), op.fresh = ∅ := by fresh_by_cases
theorem opsBn3_fresh : ∀ op ∈ (opsBn3 : List (HloOp τ sig (Elt F))), op.fresh = ∅ := by fresh_by_cases
theorem opsOut_fresh : ∀ op ∈ (opsOut : List (HloOp τ sig (Elt F))), op.fresh = ∅ := by fresh_by_cases

theorem ops_fresh : ∀ op ∈ (ops : List (HloOp τ sig (Elt F))), op.fresh = ∅ := fun op h => by
  simp only [ops, List.mem_append] at h
  rcases h with h | h | h | h | h | h | h | h | h | h | h
  exacts [opsEnc_fresh op h, opsNorm_fresh op h, opsAgg0_fresh op h, opsBn0_fresh op h, opsAgg1_fresh op h, opsBn1_fresh op h, opsAgg2_fresh op h, opsBn2_fresh op h, opsAgg3_fresh op h, opsBn3_fresh op h, opsOut_fresh op h]

theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.RVal

end
-- ==== Proof.RVals.lean ====
import proofs.«424614_j7395933684274_1_alg».proof.Proof.ROps
import proofs.«424614_j7395933684274_1_alg».proof.Proof.Spec
import Idealize.ShloMosaic.Lib.Pipeline.Frame

noncomputable section

namespace Cert.RVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

theorem opsEnc_writes : (opsEnc : List (HloOp τ sig (Elt F))).Forall fun op => op.writes ⊆ (opsEnc_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem opsNorm_writes : (opsNorm : List (HloOp τ sig (Elt F))).Forall fun op => op.writes ⊆ (opsNorm_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem opsAgg0_writes : (opsAgg0 : List (HloOp τ sig (Elt F))).Forall fun op => op.writes ⊆ (opsAgg0_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem opsBn0_writes : (opsBn0 : List (HloOp τ sig (Elt F))).Forall fun op => op.writes ⊆ (opsBn0_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem opsAgg1_writes : (opsAgg1 : List (HloOp τ sig (Elt F))).Forall fun op => op.writes ⊆ (opsAgg1_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem opsBn1_writes : (opsBn1 : List (HloOp τ sig (Elt F))).Forall fun op => op.writes ⊆ (opsBn1_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem opsAgg2_writes : (opsAgg2 : List (HloOp τ sig (Elt F))).Forall fun op => op.writes ⊆ (opsAgg2_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem opsBn2_writes : (opsBn2 : List (HloOp τ sig (Elt F))).Forall fun op => op.writes ⊆ (opsBn2_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem opsAgg3_writes : (opsAgg3 : List (HloOp τ sig (Elt F))).Forall fun op => op.writes ⊆ (opsAgg3_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem opsBn3_writes : (opsBn3 : List (HloOp τ sig (Elt F))).Forall fun op => op.writes ⊆ (opsBn3_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

theorem opsOut_writes : (opsOut : List (HloOp τ sig (Elt F))).Forall fun op => op.writes ⊆ (opsOut_W.map (Proc.devRef (τ := τ) .tc)).toFinset := by
  simp only [List.Forall]
  repeat' apply And.intro
  all_goals (simp only [nullary_writes, unary_writes, binary_writes, ternary_writes, reshape_writes, Finset.singleton_subset_iff, List.mem_toFinset]; exact List.mem_map_of_mem (by decide))

variable (V0 : Valuation τ sig (Elt F))

def val1 : Valuation τ sig (Elt F) := after opsEnc V0

theorem val1_keep (r : Ref sig .tc) (h : r ∉ opsEnc_W) : val1 V0 (Proc.devRef .tc r) = V0 (Proc.devRef .tc r) :=
  after_of_writes_sub opsEnc _ opsEnc_writes h

def val2 : Valuation τ sig (Elt F) := after opsNorm (val1 V0)

theorem val2_keep (r : Ref sig .tc) (h : r ∉ opsNorm_W) : val2 V0 (Proc.devRef .tc r) = val1 V0 (Proc.devRef .tc r) :=
  after_of_writes_sub opsNorm _ opsNorm_writes h

def val3 : Valuation τ sig (Elt F) := after opsAgg0 (val2 V0)

theorem val3_keep (r : Ref sig .tc) (h : r ∉ opsAgg0_W) : val3 V0 (Proc.devRef .tc r) = val2 V0 (Proc.devRef .tc r) :=
  after_of_writes_sub opsAgg0 _ opsAgg0_writes h

def val4 : Valuation τ sig (Elt F) := after opsBn0 (val3 V0)

theorem val4_keep (r : Ref sig .tc) (h : r ∉ opsBn0_W) : val4 V0 (Proc.devRef .tc r) = val3 V0 (Proc.devRef .tc r) :=
  after_of_writes_sub opsBn0 _ opsBn0_writes h

def val5 : Valuation τ sig (Elt F) := after opsAgg1 (val4 V0)

theorem val5_keep (r : Ref sig .tc) (h : r ∉ opsAgg1_W) : val5 V0 (Proc.devRef .tc r) = val4 V0 (Proc.devRef .tc r) :=
  after_of_writes_sub opsAgg1 _ opsAgg1_writes h

def val6 : Valuation τ sig (Elt F) := after opsBn1 (val5 V0)

theorem val6_keep (r : Ref sig .tc) (h : r ∉ opsBn1_W) : val6 V0 (Proc.devRef .tc r) = val5 V0 (Proc.devRef .tc r) :=
  after_of_writes_sub opsBn1 _ opsBn1_writes h

def val7 : Valuation τ sig (Elt F) := after opsAgg2 (val6 V0)

theorem val7_keep (r : Ref sig .tc) (h : r ∉ opsAgg2_W) : val7 V0 (Proc.devRef .tc r) = val6 V0 (Proc.devRef .tc r) :=
  after_of_writes_sub opsAgg2 _ opsAgg2_writes h

def val8 : Valuation τ sig (Elt F) := after opsBn2 (val7 V0)

theorem val8_keep (r : Ref sig .tc) (h : r ∉ opsBn2_W) : val8 V0 (Proc.devRef .tc r) = val7 V0 (Proc.devRef .tc r) :=
  after_of_writes_sub opsBn2 _ opsBn2_writes h

def val9 : Valuation τ sig (Elt F) := after opsAgg3 (val8 V0)

theorem val9_keep (r : Ref sig .tc) (h : r ∉ opsAgg3_W) : val9 V0 (Proc.devRef .tc r) = val8 V0 (Proc.devRef .tc r) :=
  after_of_writes_sub opsAgg3 _ opsAgg3_writes h

def val10 : Valuation τ sig (Elt F) := after opsBn3 (val9 V0)

theorem val10_keep (r : Ref sig .tc) (h : r ∉ opsBn3_W) : val10 V0 (Proc.devRef .tc r) = val9 V0 (Proc.devRef .tc r) :=
  after_of_writes_sub opsBn3 _ opsBn3_writes h

def val11 : Valuation τ sig (Elt F) := after opsOut (val10 V0)

theorem val11_keep (r : Ref sig .tc) (h : r ∉ opsOut_W) : val11 V0 (Proc.devRef .tc r) = val10 V0 (Proc.devRef .tc r) :=
  after_of_writes_sub opsOut _ opsOut_writes h

theorem after_ops : after ops V0 = val11 V0 := by
  simp only [ops, StableHlo.after_append]
  rfl

abbrev W1 : List (Ref sig .tc) := opsEnc_W
theorem val1_arg (r : Ref sig .tc) (h : r ∉ W1) : val1 V0 (Proc.devRef .tc r) = V0 (Proc.devRef .tc r) :=
  val1_keep V0 r h

abbrev W2 : List (Ref sig .tc) := W1 ++ opsNorm_W
theorem val2_arg (r : Ref sig .tc) (h : r ∉ W2) : val2 V0 (Proc.devRef .tc r) = V0 (Proc.devRef .tc r) :=
  (val2_keep V0 r fun hm => h (List.mem_append_right _ hm)).trans (val1_arg V0 r fun hm => h (List.mem_append_left _ hm))

abbrev W3 : List (Ref sig .tc) := W2 ++ opsAgg0_W
theorem val3_arg (r : Ref sig .tc) (h : r ∉ W3) : val3 V0 (Proc.devRef .tc r) = V0 (Proc.devRef .tc r) :=
  (val3_keep V0 r fun hm => h (List.mem_append_right _ hm)).trans (val2_arg V0 r fun hm => h (List.mem_append_left _ hm))

abbrev W4 : List (Ref sig .tc) := W3 ++ opsBn0_W
theorem val4_arg (r : Ref sig .tc) (h : r ∉ W4) : val4 V0 (Proc.devRef .tc r) = V0 (Proc.devRef .tc r) :=
  (val4_keep V0 r fun hm => h (List.mem_append_right _ hm)).trans (val3_arg V0 r fun hm => h (List.mem_append_left _ hm))

abbrev W5 : List (Ref sig .tc) := W4 ++ opsAgg1_W
theorem val5_arg (r : Ref sig .tc) (h : r ∉ W5) : val5 V0 (Proc.devRef .tc r) = V0 (Proc.devRef .tc r) :=
  (val5_keep V0 r fun hm => h (List.mem_append_right _ hm)).trans (val4_arg V0 r fun hm => h (List.mem_append_left _ hm))

abbrev W6 : List (Ref sig .tc) := W5 ++ opsBn1_W
theorem val6_arg (r : Ref sig .tc) (h : r ∉ W6) : val6 V0 (Proc.devRef .tc r) = V0 (Proc.devRef .tc r) :=
  (val6_keep V0 r fun hm => h (List.mem_append_right _ hm)).trans (val5_arg V0 r fun hm => h (List.mem_append_left _ hm))

abbrev W7 : List (Ref sig .tc) := W6 ++ opsAgg2_W
theorem val7_arg (r : Ref sig .tc) (h : r ∉ W7) : val7 V0 (Proc.devRef .tc r) = V0 (Proc.devRef .tc r) :=
  (val7_keep V0 r fun hm => h (List.mem_append_right _ hm)).trans (val6_arg V0 r fun hm => h (List.mem_append_left _ hm))

abbrev W8 : List (Ref sig .tc) := W7 ++ opsBn2_W
theorem val8_arg (r : Ref sig .tc) (h : r ∉ W8) : val8 V0 (Proc.devRef .tc r) = V0 (Proc.devRef .tc r) :=
  (val8_keep V0 r fun hm => h (List.mem_append_right _ hm)).trans (val7_arg V0 r fun hm => h (List.mem_append_left _ hm))

abbrev W9 : List (Ref sig .tc) := W8 ++ opsAgg3_W
theorem val9_arg (r : Ref sig .tc) (h : r ∉ W9) : val9 V0 (Proc.devRef .tc r) = V0 (Proc.devRef .tc r) :=
  (val9_keep V0 r fun hm => h (List.mem_append_right _ hm)).trans (val8_arg V0 r fun hm => h (List.mem_append_left _ hm))

abbrev W10 : List (Ref sig .tc) := W9 ++ opsBn3_W
theorem val10_arg (r : Ref sig .tc) (h : r ∉ W10) : val10 V0 (Proc.devRef .tc r) = V0 (Proc.devRef .tc r) :=
  (val10_keep V0 r fun hm => h (List.mem_append_right _ hm)).trans (val9_arg V0 r fun hm => h (List.mem_append_left _ hm))

abbrev W11 : List (Ref sig .tc) := W10 ++ opsOut_W
theorem val11_arg (r : Ref sig .tc) (h : r ∉ W11) : val11 V0 (Proc.devRef .tc r) = V0 (Proc.devRef .tc r) :=
  (val11_keep V0 r fun hm => h (List.mem_append_right _ hm)).trans (val10_arg V0 r fun hm => h (List.mem_append_left _ hm))

set_option maxHeartbeats 2000000 in
theorem enc_val (V : Valuation τ sig (Elt F)) :
    after opsEnc V main_v17 = Cert.Spec.enc (V main_arg0) (V main_arg3) := by
  simp only [opsEnc]
  after_results_simp
  try simp only [TRef.ofBuf, TRef.toBuf, cast_eq]
  rfl

set_option maxHeartbeats 2000000 in
theorem src_val (V : Valuation τ sig (Elt F)) :
    after opsNorm V main_v21 = Cert.Spec.src (V main_arg1) := by
  simp only [opsNorm]
  after_results_simp
  try simp only [TRef.ofBuf, TRef.toBuf, cast_eq]
  rfl

set_option maxHeartbeats 2000000 in
theorem dst_val (V : Valuation τ sig (Elt F)) :
    after opsNorm V main_v24 = Cert.Spec.dst (V main_arg1) := by
  simp only [opsNorm]
  after_results_simp
  try simp only [TRef.ofBuf, TRef.toBuf, cast_eq]
  rfl

set_option maxHeartbeats 2000000 in
theorem norm_val (V : Valuation τ sig (Elt F)) :
    after opsNorm V main_v50 = Cert.Spec.norm (V main_arg1) := by
  simp only [opsNorm]
  after_results_simp
  try simp only [TRef.ofBuf, TRef.toBuf, cast_eq]
  rfl

set_option maxHeartbeats 2000000 in
theorem agg0_val (V : Valuation τ sig (Elt F)) :
    after opsAgg0 V main_v71 = Cert.Spec.agg (Cert.Spec.mm (V main_v17) (Cert.Spec.sliceW0 (V main_arg4))) (Cert.Spec.sliceb0 (V main_arg5)) (V main_v21) (V main_v24) (V main_v50) := by
  simp only [opsAgg0]
  after_results_simp
  try simp only [TRef.ofBuf, TRef.toBuf, cast_eq]
  rfl

set_option maxHeartbeats 2000000 in
theorem bn0_val (V : Valuation τ sig (Elt F)) :
    after opsBn0 V main_v96 = Cert.Spec.bnres (Cert.Spec.sliceg0 (V main_arg6)) (Cert.Spec.slicebeta0 (V main_arg7)) (V main_v71) (Cert.Spec.mean (V main_v71)) (Cert.Spec.var (V main_v71)) (V main_v17) := by
  simp only [opsBn0]
  after_results_simp
  try simp only [TRef.ofBuf, TRef.toBuf, cast_eq]
  rfl

set_option maxHeartbeats 2000000 in
theorem agg1_val (V : Valuation τ sig (Elt F)) :
    after opsAgg1 V main_v117 = Cert.Spec.agg (Cert.Spec.mm (V main_v96) (Cert.Spec.sliceW1 (V main_arg4))) (Cert.Spec.sliceb1 (V main_arg5)) (V main_v21) (V main_v24) (V main_v50) := by
  simp only [opsAgg1]
  after_results_simp
  try simp only [TRef.ofBuf, TRef.toBuf, cast_eq]
  rfl

set_option maxHeartbeats 2000000 in
theorem bn1_val (V : Valuation τ sig (Elt F)) :
    after opsBn1 V main_v142 = Cert.Spec.bnres (Cert.Spec.sliceg1 (V main_arg6)) (Cert.Spec.slicebeta1 (V main_arg7)) (V main_v117) (Cert.Spec.mean (V main_v117)) (Cert.Spec.var (V main_v117)) (V main_v96) := by
  simp only [opsBn1]
  after_results_simp
  try simp only [TRef.ofBuf, TRef.toBuf, cast_eq]
  rfl

set_option maxHeartbeats 2000000 in
theorem agg2_val (V : Valuation τ sig (Elt F)) :
    after opsAgg2 V main_v163 = Cert.Spec.agg (Cert.Spec.mm (V main_v142) (Cert.Spec.sliceW2 (V main_arg4))) (Cert.Spec.sliceb2 (V main_arg5)) (V main_v21) (V main_v24) (V main_v50) := by
  simp only [opsAgg2]
  after_results_simp
  try simp only [TRef.ofBuf, TRef.toBuf, cast_eq]
  rfl

set_option maxHeartbeats 2000000 in
theorem bn2_val (V : Valuation τ sig (Elt F)) :
    after opsBn2 V main_v188 = Cert.Spec.bnres (Cert.Spec.sliceg2 (V main_arg6)) (Cert.Spec.slicebeta2 (V main_arg7)) (V main_v163) (Cert.Spec.mean (V main_v163)) (Cert.Spec.var (V main_v163)) (V main_v142) := by
  simp only [opsBn2]
  after_results_simp
  try simp only [TRef.ofBuf, TRef.toBuf, cast_eq]
  rfl

set_option maxHeartbeats 2000000 in
theorem agg3_val (V : Valuation τ sig (Elt F)) :
    after opsAgg3 V main_v209 = Cert.Spec.agg (Cert.Spec.mm (V main_v188) (Cert.Spec.sliceW3 (V main_arg4))) (Cert.Spec.sliceb3 (V main_arg5)) (V main_v21) (V main_v24) (V main_v50) := by
  simp only [opsAgg3]
  after_results_simp
  try simp only [TRef.ofBuf, TRef.toBuf, cast_eq]
  rfl

set_option maxHeartbeats 2000000 in
theorem bn3_val (V : Valuation τ sig (Elt F)) :
    after opsBn3 V main_v234 = Cert.Spec.bnres (Cert.Spec.sliceg3 (V main_arg6)) (Cert.Spec.slicebeta3 (V main_arg7)) (V main_v209) (Cert.Spec.mean (V main_v209)) (Cert.Spec.var (V main_v209)) (V main_v188) := by
  simp only [opsBn3]
  after_results_simp
  try simp only [TRef.ofBuf, TRef.toBuf, cast_eq]
  rfl

set_option maxHeartbeats 2000000 in
theorem out_val (V : Valuation τ sig (Elt F)) :
    after opsOut V main_v256 = Cert.Spec.out (Cert.Spec.pool (V main_arg2) (V main_v234)) (V main_arg8) (V main_arg9) := by
  simp only [opsOut]
  after_results_simp
  try simp only [TRef.ofBuf, TRef.toBuf, cast_eq]
  rfl

theorem val1_v17 : val1 V0 main_v17 = Cert.Spec.h0 (V0 main_arg0) (V0 main_arg3) := by
  unfold val1
  rw [enc_val]
  rfl

theorem val2_v17 : val2 V0 main_v17 = Cert.Spec.h0 (V0 main_arg0) (V0 main_arg3) := (val2_keep V0 main_v17 (by decide)).trans (val1_v17 V0)

theorem val2_v21 : val2 V0 main_v21 = Cert.Spec.src (V0 main_arg1) := by
  unfold val2
  rw [src_val, val1_arg V0 main_arg1 (by decide)]

theorem val2_v24 : val2 V0 main_v24 = Cert.Spec.dst (V0 main_arg1) := by
  unfold val2
  rw [dst_val, val1_arg V0 main_arg1 (by decide)]

theorem val2_v50 : val2 V0 main_v50 = Cert.Spec.norm (V0 main_arg1) := by
  unfold val2
  rw [norm_val, val1_arg V0 main_arg1 (by decide)]

theorem val3_v71 : val3 V0 main_v71 = Cert.Spec.agg (Cert.Spec.mm (Cert.Spec.h0 (V0 main_arg0) (V0 main_arg3)) (Cert.Spec.sliceW0 (V0 main_arg4))) (Cert.Spec.sliceb0 (V0 main_arg5)) (Cert.Spec.src (V0 main_arg1)) (Cert.Spec.dst (V0 main_arg1)) (Cert.Spec.norm (V0 main_arg1)) := by
  unfold val3
  rw [agg0_val, val2_v17, val2_arg V0 main_arg4 (by decide), val2_arg V0 main_arg5 (by decide), val2_v21, val2_v24, val2_v50]

theorem val3_v17 : val3 V0 main_v17 = Cert.Spec.h0 (V0 main_arg0) (V0 main_arg3) := (val3_keep V0 main_v17 (by decide)).trans (val2_v17 V0)

theorem val3_v21 : val3 V0 main_v21 = Cert.Spec.src (V0 main_arg1) := (val3_keep V0 main_v21 (by decide)).trans (val2_v21 V0)

theorem val3_v24 : val3 V0 main_v24 = Cert.Spec.dst (V0 main_arg1) := (val3_keep V0 main_v24 (by decide)).trans (val2_v24 V0)

theorem val3_v50 : val3 V0 main_v50 = Cert.Spec.norm (V0 main_arg1) := (val3_keep V0 main_v50 (by decide)).trans (val2_v50 V0)

theorem val4_v96 : val4 V0 main_v96 = Cert.Spec.h1 (V0 main_arg0) (V0 main_arg1) (V0 main_arg3) (V0 main_arg4) (V0 main_arg5) (V0 main_arg6) (V0 main_arg7) := by
  unfold val4
  rw [bn0_val, val3_v71, val3_v17, val3_arg V0 main_arg6 (by decide), val3_arg V0 main_arg7 (by decide)]
  rfl

theorem val4_v21 : val4 V0 main_v21 = Cert.Spec.src (V0 main_arg1) := (val4_keep V0 main_v21 (by decide)).trans (val3_v21 V0)

theorem val4_v24 : val4 V0 main_v24 = Cert.Spec.dst (V0 main_arg1) := (val4_keep V0 main_v24 (by decide)).trans (val3_v24 V0)

theorem val4_v50 : val4 V0 main_v50 = Cert.Spec.norm (V0 main_arg1) := (val4_keep V0 main_v50 (by decide)).trans (val3_v50 V0)

theorem val5_v117 : val5 V0 main_v117 = Cert.Spec.agg (Cert.Spec.mm (Cert.Spec.h1 (V0 main_arg0) (V0 main_arg1) (V0 main_arg3) (V0 main_arg4) (V0 main_arg5) (V0 main_arg6) (V0 main_arg7)) (Cert.Spec.sliceW1 (V0 main_arg4))) (Cert.Spec.sliceb1 (V0 main_arg5)) (Cert.Spec.src (V0 main_arg1)) (Cert.Spec.dst (V0 main_arg1)) (Cert.Spec.norm (V0 main_arg1)) := by
  unfold val5
  rw [agg1_val, val4_v96, val4_arg V0 main_arg4 (by decide), val4_arg V0 main_arg5 (by decide), val4_v21, val4_v24, val4_v50]

theorem val5_v96 : val5 V0 main_v96 = Cert.Spec.h1 (V0 main_arg0) (V0 main_arg1) (V0 main_arg3) (V0 main_arg4) (V0 main_arg5) (V0 main_arg6) (V0 main_arg7) := (val5_keep V0 main_v96 (by decide)).trans (val4_v96 V0)

theorem val5_v21 : val5 V0 main_v21 = Cert.Spec.src (V0 main_arg1) := (val5_keep V0 main_v21 (by decide)).trans (val4_v21 V0)

theorem val5_v24 : val5 V0 main_v24 = Cert.Spec.dst (V0 main_arg1) := (val5_keep V0 main_v24 (by decide)).trans (val4_v24 V0)

theorem val5_v50 : val5 V0 main_v50 = Cert.Spec.norm (V0 main_arg1) := (val5_keep V0 main_v50 (by decide)).trans (val4_v50 V0)

theorem val6_v142 : val6 V0 main_v142 = Cert.Spec.h2 (V0 main_arg0) (V0 main_arg1) (V0 main_arg3) (V0 main_arg4) (V0 main_arg5) (V0 main_arg6) (V0 main_arg7) := by
  unfold val6
  rw [bn1_val, val5_v117, val5_v96, val5_arg V0 main_arg6 (by decide), val5_arg V0 main_arg7 (by decide)]
  rfl

theorem val6_v21 : val6 V0 main_v21 = Cert.Spec.src (V0 main_arg1) := (val6_keep V0 main_v21 (by decide)).trans (val5_v21 V0)

theorem val6_v24 : val6 V0 main_v24 = Cert.Spec.dst (V0 main_arg1) := (val6_keep V0 main_v24 (by decide)).trans (val5_v24 V0)

theorem val6_v50 : val6 V0 main_v50 = Cert.Spec.norm (V0 main_arg1) := (val6_keep V0 main_v50 (by decide)).trans (val5_v50 V0)

theorem val7_v163 : val7 V0 main_v163 = Cert.Spec.agg (Cert.Spec.mm (Cert.Spec.h2 (V0 main_arg0) (V0 main_arg1) (V0 main_arg3) (V0 main_arg4) (V0 main_arg5) (V0 main_arg6) (V0 main_arg7)) (Cert.Spec.sliceW2 (V0 main_arg4))) (Cert.Spec.sliceb2 (V0 main_arg5)) (Cert.Spec.src (V0 main_arg1)) (Cert.Spec.dst (V0 main_arg1)) (Cert.Spec.norm (V0 main_arg1)) := by
  unfold val7
  rw [agg2_val, val6_v142, val6_arg V0 main_arg4 (by decide), val6_arg V0 main_arg5 (by decide), val6_v21, val6_v24, val6_v50]

theorem val7_v142 : val7 V0 main_v142 = Cert.Spec.h2 (V0 main_arg0) (V0 main_arg1) (V0 main_arg3) (V0 main_arg4) (V0 main_arg5) (V0 main_arg6) (V0 main_arg7) := (val7_keep V0 main_v142 (by decide)).trans (val6_v142 V0)

theorem val7_v21 : val7 V0 main_v21 = Cert.Spec.src (V0 main_arg1) := (val7_keep V0 main_v21 (by decide)).trans (val6_v21 V0)

theorem val7_v24 : val7 V0 main_v24 = Cert.Spec.dst (V0 main_arg1) := (val7_keep V0 main_v24 (by decide)).trans (val6_v24 V0)

theorem val7_v50 : val7 V0 main_v50 = Cert.Spec.norm (V0 main_arg1) := (val7_keep V0 main_v50 (by decide)).trans (val6_v50 V0)

theorem val8_v188 : val8 V0 main_v188 = Cert.Spec.h3 (V0 main_arg0) (V0 main_arg1) (V0 main_arg3) (V0 main_arg4) (V0 main_arg5) (V0 main_arg6) (V0 main_arg7) := by
  unfold val8
  rw [bn2_val, val7_v163, val7_v142, val7_arg V0 main_arg6 (by decide), val7_arg V0 main_arg7 (by decide)]
  rfl

theorem val8_v21 : val8 V0 main_v21 = Cert.Spec.src (V0 main_arg1) := (val8_keep V0 main_v21 (by decide)).trans (val7_v21 V0)

theorem val8_v24 : val8 V0 main_v24 = Cert.Spec.dst (V0 main_arg1) := (val8_keep V0 main_v24 (by decide)).trans (val7_v24 V0)

theorem val8_v50 : val8 V0 main_v50 = Cert.Spec.norm (V0 main_arg1) := (val8_keep V0 main_v50 (by decide)).trans (val7_v50 V0)

theorem val9_v209 : val9 V0 main_v209 = Cert.Spec.agg (Cert.Spec.mm (Cert.Spec.h3 (V0 main_arg0) (V0 main_arg1) (V0 main_arg3) (V0 main_arg4) (V0 main_arg5) (V0 main_arg6) (V0 main_arg7)) (Cert.Spec.sliceW3 (V0 main_arg4))) (Cert.Spec.sliceb3 (V0 main_arg5)) (Cert.Spec.src (V0 main_arg1)) (Cert.Spec.dst (V0 main_arg1)) (Cert.Spec.norm (V0 main_arg1)) := by
  unfold val9
  rw [agg3_val, val8_v188, val8_arg V0 main_arg4 (by decide), val8_arg V0 main_arg5 (by decide), val8_v21, val8_v24, val8_v50]

theorem val9_v188 : val9 V0 main_v188 = Cert.Spec.h3 (V0 main_arg0) (V0 main_arg1) (V0 main_arg3) (V0 main_arg4) (V0 main_arg5) (V0 main_arg6) (V0 main_arg7) := (val9_keep V0 main_v188 (by decide)).trans (val8_v188 V0)

theorem val10_v234 : val10 V0 main_v234 = Cert.Spec.h4 (V0 main_arg0) (V0 main_arg1) (V0 main_arg3) (V0 main_arg4) (V0 main_arg5) (V0 main_arg6) (V0 main_arg7) := by
  unfold val10
  rw [bn3_val, val9_v209, val9_v188, val9_arg V0 main_arg6 (by decide), val9_arg V0 main_arg7 (by decide)]
  rfl

theorem result_eq :
    after ops V0 main_v256
      = Cert.Spec.result (V0 main_arg0) (V0 main_arg1) (V0 main_arg2) (V0 main_arg3)
          (V0 main_arg4) (V0 main_arg5) (V0 main_arg6) (V0 main_arg7)
          (V0 main_arg8) (V0 main_arg9) := by
  rw [after_ops]
  unfold val11
  rw [out_val, val10_v234, val10_arg V0 main_arg2 (by decide), val10_arg V0 main_arg8 (by decide), val10_arg V0 main_arg9 (by decide)]
  rfl

/-- A buffer no stage writes, an argument in particular, is kept by the whole fold. -/
theorem arg_kept (r : Ref sig .tc) (h : r ∉ W11) : after ops V0 (Proc.devRef .tc r) = V0 (Proc.devRef .tc r) := by
  rw [after_ops]
  exact val11_arg V0 r h

end Cert.RVal

end
-- ==== Proof.lean ====
import proofs.«424614_j7395933684274_1_alg».proof.Defs
import proofs.«424614_j7395933684274_1_alg».proof.Proof.Gen.Kernel
import proofs.«424614_j7395933684274_1_alg».proof.Proof.Gen.Kernel.Frame
import proofs.«424614_j7395933684274_1_alg».proof.Proof.Gen.KernelIdeal
import proofs.«424614_j7395933684274_1_alg».proof.Proof.Gen.KernelIdeal.Frame
import proofs.«424614_j7395933684274_1_alg».proof.Proof.Gen.ReferenceIdeal
import proofs.«424614_j7395933684274_1_alg».proof.Proof.Gen.Pre_finite_inputs
import proofs.«424614_j7395933684274_1_alg».proof.Proof.PreRange
import proofs.«424614_j7395933684274_1_alg».proof.Proof.KRun
import proofs.«424614_j7395933684274_1_alg».proof.Proof.KFold0
import proofs.«424614_j7395933684274_1_alg».proof.Proof.KFold1
import proofs.«424614_j7395933684274_1_alg».proof.Proof.KFold2
import proofs.«424614_j7395933684274_1_alg».proof.Proof.KFoldL1
import proofs.«424614_j7395933684274_1_alg».proof.Proof.KFoldL2
import proofs.«424614_j7395933684274_1_alg».proof.Proof.KFoldL3
import proofs.«424614_j7395933684274_1_alg».proof.Proof.KFold9
import proofs.«424614_j7395933684274_1_alg».proof.Proof.RRun
import proofs.«424614_j7395933684274_1_alg».proof.Proof.RVals
import Idealize.ShloMosaic.Adequacy
import Idealize.ShloMosaic.Init

noncomputable section

namespace Cert.Proof

open Idealize.ShloMosaic Idealize.SL.Sem Cert.KVal

section KernelValue

open Cert.KernelIdeal

variable (m : (ℓ : Loc nD τ sig) → Buf (Elt Ideal) ℓ) (ρ : Dev nD → PrngReg) (c : Dev nD)

theorem kernel_value (hr : InRange (m ((c.tc : Thread nD τ).loc main_arg0))) :
    Gen.W39 m ρ c (Proc.devRef .tc main_v184)
      = Cert.Spec.result (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  obtain ⟨s0h, s0a1, s0a2, s0a4, s0a5, s0a6, s0a7, s0a8, s0a9⟩ := stage0 m ρ c hr
  obtain ⟨s1m, s1src, s1dst, s1nrm, s1v1, s1a2, s1a4, s1a5, s1a6, s1a7, s1a8, s1a9⟩ := stage1 m ρ c
  obtain ⟨s2h, s2v5, s2v8, s2v34, s2a2, s2a4, s2a5, s2a6, s2a7, s2a8, s2a9⟩ := stage2 m ρ c
  obtain ⟨s3h, s3v5, s3v8, s3v34, s3a2, s3a4, s3a5, s3a6, s3a7, s3a8, s3a9⟩ := stageL1 m ρ c
  obtain ⟨s4h, s4v5, s4v8, s4v34, s4a2, s4a4, s4a5, s4a6, s4a7, s4a8, s4a9⟩ := stageL2 m ρ c
  obtain ⟨s5h, _, _, _, s5a2, _, _, _, _, s5a8, s5a9⟩ := stageL3 m ρ c
  rw [stage9 m ρ c, s5h, s5a2, s5a8, s5a9, s4h, s4v5, s4v8, s4v34, s4a2, s4a4, s4a5, s4a6, s4a7, s4a8, s4a9,
    s3h, s3v5, s3v8, s3v34, s3a2, s3a4, s3a5, s3a6, s3a7, s3a8, s3a9,
    s2h, s2v5, s2v8, s2v34, s2a2, s2a4, s2a5, s2a6, s2a7, s2a8, s2a9,
    s1m, s1src, s1dst, s1nrm, s1v1, s1a2, s1a4, s1a5, s1a6, s1a7, s1a8, s1a9,
    s0h, s0a1, s0a2, s0a4, s0a5, s0a6, s0a7, s0a8, s0a9]
  rfl

end KernelValue

theorem frame_k : Cert.frame_Kernel := fun m ρ _ => Cert.Kernel.Gen.frame m ρ
theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c =>
    ⟨(h c Cert.ReferenceIdeal.main_arg0).trans (Cert.RVal.arg_kept _ Cert.ReferenceIdeal.main_arg0 (by decide)), (h c Cert.ReferenceIdeal.main_arg1).trans (Cert.RVal.arg_kept _ Cert.ReferenceIdeal.main_arg1 (by decide)),
     (h c Cert.ReferenceIdeal.main_arg2).trans (Cert.RVal.arg_kept _ Cert.ReferenceIdeal.main_arg2 (by decide)), (h c Cert.ReferenceIdeal.main_arg3).trans (Cert.RVal.arg_kept _ Cert.ReferenceIdeal.main_arg3 (by decide)),
     (h c Cert.ReferenceIdeal.main_arg4).trans (Cert.RVal.arg_kept _ Cert.ReferenceIdeal.main_arg4 (by decide)), (h c Cert.ReferenceIdeal.main_arg5).trans (Cert.RVal.arg_kept _ Cert.ReferenceIdeal.main_arg5 (by decide)),
     (h c Cert.ReferenceIdeal.main_arg6).trans (Cert.RVal.arg_kept _ Cert.ReferenceIdeal.main_arg6 (by decide)), (h c Cert.ReferenceIdeal.main_arg7).trans (Cert.RVal.arg_kept _ Cert.ReferenceIdeal.main_arg7 (by decide)),
     (h c Cert.ReferenceIdeal.main_arg8).trans (Cert.RVal.arg_kept _ Cert.ReferenceIdeal.main_arg8 (by decide)), (h c Cert.ReferenceIdeal.main_arg9).trans (Cert.RVal.arg_kept _ Cert.ReferenceIdeal.main_arg9 (by decide))⟩)
    (Cert.RVal.run_fold (F := Ideal) m ρ)

theorem preserves : Cert.preserves_Kernel_KernelIdeal := trivial

theorem algebraic : Cert.algebraic_KernelIdeal_ReferenceIdeal := by
  intro m ρ m' ρ' hpre hagree
  have hrange : ∀ c : Dev Cert.KernelIdeal.nD, InRange (m ((c.tc : Thread Cert.KernelIdeal.nD Cert.KernelIdeal.τ).loc Cert.KernelIdeal.main_arg0)) :=
    fun c => Cert.PreRange.x_in_range _ _ _ _ _ _ _ _ _ _ (hpre c)
  refine ⟨fun c => Cert.Spec.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun _ h c => ⟨(h c).1.trans (kernel_value m ρ c (hrange c)), (h c).2⟩)
      (Cert.KVal.run_value (F := Ideal) m ρ)
  · refine (θ_run Cert.ReferenceIdeal.defs _ _).mono (fun _ h c => ⟨?_,
      (h c Cert.ReferenceIdeal.main_arg0).trans (Cert.RVal.arg_kept _ Cert.ReferenceIdeal.main_arg0 (by decide)), (h c Cert.ReferenceIdeal.main_arg1).trans (Cert.RVal.arg_kept _ Cert.ReferenceIdeal.main_arg1 (by decide)),
      (h c Cert.ReferenceIdeal.main_arg2).trans (Cert.RVal.arg_kept _ Cert.ReferenceIdeal.main_arg2 (by decide)), (h c Cert.ReferenceIdeal.main_arg3).trans (Cert.RVal.arg_kept _ Cert.ReferenceIdeal.main_arg3 (by decide)),
      (h c Cert.ReferenceIdeal.main_arg4).trans (Cert.RVal.arg_kept _ Cert.ReferenceIdeal.main_arg4 (by decide)), (h c Cert.ReferenceIdeal.main_arg5).trans (Cert.RVal.arg_kept _ Cert.ReferenceIdeal.main_arg5 (by decide)),
      (h c Cert.ReferenceIdeal.main_arg6).trans (Cert.RVal.arg_kept _ Cert.ReferenceIdeal.main_arg6 (by decide)), (h c Cert.ReferenceIdeal.main_arg7).trans (Cert.RVal.arg_kept _ Cert.ReferenceIdeal.main_arg7 (by decide)),
      (h c Cert.ReferenceIdeal.main_arg8).trans (Cert.RVal.arg_kept _ Cert.ReferenceIdeal.main_arg8 (by decide)), (h c Cert.ReferenceIdeal.main_arg9).trans (Cert.RVal.arg_kept _ Cert.ReferenceIdeal.main_arg9 (by decide))⟩)
      (Cert.RVal.run_fold (F := Ideal) m' ρ')
    refine (h c Cert.ReferenceIdeal.main_v256).trans ((Cert.RVal.result_eq _).trans ?_)
    obtain ⟨e0, e1, e2, e3, e4, e5, e6, e7, e8, e9⟩ := hagree c
    have f0 : StableHlo.launchContents m' c (Proc.devRef .tc Cert.ReferenceIdeal.main_arg0) = m ((c.tc : Thread Cert.KernelIdeal.nD Cert.KernelIdeal.τ).loc Cert.KernelIdeal.main_arg0) := e0
    have f1 : StableHlo.launchContents m' c (Proc.devRef .tc Cert.ReferenceIdeal.main_arg1) = m ((c.tc : Thread Cert.KernelIdeal.nD Cert.KernelIdeal.τ).loc Cert.KernelIdeal.main_arg1) := e1
    have f2 : StableHlo.launchContents m' c (Proc.devRef .tc Cert.ReferenceIdeal.main_arg2) = m ((c.tc : Thread Cert.KernelIdeal.nD Cert.KernelIdeal.τ).loc Cert.KernelIdeal.main_arg2) := e2
    have f3 : StableHlo.launchContents m' c (Proc.devRef .tc Cert.ReferenceIdeal.main_arg3) = m ((c.tc : Thread Cert.KernelIdeal.nD Cert.KernelIdeal.τ).loc Cert.KernelIdeal.main_arg3) := e3
    have f4 : StableHlo.launchContents m' c (Proc.devRef .tc Cert.ReferenceIdeal.main_arg4) = m ((c.tc : Thread Cert.KernelIdeal.nD Cert.KernelIdeal.τ).loc Cert.KernelIdeal.main_arg4) := e4
    have f5 : StableHlo.launchContents m' c (Proc.devRef .tc Cert.ReferenceIdeal.main_arg5) = m ((c.tc : Thread Cert.KernelIdeal.nD Cert.KernelIdeal.τ).loc Cert.KernelIdeal.main_arg5) := e5
    have f6 : StableHlo.launchContents m' c (Proc.devRef .tc Cert.ReferenceIdeal.main_arg6) = m ((c.tc : Thread Cert.KernelIdeal.nD Cert.KernelIdeal.τ).loc Cert.KernelIdeal.main_arg6) := e6
    have f7 : StableHlo.launchContents m' c (Proc.devRef .tc Cert.ReferenceIdeal.main_arg7) = m ((c.tc : Thread Cert.KernelIdeal.nD Cert.KernelIdeal.τ).loc Cert.KernelIdeal.main_arg7) := e7
    have f8 : StableHlo.launchContents m' c (Proc.devRef .tc Cert.ReferenceIdeal.main_arg8) = m ((c.tc : Thread Cert.KernelIdeal.nD Cert.KernelIdeal.τ).loc Cert.KernelIdeal.main_arg8) := e8
    have f9 : StableHlo.launchContents m' c (Proc.devRef .tc Cert.ReferenceIdeal.main_arg9) = m ((c.tc : Thread Cert.KernelIdeal.nD Cert.KernelIdeal.τ).loc Cert.KernelIdeal.main_arg9) := e9
    rw [f0, f1, f2, f3, f4, f5, f6, f7, f8, f9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
